-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S400x16 .f32 .bf16
  ∧ IdealRules.truncf_extf.Statement Cert.KernelIdeal.S400x16 .f32 .bf16
  ∧ IdealRules.truncf_extf.Statement Cert.KernelIdeal.S400x16 .f32 .bf16
  ∧ IdealRules.truncf_extf.Statement Cert.KernelIdeal.S10000x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x16 : Shape := ⟨2, ![10000, 16]⟩
abbrev S16x4 : Shape := ⟨2, ![16, 4]⟩
abbrev S10000x4 : Shape := ⟨2, ![10000, 4]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S16x4 : S_.BroadcastsInDim S16x4 (![] : Fin 0 → Fin S16x4.rank)
  reducesTo_S16x4_S_d0_1 : S16x4.ReducesTo [0, 1] S_
  bcast_S_S10000x4 : S_.BroadcastsInDim S10000x4 (![] : Fin 0 → Fin S10000x4.rank)
  reducesTo_S10000x4_S_d0_1 : S10000x4.ReducesTo [0, 1] S_

variable [Facts]

def fn_part3 {F : FTy → Type} [FloatOps F] (main_v48 : IVec S_ 1) (main_v49 : FVec F S10000x4 .f32) (main_v50 : FVec F S10000x4 .f32) : IVec S_ 1 :=
  let main_v51 : IVec S10000x4 1 := cmpf .olt main_v49 main_v50
  let main_c_19 : IVec S_ 1 := constantI S_ 1 1#1
  let main_v52 : IVec S_ 1 := (fun x v => Host.reduce IntOp.andi x v reducesTo_S10000x4_S_d0_1 h_S_) main_v51 main_c_19
  let main_v53 : IVec S_ 1 := andi main_v48 main_v52
  main_v53

def fn_part2 {F : FTy → Type} [FloatOps F] (main_arg7 : FVec F S16x4 .f32) (main_arg8 : FVec F S16x4 .f32) (main_arg9 : FVec F S10000x4 .f32) (main_arg10 : FVec F S10000x4 .f32) (main_v33 : IVec S_ 1) : IVec S_ 1 :=
  let main_v34 : FVec F S16x4 .f32 := Host.absf main_arg7
  let main_cst_12 : FVec F S_ .f32 := constant S_ .f32 0x7F800000#32
  let main_v35 : FVec F S16x4 .f32 := broadcastInDim S16x4 ![] bcast_S_S16x4 main_cst_12
  let main_v36 : IVec S16x4 1 := cmpf .olt main_v34 main_v35
  let main_c_13 : IVec S_ 1 := constantI S_ 1 1#1
  let main_v37 : IVec S_ 1 := (fun x v => Host.reduce IntOp.andi x v reducesTo_S16x4_S_d0_1 h_S_) main_v36 main_c_13
  let main_v38 : IVec S_ 1 := andi main_v33 main_v37
  let main_v39 : FVec F S16x4 .f32 := Host.absf main_arg8
  let main_cst_14 : FVec F S_ .f32 := constant S_ .f32 0x7F800000#32
  let main_v40 : FVec F S16x4 .f32 := broadcastInDim S16x4 ![] bcast_S_S16x4 main_cst_14
  let main_v41 : IVec S16x4 1 := cmpf .olt main_v39 main_v40
  let main_c_15 : IVec S_ 1 := constantI S_ 1 1#1
  let main_v42 : IVec S_ 1 := (fun x v => Host.reduce IntOp.andi x v reducesTo_S16x4_S_d0_1 h_S_) main_v41 main_c_15
  let main_v43 : IVec S_ 1 := andi main_v38 main_v42
  let main_v44 : FVec F S10000x4 .f32 := Host.absf main_arg9
  let main_cst_16 : FVec F S_ .f32 := constant S_ .f32 0x7F800000#32
  let main_v45 : FVec F S10000x4 .f32 := broadcastInDim S10000x4 ![] bcast_S_S10000x4 main_cst_16
  let main_v46 : IVec S10000x4 1 := cmpf .olt main_v44 main_v45
  let main_c_17 : IVec S_ 1 := constantI S_ 1 1#1
  let main_v47 : IVec S_ 1 := (fun x v => Host.reduce IntOp.andi x v reducesTo_S10000x4_S_d0_1 h_S_) main_v46 main_c_17
  let main_v48 : IVec S_ 1 := andi main_v43 main_v47
  let main_v49 : FVec F S10000x4 .f32 := Host.absf main_arg10
  let main_cst_18 : FVec F S_ .f32 := constant S_ .f32 0x7F800000#32
  let main_v50 : FVec F S10000x4 .f32 := broadcastInDim S10000x4 ![] bcast_S_S10000x4 main_cst_18
  fn_part3 (F := F) main_v48 main_v49 main_v50

def fn_part1 {F : FTy → Type} [FloatOps F] (main_arg4 : FVec F S16x4 .f32) (main_arg5 : FVec F S16x4 .f32) (main_arg6 : FVec F S10000x16 .f32) (main_arg7 : FVec F S16x4 .f32) (main_arg8 : FVec F S16x4 .f32) (main_arg9 : FVec F S10000x4 .f32) (main_arg10 : FVec F S10000x4 .f32) (main_v13 : IVec S_ 1) (main_v16 : IVec S10000x16 1) : IVec S_ 1 :=
  let main_c_5 : IVec S_ 1 := constantI S_ 1 1#1
  let main_v17 : IVec S_ 1 := (fun x v => Host.reduce IntOp.andi x v reducesTo_S10000x16_S_d0_1 h_S_) main_v16 main_c_5
  let main_v18 : IVec S_ 1 := andi main_v13 main_v17
  let main_v19 : FVec F S16x4 .f32 := Host.absf main_arg4
  let main_cst_6 : FVec F S_ .f32 := constant S_ .f32 0x7F800000#32
  let main_v20 : FVec F S16x4 .f32 := broadcastInDim S16x4 ![] bcast_S_S16x4 main_cst_6
  let main_v21 : IVec S16x4 1 := cmpf .olt main_v19 main_v20
  let main_c_7 : IVec S_ 1 := constantI S_ 1 1#1
  let main_v22 : IVec S_ 1 := (fun x v => Host.reduce IntOp.andi x v reducesTo_S16x4_S_d0_1 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S10000x16 .f32 := Host.absf main_arg6
  let main_cst_10 : FVec F S_ .f32 := constant S_ .f32 0x7F800000#32
  let main_v30 : FVec F S10000x16 .f32 := broadcastInDim S10000x16 ![] bcast_S_S10000x16 main_cst_10
  let main_v31 : IVec S10000x16 1 := cmpf .olt main_v29 main_v30
  let main_c_11 : IVec S_ 1 := constantI S_ 1 1#1
  let main_v32 : IVec S_ 1 := (fun x v => Host.reduce IntOp.andi x v reducesTo_S10000x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x10000 .f32) (main_arg1 : FVec F S10000x10000 .f32) (main_arg2 : FVec F S10000x10000 .f32) (main_arg3 : FVec F S10000x16 .f32) (main_arg4 : FVec F S16x4 .f32) (main_arg5 : FVec F S16x4 .f32) (main_arg6 : FVec F S10000x16 .f32) (main_arg7 : FVec F S16x4 .f32) (main_arg8 : FVec F S16x4 .f32) (main_arg9 : FVec F S10000x4 .f32) (main_arg10 : FVec F S10000x4 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x16 .f32 := Host.absf main_arg3
  let main_cst_4 : FVec F S_ .f32 := constant S_ .f32 0x7F800000#32
  let main_v15 : FVec F S10000x16 .f32 := broadcastInDim S10000x16 ![] bcast_S_S10000x16 main_cst_4
  let main_v16 : IVec S10000x16 1 := cmpf .olt main_v14 main_v15
  fn_part1 (F := F) main_arg4 main_arg5 main_arg6 main_arg7 main_arg8 main_arg9 main_arg10 main_v13 main_v16
-- ==== Kernel.lean ====
abbrev S10000x10000 : Shape := ⟨2, ![10000, 10000]⟩
abbrev S10000x16 : Shape := ⟨2, ![10000, 16]⟩
abbrev S16x4 : Shape := ⟨2, ![16, 4]⟩
abbrev S10000x4 : Shape := ⟨2, ![10000, 4]⟩
abbrev S10000x32 : Shape := ⟨2, ![10000, 32]⟩
abbrev S400x10000 : Shape := ⟨2, ![400, 10000]⟩
abbrev S400x32 : Shape := ⟨2, ![400, 32]⟩
abbrev S400x16 : Shape := ⟨2, ![400, 16]⟩
abbrev S32x10000 : Shape := ⟨2, ![32, 10000]⟩
abbrev S16x10000 : Shape := ⟨2, ![16, 10000]⟩
abbrev S400x4 : Shape := ⟨2, ![400, 4]⟩
abbrev S4x10000 : Shape := ⟨2, ![4, 10000]⟩

abbrev nBuf : Space → Nat
  | .hbm => 18
  | .vmem => 40
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x10000, .f32⟩
  | .hbm, ⟨3, _⟩ => ⟨S10000x16, .f32⟩
  | .hbm, ⟨4, _⟩ => ⟨S16x4, .f32⟩
  | .hbm, ⟨5, _⟩ => ⟨S16x4, .f32⟩
  | .hbm, ⟨6, _⟩ => ⟨S10000x16, .f32⟩
  | .hbm, ⟨7, _⟩ => ⟨S16x4, .f32⟩
  | .hbm, ⟨8, _⟩ => ⟨S16x4, .f32⟩
  | .hbm, ⟨9, _⟩ => ⟨S10000x4, .f32⟩
  | .hbm, ⟨10, _⟩ => ⟨S10000x4, .f32⟩
  | .hbm, ⟨11, _⟩ => ⟨S10000x32, .bf16⟩
  | .hbm, ⟨12, _⟩ => ⟨S10000x32, .bf16⟩
  | .hbm, ⟨13, _⟩ => ⟨S10000x32, .bf16⟩
  | .hbm, ⟨14, _⟩ => ⟨S10000x32, .bf16⟩
  | .hbm, ⟨15, _⟩ => ⟨S10000x4, .f32⟩
  | .hbm, ⟨16, _⟩ => ⟨S10000x4, .f32⟩
  | .hbm, ⟨17, _⟩ => ⟨S10000x10000, .f32⟩
  | .local _ .vmem, ⟨0, _⟩ => ⟨S400x10000, .f32⟩
  | .local _ .vmem, ⟨1, _⟩ => ⟨S400x10000, .f32⟩
  | .local _ .vmem, ⟨2, _⟩ => ⟨S10000x16, .f32⟩
  | .local _ .vmem, ⟨3, _⟩ => ⟨S400x32, .bf16⟩
  | .local _ .vmem, ⟨4, _⟩ => ⟨S400x32, .bf16⟩
  | .local _ .vmem, ⟨5, _⟩ => ⟨S400x10000, .f32⟩
  | .local _ .vmem, ⟨6, _⟩ => ⟨S400x10000, .f32⟩
  | .local _ .vmem, ⟨7, _⟩ => ⟨S10000x16, .f32⟩
  | .local _ .vmem, ⟨8, _⟩ => ⟨S400x32, .bf16⟩
  | .local _ .vmem, ⟨9, _⟩ => ⟨S400x32, .bf16⟩
  | .local _ .vmem, ⟨10, _⟩ => ⟨S400x10000, .f32⟩
  | .local _ .vmem, ⟨11, _⟩ => ⟨S400x10000, .f32⟩
  | .local _ .vmem, ⟨12, _⟩ => ⟨S400x32, .bf16⟩
  | .local _ .vmem, ⟨13, _⟩ => ⟨S400x32, .bf16⟩
  | .local _ .vmem, ⟨14, _⟩ => ⟨S10000x32, .bf16⟩
  | .local _ .vmem, ⟨15, _⟩ => ⟨S10000x32, .bf16⟩
  | .local _ .vmem, ⟨16, _⟩ => ⟨S400x32, .bf16⟩
  | .local _ .vmem, ⟨17, _⟩ => ⟨S400x32, .bf16⟩
  | .local _ .vmem, ⟨18, _⟩ => ⟨S32x10000, .f32⟩
  | .local _ .vmem, ⟨19, _⟩ => ⟨S400x10000, .f32⟩
  | .local _ .vmem, ⟨20, _⟩ => ⟨S400x10000, .f32⟩
  | .local _ .vmem, ⟨21, _⟩ => ⟨S10000x32, .bf16⟩
  | .local _ .vmem, ⟨22, _⟩ => ⟨S400x32, .bf16⟩
  | .local _ .vmem, ⟨23, _⟩ => ⟨S400x32, .bf16⟩
  | .local _ .vmem, ⟨24, _⟩ => ⟨S16x4, .f32⟩
  | .local _ .vmem, ⟨25, _⟩ => ⟨S16x4, .f32⟩
  | .local _ .vmem, ⟨26, _⟩ => ⟨S16x4, .f32⟩
  | .local _ .vmem, ⟨27, _⟩ => ⟨S16x4, .f32⟩
  | .local _ .vmem, ⟨28, _⟩ => ⟨S400x4, .f32⟩
  | .local _ .vmem, ⟨29, _⟩ => ⟨S400x4, .f32⟩
  | .local _ .vmem, ⟨30, _⟩ => ⟨S10000x4, .f32⟩
  | .local _ .vmem, ⟨31, _⟩ => ⟨S400x4, .f32⟩
  | .local _ .vmem, ⟨32, _⟩ => ⟨S400x4, .f32⟩
  | .local _ .vmem, ⟨33, _⟩ => ⟨S10000x4, .f32⟩
  | .local _ .vmem, ⟨34, _⟩ => ⟨S32x10000, .f32⟩
  | .local _ .vmem, ⟨35, _⟩ => ⟨S400x4, .f32⟩
  | .local _ .vmem, ⟨36, _⟩ => ⟨S400x4, .f32⟩
  | .local _ .vmem, ⟨37, _⟩ => ⟨S10000x4, .f32⟩
  | .local _ .vmem, ⟨38, _⟩ => ⟨S400x10000, .f32⟩
  | .local _ .vmem, ⟨39, _⟩ => ⟨S400x10000, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg9_1 : Ref sig .tc := ⟨.vmem, 32, rfl⟩
abbrev cc3_stg10_0 : Ref sig .tc := ⟨.vmem, 33, rfl⟩
abbrev cc3_scratch0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem7_1 : DmaSem sig := 28
abbrev cc3_sem8_0 : DmaSem sig := 29
abbrev cc3_sem9_0 : DmaSem sig := 30
abbrev cc3_sem9_1 : DmaSem sig := 31
abbrev cc3_sem10_0 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond3 (i : grid2.Coords) : BitVec 1 :=
  let arg0 : BitVec 32 := BitVec.ofNat 32 (i 0).val
  let c24_i32 : BitVec 32 := 24#32
  let v25 : BitVec 1 := Scalar.cmpi .eq arg0 c24_i32
  let v26 : BitVec 32 := Scalar.extui v25
  let c0_i32_12 : BitVec 32 := 0#32
  let v27 : BitVec 1 := Scalar.cmpi .ne v26 c0_i32_12
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x32 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x32 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def k3_cond3 (i : grid3.Coords) : BitVec 1 :=
  let arg0 : BitVec 32 := BitVec.ofNat 32 (i 0).val
  let c24_i32 : BitVec 32 := 24#32
  let v26 : BitVec 1 := Scalar.cmpi .eq arg0 c24_i32
  let v27 : BitVec 32 := Scalar.extui v26
  let c0_i32_19 : BitVec 32 := 0#32
  let v28 : BitVec 1 := Scalar.cmpi .ne v27 c0_i32_19
  v28

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x32 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x4 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S10000x4 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S400x4 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S10000x4 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  concatenates_S400x16_S400x16_S400x32_d1 : Shape.Concatenates [S400x16, S400x16] S400x32 1
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  slices_S400x32_o0_0_S400x16 : S400x32.Slices ![0, 0] S400x16
  slices_S400x32_o0_16_S400x16 : S400x32.Slices ![0, 16] S400x16
  shapeCasts_S400x32_S400x32 : S400x32.ShapeCasts S400x32
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  slices_S32x10000_o0_0_S16x10000 : S32x10000.Slices ![0, 0] S16x10000
  slices_S32x10000_o16_0_S16x10000 : S32x10000.Slices ![16, 0] S16x10000
  transposes_S16x10000_p1_0_S10000x16 : S16x10000.Transposes [1, 0] S10000x16
  concatenates_S10000x16_S10000x16_S10000x32_d1 : Shape.Concatenates [S10000x16, S10000x16] S10000x32 1
  packedbf16_S10000x32_S10000x32_0_0 : (Rect.unit (s := S10000x32) ![0, 0] S10000x32.size inb_S10000x32_S10000x32_0_0).PackedRows (EltTy.packing .bf16)
  inb_S16x4_S16x4_0_0 : ∀ a, (![0, 0] : Fin 2 → Nat) a + S16x4.size a ≤ S16x4.size a
  h_S16x4 : 0 < S16x4.numel
  inb_S400x4_S400x4_0_0 : ∀ a, (![0, 0] : Fin 2 → Nat) a + S400x4.size a ≤ S400x4.size a
  h_S400x4 : 0 < S400x4.numel
  inb_S10000x4_S10000x4_0_0 : ∀ a, (![0, 0] : Fin 2 → Nat) a + S10000x4.size a ≤ S10000x4.size a
  h_S10000x4 : 0 < S10000x4.numel
  transposes_S10000x4_p1_0_S4x10000 : S10000x4.Transposes [1, 0] S4x10000
  transposes_S4x10000_p1_0_S10000x4 : S4x10000.Transposes [1, 0] S10000x4
  shapeCasts_S400x4_S400x4 : S400x4.ShapeCasts S400x4
  shapeCasts_S10000x4_S10000x4 : S10000x4.ShapeCasts S10000x4
  dot_S400x10000_S10000x16_S400x16_1_0_0_1_n_n_wf : DotDims.WF S400x10000 S10000x16 S400x16 [1] [0] [0] [1] [] []
  dot_S400x10000_S10000x32_S400x32_1_0_0_1_n_n_wf : DotDims.WF S400x10000 S10000x32 S400x32 [1] [0] [0] [1] [] []
  dot_S400x32_S400x10000_S32x10000_0_0_1_1_n_n_wf : DotDims.WF S400x32 S400x10000 S32x10000 [0] [0] [1] [1] [] []
  dot_S400x16_S16x4_S400x4_1_0_0_1_n_n_wf : DotDims.WF S400x16 S16x4 S400x4 [1] [0] [0] [1] [] []
  dot_S16x4_S16x10000_S4x10000_0_0_1_1_n_n_wf : DotDims.WF S16x4 S16x10000 S4x10000 [0] [0] [1] [1] [] []
  dot_S400x4_S10000x4_S400x10000_1_1_0_0_n_n_wf : DotDims.WF S400x4 S10000x4 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S10000x16.size a
  hwx0_1 : ∀ i : grid0.Coords, EltTy.bits .f32 = 32 ∨ (Rect.block (s := S10000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32.size a ≤ S10000x32.size a
  hwx0_2 : ∀ i : grid0.Coords, EltTy.bits .bf16 = 32 ∨ (Rect.block (s := S10000x32) S400x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x32.size a ≤ S10000x32.size a
  hwx1_2 : ∀ i : grid1.Coords, EltTy.bits .bf16 = 32 ∨ (Rect.block (s := S10000x32) S400x32.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x32.size a ≤ S10000x32.size a
  hwx2_1 : ∀ i : grid2.Coords, EltTy.bits .bf16 = 32 ∨ (Rect.block (s := S10000x32) S400x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S10000x32.size a
  hwx2_2 : ∀ i : grid2.Coords, EltTy.bits .bf16 = 32 ∨ (Rect.block (s := S10000x32) S10000x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S10000x32.size a
  hwx2_3 : ∀ i : grid2.Coords, EltTy.bits .bf16 = 32 ∨ (Rect.block (s := S10000x32) S10000x32.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x32.size a ≤ S10000x32.size a
  hwx2_4 : ∀ i : grid2.Coords, EltTy.bits .bf16 = 32 ∨ (Rect.block (s := S10000x32) S400x32.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .bf16 = 32 ∨ (Rect.block (s := S10000x32) S10000x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x32.size a ≤ S10000x32.size a
  hwx3_2 : ∀ i : grid3.Coords, EltTy.bits .bf16 = 32 ∨ (Rect.block (s := S10000x32) S400x32.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x4.size a ≤ S16x4.size a
  hwx3_3 : ∀ i : grid3.Coords, EltTy.bits .f32 = 32 ∨ (Rect.block (s := S16x4) S16x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x4.size a ≤ S16x4.size a
  hwx3_4 : ∀ i : grid3.Coords, EltTy.bits .f32 = 32 ∨ (Rect.block (s := S16x4) S16x4.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x4.size a ≤ S16x4.size a
  hwx3_5 : ∀ i : grid3.Coords, EltTy.bits .f32 = 32 ∨ (Rect.block (s := S16x4) S16x4.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16x4.size a ≤ S16x4.size a
  hwx3_6 : ∀ i : grid3.Coords, EltTy.bits .f32 = 32 ∨ (Rect.block (s := S16x4) S16x4.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x4.size a ≤ S10000x4.size a
  hwx3_7 : ∀ i : grid3.Coords, EltTy.bits .f32 = 32 ∨ (Rect.block (s := S10000x4) S400x4.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S10000x4.size a ≤ S10000x4.size a
  hwx3_8 : ∀ i : grid3.Coords, EltTy.bits .f32 = 32 ∨ (Rect.block (s := S10000x4) S10000x4.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S400x4.size a ≤ S10000x4.size a
  hwx3_9 : ∀ i : grid3.Coords, EltTy.bits .f32 = 32 ∨ (Rect.block (s := S10000x4) S400x4.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S10000x4.size a ≤ S10000x4.size a
  hwx3_10 : ∀ i : grid3.Coords, EltTy.bits .f32 = 32 ∨ (Rect.block (s := S10000x4) S10000x4.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x4.size a ≤ S10000x4.size a
  hwx4_0 : ∀ i : grid4.Coords, EltTy.bits .f32 = 32 ∨ (Rect.block (s := S10000x4) S400x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x4.size a ≤ S10000x4.size a
  hwx4_1 : ∀ i : grid4.Coords, EltTy.bits .f32 = 32 ∨ (Rect.block (s := S10000x4) S10000x4.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S400x10000_S32x10000_0_0_1_1_n_n : DotDims S400x32 S400x10000 S32x10000 where
  lhsContracting := [0]
  rhsContracting := [0]
  lhsNonContracting := [1]
  rhsNonContracting := [1]
  lhsBatch := []
  rhsBatch := []
  wf := dot_S400x32_S400x10000_S32x10000_0_0_1_1_n_n_wf
def dot_S400x16_S16x4_S400x4_1_0_0_1_n_n : DotDims S400x16 S16x4 S400x4 where
  lhsContracting := [1]
  rhsContracting := [0]
  lhsNonContracting := [0]
  rhsNonContracting := [1]
  lhsBatch := []
  rhsBatch := []
  wf := dot_S400x16_S16x4_S400x4_1_0_0_1_n_n_wf
def dot_S16x4_S16x10000_S4x10000_0_0_1_1_n_n : DotDims S16x4 S16x10000 S4x10000 where
  lhsContracting := [0]
  rhsContracting := [0]
  lhsNonContracting := [1]
  rhsNonContracting := [1]
  lhsBatch := []
  rhsBatch := []
  wf := dot_S16x4_S16x10000_S4x10000_0_0_1_1_n_n_wf
def dot_S400x4_S10000x4_S400x10000_1_1_0_0_n_n : DotDims S400x4 S10000x4 S400x10000 where
  lhsContracting := [1]
  rhsContracting := [1]
  lhsNonContracting := [0]
  rhsNonContracting := [0]
  lhsBatch := []
  rhsBatch := []
  wf := dot_S400x4_S10000x4_S400x10000_1_1_0_0_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S400x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S10000x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S10000x32.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S400x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond3 i == 1#1) | 4 => fun _ => false | ⟨_ + 5, h⟩ => absurd h (Nat.not_lt.2 (Nat.le_add_left _ _))

abbrev win3_0 : Pipeline.Window sig grid3 :=
  Pipeline.Window.ofSpec (Memref.whole main_arg2) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_0) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2_1) S400x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S16x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S16x4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S16x4.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S16x4.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S400x4.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S10000x4.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v3_0) S400x4.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v3_1) S10000x4.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond3 i == 1#1) | ⟨_ + 11, h⟩ => absurd h (Nat.not_lt.2 (Nat.le_add_left _ _))

abbrev win4_0 : Pipeline.Window sig grid4 :=
  Pipeline.Window.ofSpec (Memref.whole main_v3_0) S400x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3_1) S10000x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x10000 : Shape := ⟨2, ![10000, 10000]⟩
abbrev S10000x16 : Shape := ⟨2, ![10000, 16]⟩
abbrev S16x4 : Shape := ⟨2, ![16, 4]⟩
abbrev S10000x4 : Shape := ⟨2, ![10000, 4]⟩
abbrev S_ : Shape := ⟨0, ![]⟩
abbrev S4x4 : Shape := ⟨2, ![4, 4]⟩
abbrev S4x10000 : Shape := ⟨2, ![4, 10000]⟩

abbrev nBuf : Space → Nat
  | .hbm => 56
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x10000, .f32⟩
  | .hbm, ⟨3, _⟩ => ⟨S10000x16, .f32⟩
  | .hbm, ⟨4, _⟩ => ⟨S16x4, .f32⟩
  | .hbm, ⟨5, _⟩ => ⟨S16x4, .f32⟩
  | .hbm, ⟨6, _⟩ => ⟨S10000x16, .f32⟩
  | .hbm, ⟨7, _⟩ => ⟨S16x4, .f32⟩
  | .hbm, ⟨8, _⟩ => ⟨S16x4, .f32⟩
  | .hbm, ⟨9, _⟩ => ⟨S10000x4, .f32⟩
  | .hbm, ⟨10, _⟩ => ⟨S10000x4, .f32⟩
  | .hbm, ⟨11, _⟩ => ⟨S10000x10000, .f32⟩
  | .hbm, ⟨12, _⟩ => ⟨S10000x16, .f32⟩
  | .hbm, ⟨13, _⟩ => ⟨S10000x16, .f32⟩
  | .hbm, ⟨14, _⟩ => ⟨S_, .f32⟩
  | .hbm, ⟨15, _⟩ => ⟨S10000x16, .f32⟩
  | .hbm, ⟨16, _⟩ => ⟨S10000x16, .f32⟩
  | .hbm, ⟨17, _⟩ => ⟨S10000x4, .f32⟩
  | .hbm, ⟨18, _⟩ => ⟨S10000x4, .f32⟩
  | .hbm, ⟨19, _⟩ => ⟨S10000x4, .f32⟩
  | .hbm, ⟨20, _⟩ => ⟨S10000x4, .f32⟩
  | .hbm, ⟨21, _⟩ => ⟨S10000x4, .f32⟩
  | .hbm, ⟨22, _⟩ => ⟨S10000x4, .f32⟩
  | .hbm, ⟨23, _⟩ => ⟨S10000x4, .f32⟩
  | .hbm, ⟨24, _⟩ => ⟨S10000x16, .f32⟩
  | .hbm, ⟨25, _⟩ => ⟨S10000x16, .f32⟩
  | .hbm, ⟨26, _⟩ => ⟨S_, .f32⟩
  | .hbm, ⟨27, _⟩ => ⟨S10000x16, .f32⟩
  | .hbm, ⟨28, _⟩ => ⟨S10000x16, .f32⟩
  | .hbm, ⟨29, _⟩ => ⟨S10000x10000, .f32⟩
  | .hbm, ⟨30, _⟩ => ⟨S10000x4, .f32⟩
  | .hbm, ⟨31, _⟩ => ⟨S10000x4, .f32⟩
  | .hbm, ⟨32, _⟩ => ⟨S10000x10000, .f32⟩
  | .hbm, ⟨33, _⟩ => ⟨S10000x4, .f32⟩
  | .hbm, ⟨34, _⟩ => ⟨S10000x4, .f32⟩
  | .hbm, ⟨35, _⟩ => ⟨S10000x4, .f32⟩
  | .hbm, ⟨36, _⟩ => ⟨S10000x4, .f32⟩
  | .hbm, ⟨37, _⟩ => ⟨S10000x4, .f32⟩
  | .hbm, ⟨38, _⟩ => ⟨S4x4, .i32⟩
  | .hbm, ⟨39, _⟩ => ⟨S4x4, .i32⟩
  | .hbm, ⟨40, _⟩ => ⟨S_, .i32⟩
  | .hbm, ⟨41, _⟩ => ⟨S4x4, .i32⟩
  | .hbm, ⟨42, _⟩ => ⟨S4x4, .i32⟩
  | .hbm, ⟨43, _⟩ => ⟨S4x4, .i1⟩
  | .hbm, ⟨44, _⟩ => ⟨S4x4, .f32⟩
  | .hbm, ⟨45, _⟩ => ⟨S10000x4, .f32⟩
  | .hbm, ⟨46, _⟩ => ⟨S4x10000, .f32⟩
  | .hbm, ⟨47, _⟩ => ⟨S10000x10000, .f32⟩
  | .hbm, ⟨48, _⟩ => ⟨S10000x10000, .f32⟩
  | .hbm, ⟨49, _⟩ => ⟨S10000x10000, .f32⟩
  | .hbm, ⟨50, _⟩ => ⟨S_, .f32⟩
  | .hbm, ⟨51, _⟩ => ⟨S10000x10000, .f32⟩
  | .hbm, ⟨52, _⟩ => ⟨S10000x10000, .f32⟩
  | .hbm, ⟨53, _⟩ => ⟨S_, .f32⟩
  | .hbm, ⟨54, _⟩ => ⟨S10000x10000, .f32⟩
  | .hbm, ⟨55, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_cst_0 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  transposes_S10000x10000_S10000x10000_1_0 : S10000x10000.Transposes [1, 0] S10000x10000
  bcast_S_S10000x16 : S_.BroadcastsInDim S10000x16 (![] : Fin 0 → Fin S10000x16.rank)
  bcast_S_S4x4 : S_.BroadcastsInDim S4x4 (![] : Fin 0 → Fin S4x4.rank)
  transposes_S10000x4_S4x10000_1_0 : S10000x4.Transposes [1, 0] S4x10000
  bcast_S_S10000x10000 : S_.BroadcastsInDim S10000x10000 (![] : Fin 0 → Fin S10000x10000.rank)
  dot_S10000x10000_S10000x16_S10000x16_1_0_0_1_n_n_wf : DotDims.WF S10000x10000 S10000x16 S10000x16 [1] [0] [0] [1] [] []
  dot_S10000x16_S16x4_S10000x4_1_0_0_1_n_n_wf : DotDims.WF S10000x16 S16x4 S10000x4 [1] [0] [0] [1] [] []
  dot_S10000x10000_S10000x4_S10000x4_1_0_0_1_n_n_wf : DotDims.WF S10000x10000 S10000x4 S10000x4 [1] [0] [0] [1] [] []
  dot_S10000x4_S4x4_S10000x4_1_0_0_1_n_n_wf : DotDims.WF S10000x4 S4x4 S10000x4 [1] [0] [0] [1] [] []
  dot_S10000x4_S4x10000_S10000x10000_1_0_0_1_n_n_wf : DotDims.WF S10000x4 S4x10000 S10000x10000 [1] [0] [0] [1] [] []

variable [Facts₀]

def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x4_S10000x4_1_0_0_1_n_n : DotDims S10000x16 S16x4 S10000x4 where
  lhsContracting := [1]
  rhsContracting := [0]
  lhsNonContracting := [0]
  rhsNonContracting := [1]
  lhsBatch := []
  rhsBatch := []
  wf := dot_S10000x16_S16x4_S10000x4_1_0_0_1_n_n_wf
def dot_S10000x10000_S10000x4_S10000x4_1_0_0_1_n_n : DotDims S10000x10000 S10000x4 S10000x4 where
  lhsContracting := [1]
  rhsContracting := [0]
  lhsNonContracting := [0]
  rhsNonContracting := [1]
  lhsBatch := []
  rhsBatch := []
  wf := dot_S10000x10000_S10000x4_S10000x4_1_0_0_1_n_n_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x10000_S10000x10000_1_0_0_1_n_n : DotDims S10000x4 S4x10000 S10000x10000 where
  lhsContracting := [1]
  rhsContracting := [0]
  lhsNonContracting := [0]
  rhsNonContracting := [1]
  lhsBatch := []
  rhsBatch := []
  wf := dot_S10000x4_S4x10000_S10000x10000_1_0_0_1_n_n_wf

class Facts : Prop extends Facts₀ where

variable [Facts]
-- ==== Proof.K.Reg0.lean ====
import proofs.«116956_g88691074663054_cont_9to1c4b_58_37_alg».proof.Proof.Gen.Kernel.Launch
import proofs.«116956_g88691074663054_cont_9to1c4b_58_37_alg».proof.Proof.Gen.Kernel.Skeleton
import proofs.«116956_g88691074663054_cont_9to1c4b_58_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S400x10000 := Rect.unit (s := S400x10000) ![0, 0] S400x10000.size inb_S400x10000_S400x10000_0_0
abbrev r0_1 : Rect S10000x16 := Rect.unit (s := S10000x16) ![0, 0] S10000x16.size inb_S10000x16_S10000x16_0_0
abbrev r0_2 : Rect S400x32 := Rect.unit (s := S400x32) ![0, 0] S400x32.size inb_S400x32_S400x32_0_0

def out0_2 (x0 : Vec F S400x10000 .f32) (x1 : Vec F S10000x16 .f32) : Vec F S400x32 .bf16 :=
  View.canon [⟨r0_2, k0_pay1 (View.ld x0 r0_0) (View.ld x1 r0_1)⟩]

theorem cover0_2 (p0 : Vec F S400x32 .bf16) (y : S400x32.Idx) :
    ∃ pc ∈ ([⟨r0_2, p0⟩] : List (View.Piece (Elt F) S400x32 .bf16)), y ∈ pc.1.set :=
  View.cover_of_tiled [⟨r0_2, p0⟩] S400x32.size (by rfl) y

set_option maxHeartbeats 1000000 in

theorem sound_kernel0 (c : Dev nD) (E : Set ℕ) (i : grid0.Coords)
    (arg1 : Memref sig .tc .vmem S400x10000 .f32) (harg1 : arg1.IsWhole) (arg2 : Memref sig .tc .vmem S10000x16 .f32) (harg2 : arg2.IsWhole)
    (arg3 : Memref sig .tc .vmem S400x32 .bf16) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_body i arg1 harg1 arg2 harg2 arg3 harg3) K := by
  simp only [cc0__xw_body_eq_skeleton]; unfold cc0__xw_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«116956_g88691074663054_cont_9to1c4b_58_37_alg».proof.Proof.Gen.Kernel.Launch
import proofs.«116956_g88691074663054_cont_9to1c4b_58_37_alg».proof.Proof.Gen.Kernel.Skeleton
import proofs.«116956_g88691074663054_cont_9to1c4b_58_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x16 := Rect.unit (s := S10000x16) ![0, 0] S10000x16.size inb_S10000x16_S10000x16_0_0
abbrev r1_2 : Rect S400x32 := Rect.unit (s := S400x32) ![0, 0] S400x32.size inb_S400x32_S400x32_0_0

def out1_2 (x0 : Vec F S400x10000 .f32) (x1 : Vec F S10000x16 .f32) : Vec F S400x32 .bf16 :=
  View.canon [⟨r1_2, k1_pay1 (View.ld x0 r1_0) (View.ld x1 r1_1)⟩]

theorem cover1_2 (p0 : Vec F S400x32 .bf16) (y : S400x32.Idx) :
    ∃ pc ∈ ([⟨r1_2, p0⟩] : List (View.Piece (Elt F) S400x32 .bf16)), y ∈ pc.1.set :=
  View.cover_of_tiled [⟨r1_2, p0⟩] S400x32.size (by rfl) y

set_option maxHeartbeats 1000000 in

theorem sound_kernel1 (c : Dev nD) (E : Set ℕ) (i : grid1.Coords)
    (arg1 : Memref sig .tc .vmem S400x10000 .f32) (harg1 : arg1.IsWhole) (arg2 : Memref sig .tc .vmem S10000x16 .f32) (harg2 : arg2.IsWhole)
    (arg3 : Memref sig .tc .vmem S400x32 .bf16) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__xw_body i arg1 harg1 arg2 harg2 arg3 harg3) K := by
  simp only [cc1__xw_body_eq_skeleton]; unfold cc1__xw_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
import proofs.«116956_g88691074663054_cont_9to1c4b_58_37_alg».proof.Proof.Gen.Kernel.Launch
import proofs.«116956_g88691074663054_cont_9to1c4b_58_37_alg».proof.Proof.Gen.Kernel.Skeleton
import proofs.«116956_g88691074663054_cont_9to1c4b_58_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 25 = 0 :=
  (by decide +kernel : ∀ t : Fin grid2.N, cond2_0 (grid2.coords t) ↔ t.val % 25 = 0)

abbrev cond2_1 (i : grid2.Coords) : Prop := (Scalar.cmpi .ne (Scalar.extui (Scalar.cmpi .ne (BitVec.ofNat 32 (i 0).val) 0#32)) 0#32) = 1#1

theorem hcond2_1 : ∀ t : Fin cfg2.N, cond2_1 (grid2.coords t) ↔ ¬ t.val % 25 = 0 :=
  (by decide +kernel : ∀ t : Fin grid2.N, cond2_1 (grid2.coords t) ↔ ¬ t.val % 25 = 0)

abbrev cond2_2 (i : grid2.Coords) : Prop := k2_cond3 i = 1#1

theorem hcond2_2 : ∀ t : Fin cfg2.N, cond2_2 (grid2.coords t) ↔ t.val % 25 = 24 :=
  (by decide +kernel : ∀ t : Fin grid2.N, cond2_2 (grid2.coords t) ↔ t.val % 25 = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_4 : ∀ t : Fin cfg2.N, cfg2.idle 4 (grid2.coords t) = false := by decide +kernel

theorem idleAt2_3_A : ∀ t : Fin cfg2.N, cond2_0 (grid2.coords t) → ¬cond2_1 (grid2.coords t) → ¬cond2_2 (grid2.coords t) → cfg2.idle 3 (grid2.coords t) = true := by decide +kernel

theorem noFlush2_3_A : ∀ t : Fin cfg2.N, cond2_0 (grid2.coords t) → ¬cond2_1 (grid2.coords t) → ¬cond2_2 (grid2.coords t) → (cfg2.win 3).flush t = false := by decide +kernel

theorem idleAt2_3_B : ∀ t : Fin cfg2.N, ¬cond2_0 (grid2.coords t) → cond2_1 (grid2.coords t) → ¬cond2_2 (grid2.coords t) → cfg2.idle 3 (grid2.coords t) = true := by decide +kernel
theorem noFlush2_3_B : ∀ t : Fin cfg2.N, ¬cond2_0 (grid2.coords t) → cond2_1 (grid2.coords t) → ¬cond2_2 (grid2.coords t) → (cfg2.win 3).flush t = false := by decide +kernel

theorem liveAt2_3_C : ∀ t : Fin cfg2.N, ¬cond2_0 (grid2.coords t) → cond2_1 (grid2.coords t) → cond2_2 (grid2.coords t) → cfg2.idle 3 (grid2.coords t) = false := by decide +kernel

abbrev VO2_3 : View sig .tc .vmem S10000x32 .bf16 := (Memref.whole cc2_stg3_0 : Memref sig .tc .vmem S10000x32 .bf16).view
abbrev VO2_4 : View sig .tc .vmem S400x32 .bf16 := (Memref.whole cc2_stg4_0 : Memref sig .tc .vmem S400x32 .bf16).view

abbrev ms2_0 (t : Fin cfg2.N) : Memref sig .tc .vmem S400x10000 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S400x32 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x32 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S400x32 .bf16 := win2_4.stage (cfg2.slots t 4)
abbrev hs2_4 (t : Fin cfg2.N) : (ms2_4 t).IsWhole := hstage2_4 ((cfg2.slots t 4).cast nbuf2_4)

abbrev scM2_0 : Memref sig .tc .vmem S32x10000 .f32 := Memref.whole cc2_scratch0

abbrev VS2_0 : View sig .tc .vmem S32x10000 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.Reg2RunA.lean ====
import proofs.«116956_g88691074663054_cont_9to1c4b_58_37_alg».proof.Proof.K.Reg2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in

noncomputable def kernelRun2_A (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S400x10000 .f32) (x1 : Vec F S400x32 .bf16) (x2 : Vec F S10000x32 .bf16) :
    Σ' (L3 : List (View.Piece (Elt F) S10000x32 .bf16)), Σ' (L4 : List (View.Piece (Elt F) S400x32 .bf16)), { LS0 : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K.Reg2RunB.lean ====
import proofs.«116956_g88691074663054_cont_9to1c4b_58_37_alg».proof.Proof.K.Reg2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in

noncomputable def kernelRun2_B (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S400x10000 .f32) (x1 : Vec F S400x32 .bf16) (x2 : Vec F S10000x32 .bf16) (xs0 : Vec F S32x10000 .f32) :
    Σ' (L3 : List (View.Piece (Elt F) S10000x32 .bf16)), Σ' (L4 : List (View.Piece (Elt F) S400x32 .bf16)), { LS0 : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K.Reg2RunC.lean ====
import proofs.«116956_g88691074663054_cont_9to1c4b_58_37_alg».proof.Proof.K.Reg2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in

noncomputable def kernelRun2_C (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S400x10000 .f32) (x1 : Vec F S400x32 .bf16) (x2 : Vec F S10000x32 .bf16) (xs0 : Vec F S32x10000 .f32) :
    Σ' (L3 : List (View.Piece (Elt F) S10000x32 .bf16)), Σ' (L4 : List (View.Piece (Elt F) S400x32 .bf16)), { LS0 : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__h_body i arg1 harg1 arg2 harg2 arg3 harg3 arg4 harg4 arg5 harg5 arg6 harg6) K } := by
  refine ⟨?_, ?_, ?_, fun E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

end Cert.Kernel.Hand

end
-- ==== Proof.K.Reg2.lean ====
import proofs.«116956_g88691074663054_cont_9to1c4b_58_37_alg».proof.Proof.K.Reg2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole)

section
variable (hc0 : cond2_0 i) (hc1 : ¬cond2_1 i) (hc2 : ¬cond2_2 i) (x0 : Vec F S400x10000 .f32) (x1 : Vec F S400x32 .bf16) (x2 : Vec F S10000x32 .bf16)

theorem cover2_A_4 (y : S400x32.Idx) :
    ∃ pc ∈ (kernelRun2_A c i arg1 harg1 arg2 harg2 arg3 harg3 arg4 harg4 arg5 harg5 arg6 harg6 hc0 hc1 hc2 x0 x1 x2).2.1, y ∈ pc.1.set :=
  View.cover_of_tiledL _ S400x32.size (by sl_kernel_rfl) y

theorem scover2_A_0 (y : S32x10000.Idx) :
    ∃ pc ∈ (kernelRun2_A c i arg1 harg1 arg2 harg2 arg3 harg3 arg4 harg4 arg5 harg5 arg6 harg6 hc0 hc1 hc2 x0 x1 x2).2.2.1, y ∈ pc.1.set :=
  View.cover_of_tiledL _ S32x10000.size (by sl_kernel_rfl) y

def outs2_A : Vec F S10000x32 .bf16 × Vec F S400x32 .bf16 × Vec F S32x10000 .f32 :=
  (VO2_3.read (Elt F) (VO2_3.writes (Elt F) VO2_3.junk (kernelRun2_A c i arg1 harg1 arg2 harg2 arg3 harg3 arg4 harg4 arg5 harg5 arg6 harg6 hc0 hc1 hc2 x0 x1 x2).1),
   VO2_4.read (Elt F) (VO2_4.writes (Elt F) VO2_4.junk (kernelRun2_A c i arg1 harg1 arg2 harg2 arg3 harg3 arg4 harg4 arg5 harg5 arg6 harg6 hc0 hc1 hc2 x0 x1 x2).2.1),
   VS2_0.read (Elt F) (VS2_0.writes (Elt F) VS2_0.junk (kernelRun2_A c i arg1 harg1 arg2 harg2 arg3 harg3 arg4 harg4 arg5 harg5 arg6 harg6 hc0 hc1 hc2 x0 x1 x2).2.2.1))
end

section
variable (hc0 : ¬cond2_0 i) (hc1 : cond2_1 i) (hc2 : ¬cond2_2 i) (x0 : Vec F S400x10000 .f32) (x1 : Vec F S400x32 .bf16) (x2 : Vec F S10000x32 .bf16) (xs0 : Vec F S32x10000 .f32)

theorem cover2_B_4 (y : S400x32.Idx) :
    ∃ pc ∈ (kernelRun2_B c i arg1 harg1 arg2 harg2 arg3 harg3 arg4 harg4 arg5 harg5 arg6 harg6 hc0 hc1 hc2 x0 x1 x2 xs0).2.1, y ∈ pc.1.set :=
  View.cover_of_tiledL _ S400x32.size (by sl_kernel_rfl) y

theorem scover2_B_0 (y : S32x10000.Idx) :
    ∃ pc ∈ (kernelRun2_B c i arg1 harg1 arg2 harg2 arg3 harg3 arg4 harg4 arg5 harg5 arg6 harg6 hc0 hc1 hc2 x0 x1 x2 xs0).2.2.1, y ∈ pc.1.set :=
  View.cover_of_tiledL _ S32x10000.size (by sl_kernel_rfl) y

def outs2_B : Vec F S10000x32 .bf16 × Vec F S400x32 .bf16 × Vec F S32x10000 .f32 :=
  (VO2_3.read (Elt F) (VO2_3.writes (Elt F) VO2_3.junk (kernelRun2_B c i arg1 harg1 arg2 harg2 arg3 harg3 arg4 harg4 arg5 harg5 arg6 harg6 hc0 hc1 hc2 x0 x1 x2 xs0).1),
   VO2_4.read (Elt F) (VO2_4.writes (Elt F) VO2_4.junk (kernelRun2_B c i arg1 harg1 arg2 harg2 arg3 harg3 arg4 harg4 arg5 harg5 arg6 harg6 hc0 hc1 hc2 x0 x1 x2 xs0).2.1),
   VS2_0.read (Elt F) (VS2_0.writes (Elt F) VS2_0.junk (kernelRun2_B c i arg1 harg1 arg2 harg2 arg3 harg3 arg4 harg4 arg5 harg5 arg6 harg6 hc0 hc1 hc2 x0 x1 x2 xs0).2.2.1))
end

section
variable (hc0 : ¬cond2_0 i) (hc1 : cond2_1 i) (hc2 : cond2_2 i) (x0 : Vec F S400x10000 .f32) (x1 : Vec F S400x32 .bf16) (x2 : Vec F S10000x32 .bf16) (xs0 : Vec F S32x10000 .f32)

theorem cover2_C_3 (y : S10000x32.Idx) :
    ∃ pc ∈ (kernelRun2_C c i arg1 harg1 arg2 harg2 arg3 harg3 arg4 harg4 arg5 harg5 arg6 harg6 hc0 hc1 hc2 x0 x1 x2 xs0).1, y ∈ pc.1.set :=
  View.cover_of_tiledL _ S10000x32.size (by sl_kernel_rfl) y

theorem cover2_C_4 (y : S400x32.Idx) :
    ∃ pc ∈ (kernelRun2_C c i arg1 harg1 arg2 harg2 arg3 harg3 arg4 harg4 arg5 harg5 arg6 harg6 hc0 hc1 hc2 x0 x1 x2 xs0).2.1, y ∈ pc.1.set :=
  View.cover_of_tiledL _ S400x32.size (by sl_kernel_rfl) y

theorem scover2_C_0 (y : S32x10000.Idx) :
    ∃ pc ∈ (kernelRun2_C c i arg1 harg1 arg2 harg2 arg3 harg3 arg4 harg4 arg5 harg5 arg6 harg6 hc0 hc1 hc2 x0 x1 x2 xs0).2.2.1, y ∈ pc.1.set :=
  View.cover_of_tiledL _ S32x10000.size (by sl_kernel_rfl) y

def outs2_C : Vec F S10000x32 .bf16 × Vec F S400x32 .bf16 × Vec F S32x10000 .f32 :=
  (VO2_3.read (Elt F) (VO2_3.writes (Elt F) VO2_3.junk (kernelRun2_C c i arg1 harg1 arg2 harg2 arg3 harg3 arg4 harg4 arg5 harg5 arg6 harg6 hc0 hc1 hc2 x0 x1 x2 xs0).1),
   VO2_4.read (Elt F) (VO2_4.writes (Elt F) VO2_4.junk (kernelRun2_C c i arg1 harg1 arg2 harg2 arg3 harg3 arg4 harg4 arg5 harg5 arg6 harg6 hc0 hc1 hc2 x0 x1 x2 xs0).2.1),
   VS2_0.read (Elt F) (VS2_0.writes (Elt F) VS2_0.junk (kernelRun2_C c i arg1 harg1 arg2 harg2 arg3 harg3 arg4 harg4 arg5 harg5 arg6 harg6 hc0 hc1 hc2 x0 x1 x2 xs0).2.2.1))
end
end

theorem ncond2_1_of (t : Fin cfg2.N) (h0 : t.val % 25 = 0) : ¬cond2_1 (grid2.coords t) := fun h => (hcond2_1 t).mp h h0
theorem ncond2_2_of (t : Fin cfg2.N) (h0 : t.val % 25 = 0) : ¬cond2_2 (grid2.coords t) := fun h => by
  have h2 := (hcond2_2 t).mp h; omega
theorem ncond2_0_of (t : Fin cfg2.N) (h0 : ¬t.val % 25 = 0) : ¬cond2_0 (grid2.coords t) := fun h => h0 ((hcond2_0 t).mp h)

def at2_A (c : Dev nD) (t : Fin cfg2.N) (h0 : t.val % 25 = 0) : Vec F S10000x32 .bf16 × Vec F S400x32 .bf16 × Vec F S32x10000 .f32 :=
  outs2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (ncond2_1_of t h0) (ncond2_2_of t h0) (iblk2 V c 0 t) (iblk2 V c 1 t) (iblk2 V c 2 t)

def at2_B (c : Dev nD) (t : Fin cfg2.N) (h0 : ¬t.val % 25 = 0) (h2 : ¬t.val % 25 = 24) (xs0 : Vec F S32x10000 .f32) : Vec F S10000x32 .bf16 × Vec F S400x32 .bf16 × Vec F S32x10000 .f32 :=
  outs2_B c (grid2.coords t) (ms2_0 t) (hs2_0 t) (ms2_1 t) (hs2_1 t) (ms2_2 t) (hs2_2 t) (ms2_3 t) (hs2_3 t) (ms2_4 t) (hs2_4 t) scM2_0 (Memref.isWhole_whole _) (ncond2_0_of t h0) ((hcond2_1 t).mpr h0) (fun h => h2 ((hcond2_2 t).mp h)) (iblk2 V c 0 t) (iblk2 V c 1 t) (iblk2 V c 2 t) xs0

def at2_C (c : Dev nD) (t : Fin cfg2.N) (h0 : ¬t.val % 25 = 0) (h2 : t.val % 25 = 24) (xs0 : Vec F S32x10000 .f32) : Vec F S10000x32 .bf16 × Vec F S400x32 .bf16 × Vec F S32x10000 .f32 :=
  outs2_C c (grid2.coords t) (ms2_0 t) (hs2_0 t) (ms2_1 t) (hs2_1 t) (ms2_2 t) (hs2_2 t) (ms2_3 t) (hs2_3 t) (ms2_4 t) (hs2_4 t) scM2_0 (Memref.isWhole_whole _) (ncond2_0_of t h0) ((hcond2_1 t).mpr h0) ((hcond2_2 t).mpr h2) (iblk2 V c 0 t) (iblk2 V c 1 t) (iblk2 V c 2 t) xs0

def outsAt2 (c : Dev nD) : (n : ℕ) → n < cfg2.N → Vec F S10000x32 .bf16 × Vec F S400x32 .bf16 × Vec F S32x10000 .f32
  | 0, hn => at2_A V c ⟨0, hn⟩ (Nat.zero_mod _)
  | n + 1, hn =>
    if h0 : (n + 1) % 25 = 0 then at2_A V c ⟨n + 1, hn⟩ h0
    else if h2 : (n + 1) % 25 = 24 then at2_C V c ⟨n + 1, hn⟩ h0 h2 (outsAt2 c n (Nat.lt_of_succ_lt hn)).2.2
    else at2_B V c ⟨n + 1, hn⟩ h0 h2 (outsAt2 c n (Nat.lt_of_succ_lt hn)).2.2

theorem outsAt2_A (c : Dev nD) (t : Fin cfg2.N) (h0 : t.val % 25 = 0) :
    outsAt2 V c t.val t.isLt = at2_A V c t h0 := by
  obtain ⟨n, hn⟩ := t
  cases n with
  | zero => exact rfl
  | succ n => exact (dif_pos h0).trans rfl

theorem outsAt2_B (c : Dev nD) (t : Fin cfg2.N) (h0 : ¬t.val % 25 = 0) (h2 : ¬t.val % 25 = 24) :
    outsAt2 V c t.val t.isLt = at2_B V c t h0 h2 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

theorem outsAt2_C (c : Dev nD) (t : Fin cfg2.N) (h0 : ¬t.val % 25 = 0) (h2 : t.val % 25 = 24) :
    outsAt2 V c t.val t.isLt = at2_C V c t h0 h2 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [Dat.leavesExact_idle (dat2 V c) 3 t (idleAt2_3_A t ((hcond2_0 t).mpr h0) (ncond2_1_of t h0) (ncond2_2_of t h0)) (noFlush2_3_A t ((hcond2_0 t).mpr h0) (ncond2_1_of t h0) (ncond2_2_of t h0))]
    rw [show (dat2 V c).leavesExact 4 t = owns (c : Thread nD τ) (ms2_4 t) fullShare ((dat2 V c).after 4 t) from by
      unfold Dat.leavesExact; rw [liveAt2_4 t], after2_4]
    rw [outsAt2_A V c t h0]
    unfold at2_A outs2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (ncond2_1_of t h0) (ncond2_2_of t h0) (iblk2 V c 0 t) (iblk2 V c 1 t) (iblk2 V c 2 t)).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover2_A_4 _ _ _ _ _ _ _ _ _ _ _ _ _ _ _ _ _ _ _ _)
    · exfalso; omega
  · by_cases h2 : t.val % 25 = 24
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (ncond2_0_of t h0) ((hcond2_1 t).mpr h0) ((hcond2_2 t).mpr h2)], after2_3]
      rw [show (dat2 V c).leavesExact 4 t = owns (c : Thread nD τ) (ms2_4 t) fullShare ((dat2 V c).after 4 t) from by
        unfold Dat.leavesExact; rw [liveAt2_4 t], after2_4]
      rw [outsAt2_C V c t h0 h2]
      unfold at2_C outs2_C; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (ncond2_0_of t h0) ((hcond2_1 t).mpr h0) ((hcond2_2 t).mpr h2) (iblk2 V c 0 t) (iblk2 V c 1 t) (iblk2 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_C_3 _ _ _ _ _ _ _ _ _ _ _ _ _ _ _ _ _ _ _ _ _)
        unfold owns; iexists _; isplitr
        swap; · iexact H4
        ipureintro; exact View.read_writes_of_cover _ _ _ _ _ (cover2_C_4 _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (ncond2_0_of t h0) ((hcond2_1 t).mpr h0) (fun h => h2 ((hcond2_2 t).mp h))) (noFlush2_3_B t (ncond2_0_of t h0) ((hcond2_1 t).mpr h0) (fun h => h2 ((hcond2_2 t).mp h)))]
      rw [show (dat2 V c).leavesExact 4 t = owns (c : Thread nD τ) (ms2_4 t) fullShare ((dat2 V c).after 4 t) from by
        unfold Dat.leavesExact; rw [liveAt2_4 t], after2_4]
      rw [outsAt2_B V c t h0 h2]
      unfold at2_B outs2_B; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (ncond2_0_of t h0) ((hcond2_1 t).mpr h0) (fun h => h2 ((hcond2_2 t).mp h)) (iblk2 V c 0 t) (iblk2 V c 1 t) (iblk2 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover2_B_4 _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 25 := N_2; omega)

end Cert.Kernel.Hand

end
-- ==== Proof.K.Reg3Runs.lean ====
import proofs.«116956_g88691074663054_cont_9to1c4b_58_37_alg».proof.Proof.Gen.Kernel.Launch
import proofs.«116956_g88691074663054_cont_9to1c4b_58_37_alg».proof.Proof.Gen.Kernel.Skeleton
import proofs.«116956_g88691074663054_cont_9to1c4b_58_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := (Scalar.cmpi .ne (Scalar.extui (Scalar.cmpi .ne (BitVec.ofNat 32 (i 0).val) 0#32)) 0#32) = 1#1

theorem hcond3_1 : ∀ t : Fin cfg3.N, cond3_1 (grid3.coords t) ↔ ¬ t.val % 25 = 0 :=
  (by decide +kernel : ∀ t : Fin grid3.N, cond3_1 (grid3.coords t) ↔ ¬ t.val % 25 = 0)

abbrev cond3_2 (i : grid3.Coords) : Prop := k3_cond3 i = 1#1

theorem hcond3_2 : ∀ t : Fin cfg3.N, cond3_2 (grid3.coords t) ↔ t.val % 25 = 24 :=
  (by decide +kernel : ∀ t : Fin grid3.N, cond3_2 (grid3.coords t) ↔ t.val % 25 = 24)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
theorem liveAt3_9 : ∀ t : Fin cfg3.N, cfg3.idle 9 (grid3.coords t) = false := by decide +kernel

theorem idleAt3_10 : ∀ t : Fin cfg3.N, ¬cond3_2 (grid3.coords t) → cfg3.idle 10 (grid3.coords t) = true := by decide +kernel
theorem noFlush3_10 : ∀ t : Fin cfg3.N, ¬cond3_2 (grid3.coords t) → (cfg3.win 10).flush t = false := by decide +kernel
theorem liveAt3_10_C : ∀ t : Fin cfg3.N, cond3_2 (grid3.coords t) → cfg3.idle 10 (grid3.coords t) = false := by decide +kernel

abbrev VO3_9 : View sig .tc .vmem S400x4 .f32 := (Memref.whole cc3_stg9_0 : Memref sig .tc .vmem S400x4 .f32).view
abbrev VO3_10 : View sig .tc .vmem S10000x4 .f32 := (Memref.whole cc3_stg10_0 : Memref sig .tc .vmem S10000x4 .f32).view

abbrev ms3_0 (t : Fin cfg3.N) : Memref sig .tc .vmem S400x10000 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x32 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S400x32 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S16x4 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S16x4 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S16x4 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S16x4 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S400x4 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S10000x4 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S400x4 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S10000x4 .f32 := win3_10.stage (cfg3.slots t 10)
abbrev hs3_10 (t : Fin cfg3.N) : (ms3_10 t).IsWhole := hstage3_10 ((cfg3.slots t 10).cast nbuf3_10)

abbrev scM3_0 : Memref sig .tc .vmem S32x10000 .f32 := Memref.whole cc3_scratch0

abbrev VS3_0 : View sig .tc .vmem S32x10000 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.K.Reg3RunA.lean ====
import proofs.«116956_g88691074663054_cont_9to1c4b_58_37_alg».proof.Proof.K.Reg3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun3_A (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) :
    Σ' (L9 : List (View.Piece (Elt F) S400x4 .f32)) (L10 : List (View.Piece (Elt F) S10000x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.K.Reg3RunB.lean ====
import proofs.«116956_g88691074663054_cont_9to1c4b_58_37_alg».proof.Proof.K.Reg3RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun3_B (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32) :
    Σ' (L9 : List (View.Piece (Elt F) S400x4 .f32)) (L10 : List (View.Piece (Elt F) S10000x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.Kernel.Hand

end
-- ==== Proof.K.Reg3RunC.lean ====
import proofs.«116956_g88691074663054_cont_9to1c4b_58_37_alg».proof.Proof.K.Reg3RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun3_C (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32) :
    Σ' (L9 : List (View.Piece (Elt F) S400x4 .f32)) (L10 : List (View.Piece (Elt F) S10000x4 .f32)), { LS0 : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.Kernel.Hand

end
-- ==== Proof.K.Reg3.lean ====
import proofs.«116956_g88691074663054_cont_9to1c4b_58_37_alg».proof.Proof.K.Reg3RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcA3_0 (t : Fin cfg3.N) (h0 : t.val % 25 = 0) : cond3_0 (grid3.coords t) := (hcond3_0 t).mpr h0
theorem hcA3_1 (t : Fin cfg3.N) (h0 : t.val % 25 = 0) : ¬cond3_1 (grid3.coords t) := fun h => (hcond3_1 t).mp h h0
theorem hcA3_2 (t : Fin cfg3.N) (h0 : t.val % 25 = 0) : ¬cond3_2 (grid3.coords t) := fun h => by
  have h2 := (hcond3_2 t).mp h; omega
theorem hcB3_0 (t : Fin cfg3.N) (h0 : ¬ t.val % 25 = 0) : ¬cond3_0 (grid3.coords t) := fun h => h0 ((hcond3_0 t).mp h)
theorem hcB3_1 (t : Fin cfg3.N) (h0 : ¬ t.val % 25 = 0) : cond3_1 (grid3.coords t) := (hcond3_1 t).mpr h0
theorem hcB3_2 (t : Fin cfg3.N) (h2 : ¬ t.val % 25 = 24) : ¬cond3_2 (grid3.coords t) := fun h => h2 ((hcond3_2 t).mp h)
theorem hcC3_2 (t : Fin cfg3.N) (h2 : t.val % 25 = 24) : cond3_2 (grid3.coords t) := (hcond3_2 t).mpr h2

section
variable (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole)

section
variable (hc0 : cond3_0 i) (hc1 : ¬cond3_1 i) (hc2 : ¬cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32)

theorem cover3_A_9 (y : S400x4.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1, y ∈ pc.1.set :=
  View.cover_of_tiledL _ S400x4.size (by sl_kernel_rfl) y

theorem scover3_A_0 (y : S32x10000.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.2.1, y ∈ pc.1.set :=
  View.cover_of_tiledL _ S32x10000.size (by sl_kernel_rfl) y

def outs3_A : Vec F S400x4 .f32 × Vec F S10000x4 .f32 × Vec F S32x10000 .f32 :=
  (VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1),
   VO3_10.read (Elt F) (VO3_10.writes (Elt F) VO3_10.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1),
   VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.2.1))
end

section
variable (hc0 : ¬cond3_0 i) (hc1 : cond3_1 i) (hc2 : ¬cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32)

theorem cover3_B_9 (y : S400x4.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL _ S400x4.size (by sl_kernel_rfl) y

theorem scover3_B_0 (y : S32x10000.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1, y ∈ pc.1.set :=
  View.cover_of_tiledL _ S32x10000.size (by sl_kernel_rfl) y

def outs3_B : Vec F S400x4 .f32 × Vec F S10000x4 .f32 × Vec F S32x10000 .f32 :=
  (VO3_9.read (Elt F) (VO3_9.writes (Elt F) VO3_9.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1),
   VO3_10.read (Elt F) (VO3_10.writes (Elt F) VO3_10.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1),
   VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1))
end

section
variable (hc0 : ¬cond3_0 i) (hc1 : cond3_1 i) (hc2 : cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32)

theorem cover3_C_9 (y : S400x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL _ S400x4.size (by sl_kernel_rfl) y

theorem cover3_C_10 (y : S10000x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1, y ∈ pc.1.set :=
  View.cover_of_tiledL _ S10000x4.size (by sl_kernel_rfl) y

theorem scover3_C_0 (y : S32x10000.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1, y ∈ pc.1.set :=
  View.cover_of_tiledL _ S32x10000.size (by sl_kernel_rfl) y

def outs3_C : Vec F S400x4 .f32 × Vec F S10000x4 .f32 × Vec F S32x10000 .f32 :=
  (VO3_9.read (Elt F) (VO3_9.writes (Elt F) VO3_9.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1),
   VO3_10.read (Elt F) (VO3_10.writes (Elt F) VO3_10.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1),
   VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1))
end
end

def at3_A (c : Dev nD) (t : Fin cfg3.N) (h0 : t.val % 25 = 0) : Vec F S400x4 .f32 × Vec F S10000x4 .f32 × Vec F S32x10000 .f32 :=
  outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (hcA3_0 t h0) (hcA3_1 t h0) (hcA3_2 t h0) (iblk3 V c 0 t) (iblk3 V c 1 t) (iblk3 V c 2 t) (iblk3 V c 3 t) (iblk3 V c 4 t) (iblk3 V c 5 t) (iblk3 V c 6 t) (iblk3 V c 7 t) (iblk3 V c 8 t)

def at3_B (c : Dev nD) (t : Fin cfg3.N) (h0 : ¬ t.val % 25 = 0) (h2 : ¬ t.val % 25 = 24) (xs0 : Vec F S32x10000 .f32) : Vec F S400x4 .f32 × Vec F S10000x4 .f32 × Vec F S32x10000 .f32 :=
  outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (hcB3_0 t h0) (hcB3_1 t h0) (hcB3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) xs0

def at3_C (c : Dev nD) (t : Fin cfg3.N) (h0 : ¬ t.val % 25 = 0) (h2 : t.val % 25 = 24) (xs0 : Vec F S32x10000 .f32) : Vec F S400x4 .f32 × Vec F S10000x4 .f32 × Vec F S32x10000 .f32 :=
  outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (hcB3_0 t h0) (hcB3_1 t h0) (hcC3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) xs0

def outsAt3 (c : Dev nD) : (n : ℕ) → n < cfg3.N → Vec F S400x4 .f32 × Vec F S10000x4 .f32 × Vec F S32x10000 .f32
  | 0, hn => at3_A V c ⟨0, hn⟩ (Nat.zero_mod _)
  | n + 1, hn =>
    if h0 : (n + 1) % 25 = 0 then at3_A V c ⟨n + 1, hn⟩ h0
    else if h2 : (n + 1) % 25 = 24 then at3_C V c ⟨n + 1, hn⟩ h0 h2 (outsAt3 c n (Nat.lt_of_succ_lt hn)).2.2
    else at3_B V c ⟨n + 1, hn⟩ h0 h2 (outsAt3 c n (Nat.lt_of_succ_lt hn)).2.2

theorem outsAt3_A (c : Dev nD) (t : Fin cfg3.N) (h0 : t.val % 25 = 0) :
    outsAt3 V c t.val t.isLt = at3_A V c t h0 := by
  obtain ⟨n, hn⟩ := t
  cases n with
  | zero => exact rfl
  | succ n => exact (dif_pos h0).trans rfl

theorem outsAt3_B (c : Dev nD) (t : Fin cfg3.N) (h0 : ¬ t.val % 25 = 0) (h2 : ¬ t.val % 25 = 24) :
    outsAt3 V c t.val t.isLt = at3_B V c t h0 h2 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

theorem outsAt3_C (c : Dev nD) (t : Fin cfg3.N) (h0 : ¬ t.val % 25 = 0) (h2 : t.val % 25 = 24) :
    outsAt3 V c t.val t.isLt = at3_C V c t h0 h2 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
    | ⟨10, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = (outsAt3 V c t.val t.isLt).1 := by dsimp only [dat3]
theorem after3_10 (c : Dev nD) (t : Fin cfg3.N) : (dat3 V c).after 10 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  rw [show (dat3 V c).leavesExact 7 t = owns (c : Thread nD τ) (ms3_7 t) fullShare ((dat3 V c).after 7 t) from by
    unfold Dat.leavesExact; rw [liveAt3_7 t], after3_7]
  rw [show (dat3 V c).leavesExact 8 t = owns (c : Thread nD τ) (ms3_8 t) fullShare ((dat3 V c).after 8 t) from by
    unfold Dat.leavesExact; rw [liveAt3_8 t], after3_8]
  rw [show (dat3 V c).leavesExact 9 t = owns (c : Thread nD τ) (ms3_9 t) fullShare ((dat3 V c).after 9 t) from by
    unfold Dat.leavesExact; rw [liveAt3_9 t], after3_9]
  by_cases h0 : t.val % 25 = 0
  ·
    rw [Dat.leavesExact_idle (dat3 V c) 10 t (idleAt3_10 t (hcA3_2 t h0)) (noFlush3_10 t (hcA3_2 t h0))]
    rw [outsAt3_A V c t h0]
    unfold at3_A outs3_A; (try dsimp only)
    have hz : t.val = 0 := by omega
    rw [PhiS3_castSucc V c t, PhiS3_zero V c _ _ hz, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A c (grid3.coords t) _ _ _ _ _ _ _ _ _ _ _ _ _ _ _ _ _ _ _ _ _ _ _ _ (hcA3_0 t h0) (hcA3_1 t h0) (hcA3_2 t h0) (iblk3 V c 0 t) (iblk3 V c 1 t) (iblk3 V c 2 t) (iblk3 V c 3 t) (iblk3 V c 4 t) (iblk3 V c 5 t) (iblk3 V c 6 t) (iblk3 V c 7 t) (iblk3 V c 8 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS0]; · iexact HS0
    iintro ⟨H0, H1, H2, H3, H4, H5, H6, H7, H8, ⟨%e9, H9⟩, H10, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover3_A_9 c _ _ _ _ _ _ _ _ _ _ _ _ _ _ _ _ _ _ _ _ _ _ _ _ _ _ _ _ _ _ _ _ _ _ _ _ _)
    iexists _; iexact H10

  · by_cases h2 : t.val % 25 = 24
    ·
      rw [show (dat3 V c).leavesExact 10 t = owns (c : Thread nD τ) (ms3_10 t) fullShare ((dat3 V c).after 10 t) from by
        unfold Dat.leavesExact; rw [liveAt3_10_C t (hcC3_2 t h2)], after3_10]
      rw [outsAt3_C V c t h0 h2]
      unfold at3_C outs3_C; (try dsimp only)
      have hz : t.val ≠ 0 := by omega
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_C c (grid3.coords t) _ _ _ _ _ _ _ _ _ _ _ _ _ _ _ _ _ _ _ _ _ _ _ _ (hcB3_0 t h0) (hcB3_1 t h0) (hcC3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_C_9 c _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover3_C_10 c _ _ _ _ _ _ _ _ _ _ _ _ _ _ _ _ _ _ _ _ _ _ _ _ _ _ _ _ _ _ _ _ _ _ _ _ _ _)

    ·
      rw [Dat.leavesExact_idle (dat3 V c) 10 t (idleAt3_10 t (hcB3_2 t h2)) (noFlush3_10 t (hcB3_2 t h2))]
      rw [outsAt3_B V c t h0 h2]
      unfold at3_B outs3_B; (try dsimp only)
      have hz : t.val ≠ 0 := by omega
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B c (grid3.coords t) _ _ _ _ _ _ _ _ _ _ _ _ _ _ _ _ _ _ _ _ _ _ _ _ (hcB3_0 t h0) (hcB3_1 t h0) (hcB3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_B_9 c _ _ _ _ _ _ _ _ _ _ _ _ _ _ _ _ _ _ _ _ _ _ _ _ _ _ _ _ _ _ _ _ _ _ _ _ _ _)
      iexists _; iexact H10

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

theorem hout3 (c : Dev nD) : (dat3 V c).Φ (Fin.last cfg3.N) ⊢ Pipeline.ΦA spec3 c :=
  Phi_out3 V c _ (by rw [Fin.val_last]; have : cfg3.N = 25 := N_3; omega)

end Cert.Kernel.Hand

end
-- ==== Proof.K.Reg4.lean ====
import proofs.«116956_g88691074663054_cont_9to1c4b_58_37_alg».proof.Proof.Gen.Kernel.Launch
import proofs.«116956_g88691074663054_cont_9to1c4b_58_37_alg».proof.Proof.Gen.Kernel.Skeleton
import proofs.«116956_g88691074663054_cont_9to1c4b_58_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S400x4 := Rect.unit (s := S400x4) ![0, 0] S400x4.size inb_S400x4_S400x4_0_0
abbrev r4_1 : Rect S10000x4 := Rect.unit (s := S10000x4) ![0, 0] S10000x4.size inb_S10000x4_S10000x4_0_0
abbrev r4_2 : Rect S400x10000 := Rect.unit (s := S400x10000) ![0, 0] S400x10000.size inb_S400x10000_S400x10000_0_0

def out4_2 (x0 : Vec F S400x4 .f32) (x1 : Vec F S10000x4 .f32) : Vec F S400x10000 .f32 :=
  View.canon [⟨r4_2, k4_pay1 (View.ld x0 r4_0) (View.ld x1 r4_1)⟩]

theorem cover4_2 (p0 : Vec F S400x10000 .f32) (y : S400x10000.Idx) :
    ∃ pc ∈ ([⟨r4_2, p0⟩] : List (View.Piece (Elt F) S400x10000 .f32)), y ∈ pc.1.set :=
  View.cover_of_tiled [⟨r4_2, p0⟩] S400x10000.size (by rfl) y

set_option maxHeartbeats 1000000 in

theorem sound_kernel4 (c : Dev nD) (E : Set ℕ) (i : grid4.Coords)
    (arg1 : Memref sig .tc .vmem S400x4 .f32) (harg1 : arg1.IsWhole) (arg2 : Memref sig .tc .vmem S10000x4 .f32) (harg2 : arg2.IsWhole)
    (arg3 : Memref sig .tc .vmem S400x10000 .f32) (harg3 : arg3.IsWhole)
    (x0 : Vec F S400x4 .f32) (x1 : Vec F S10000x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__dec_body i arg1 harg1 arg2 harg2 arg3 harg3) K := by
  simp only [cc4__dec_body_eq_skeleton]; unfold cc4__dec_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«116956_g88691074663054_cont_9to1c4b_58_37_alg».proof.Proof.K.Reg0
import proofs.«116956_g88691074663054_cont_9to1c4b_58_37_alg».proof.Proof.K.Reg1
import proofs.«116956_g88691074663054_cont_9to1c4b_58_37_alg».proof.Proof.K.Reg2
import proofs.«116956_g88691074663054_cont_9to1c4b_58_37_alg».proof.Proof.K.Reg3
import proofs.«116956_g88691074663054_cont_9to1c4b_58_37_alg».proof.Proof.K.Reg4
import proofs.«116956_g88691074663054_cont_9to1c4b_58_37_alg».proof.Proof.Gen.Kernel.Launch
import proofs.«116956_g88691074663054_cont_9to1c4b_58_37_alg».proof.Proof.Gen.Kernel.Skeleton
import proofs.«116956_g88691074663054_cont_9to1c4b_58_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev Vv0 : (c : Dev nD) → (b : Ref sig .tc) → Buf (Elt F) ((c : Thread nD τ).loc b) := fun c b => W0 m ρ c b

theorem withArrays_keep {c : Dev nD} {cfg : Cfg sig Λ₀} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w)))
    (b : Ref sig .tc) (hb : ∀ w, (cfg.win w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans
      ((dat.arrAt_in w (Bool.eq_false_iff.mpr fun hh => hb w hh rfl) _).trans (hA w))
  · exact Pipeline.withArrays_of_ne _ c _ _ b fun w e => h ⟨w, e⟩

def W1 (c : Dev nD) : Valuation τ sig (Elt F) :=
  Pipeline.withArrays spec0 c (W0 m ρ c) fun w => (dat0 (Vv0 m ρ) c).arrAt w cfg0.N
theorem W1_arr (c : Dev nD) (w : Fin cfg0.W) :
    W1 m ρ c (Proc.devRef .tc (Pipeline.arrRef spec0 w)) = (dat0 (Vv0 m ρ) c).arrAt w cfg0.N :=
  Pipeline.withArrays_arr spec0 launch0.win.arr_inj c _ _ w
abbrev Vv1 : (c : Dev nD) → (b : Ref sig .tc) → Buf (Elt F) ((c : Thread nD τ).loc b) := fun c b => W1 m ρ c b
theorem W1_keep (c : Dev nD) (b : Ref sig .tc) (hb : ∀ w, (cfg0.win w).isOut = true → Pipeline.arrRef spec0 w ≠ b) :
    W1 m ρ c (Proc.devRef .tc b) = W0 m ρ c (Proc.devRef .tc b) :=
  withArrays_keep (dat0 (Vv0 m ρ) c) launch0.win.arr_inj _ (A_eq0 (Vv0 m ρ) c) b hb

def W2 (c : Dev nD) : Valuation τ sig (Elt F) :=
  Pipeline.withArrays spec1 c (W1 m ρ c) fun w => (dat1 (Vv1 m ρ) c).arrAt w cfg1.N
theorem W2_arr (c : Dev nD) (w : Fin cfg1.W) :
    W2 m ρ c (Proc.devRef .tc (Pipeline.arrRef spec1 w)) = (dat1 (Vv1 m ρ) c).arrAt w cfg1.N :=
  Pipeline.withArrays_arr spec1 launch1.win.arr_inj c _ _ w
abbrev Vv2 : (c : Dev nD) → (b : Ref sig .tc) → Buf (Elt F) ((c : Thread nD τ).loc b) := fun c b => W2 m ρ c b
theorem W2_keep (c : Dev nD) (b : Ref sig .tc) (hb : ∀ w, (cfg1.win w).isOut = true → Pipeline.arrRef spec1 w ≠ b) :
    W2 m ρ c (Proc.devRef .tc b) = W1 m ρ c (Proc.devRef .tc b) :=
  withArrays_keep (dat1 (Vv1 m ρ) c) launch1.win.arr_inj _ (A_eq1 (Vv1 m ρ) c) b hb

def W3 (c : Dev nD) : Valuation τ sig (Elt F) :=
  Pipeline.withArrays spec2 c (W2 m ρ c) fun w => (dat2 (Vv2 m ρ) c).arrAt w cfg2.N
theorem W3_arr (c : Dev nD) (w : Fin cfg2.W) :
    W3 m ρ c (Proc.devRef .tc (Pipeline.arrRef spec2 w)) = (dat2 (Vv2 m ρ) c).arrAt w cfg2.N :=
  Pipeline.withArrays_arr spec2 launch2.win.arr_inj c _ _ w
abbrev Vv3 : (c : Dev nD) → (b : Ref sig .tc) → Buf (Elt F) ((c : Thread nD τ).loc b) := fun c b => W3 m ρ c b
theorem W3_keep (c : Dev nD) (b : Ref sig .tc) (hb : ∀ w, (cfg2.win w).isOut = true → Pipeline.arrRef spec2 w ≠ b) :
    W3 m ρ c (Proc.devRef .tc b) = W2 m ρ c (Proc.devRef .tc b) :=
  withArrays_keep (dat2 (Vv2 m ρ) c) launch2.win.arr_inj _ (A_eq2 (Vv2 m ρ) c) b hb

def W4 (c : Dev nD) : Valuation τ sig (Elt F) :=
  Pipeline.withArrays spec3 c (W3 m ρ c) fun w => (dat3 (Vv3 m ρ) c).arrAt w cfg3.N
theorem W4_arr (c : Dev nD) (w : Fin cfg3.W) :
    W4 m ρ c (Proc.devRef .tc (Pipeline.arrRef spec3 w)) = (dat3 (Vv3 m ρ) c).arrAt w cfg3.N :=
  Pipeline.withArrays_arr spec3 launch3.win.arr_inj c _ _ w
abbrev Vv4 : (c : Dev nD) → (b : Ref sig .tc) → Buf (Elt F) ((c : Thread nD τ).loc b) := fun c b => W4 m ρ c b
theorem W4_keep (c : Dev nD) (b : Ref sig .tc) (hb : ∀ w, (cfg3.win w).isOut = true → Pipeline.arrRef spec3 w ≠ b) :
    W4 m ρ c (Proc.devRef .tc b) = W3 m ρ c (Proc.devRef .tc b) :=
  withArrays_keep (dat3 (Vv3 m ρ) c) launch3.win.arr_inj _ (A_eq3 (Vv3 m ρ) c) b hb

def W5 (c : Dev nD) : Valuation τ sig (Elt F) :=
  Pipeline.withArrays spec4 c (W4 m ρ c) fun w => (dat4 (Vv4 m ρ) c).arrAt w cfg4.N
theorem W5_arr (c : Dev nD) (w : Fin cfg4.W) :
    W5 m ρ c (Proc.devRef .tc (Pipeline.arrRef spec4 w)) = (dat4 (Vv4 m ρ) c).arrAt w cfg4.N :=
  Pipeline.withArrays_arr spec4 launch4.win.arr_inj c _ _ w
abbrev Vv5 : (c : Dev nD) → (b : Ref sig .tc) → Buf (Elt F) ((c : Thread nD τ).loc b) := fun c b => W5 m ρ c b
theorem W5_keep (c : Dev nD) (b : Ref sig .tc) (hb : ∀ w, (cfg4.win w).isOut = true → Pipeline.arrRef spec4 w ≠ b) :
    W5 m ρ c (Proc.devRef .tc b) = W4 m ρ c (Proc.devRef .tc b) :=
  withArrays_keep (dat4 (Vv4 m ρ) c) launch4.win.arr_inj _ (A_eq4 (Vv4 m ρ) c) b hb

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (Vv0 m ρ) c
  | ⟨1, _⟩ => fun c => dat1 (Vv1 m ρ) c
  | ⟨2, _⟩ => fun c => dat2 (Vv2 m ρ) c
  | ⟨3, _⟩ => fun c => dat3 (Vv3 m ρ) c
  | ⟨4, _⟩ => fun c => dat4 (Vv4 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev St (V : Dev nD → Valuation τ sig (Elt F)) (c : Dev nD) : sProp 𝕄 :=
  iprop(StableHlo.held (c : Thread nD τ) (Pipeline.ucRefs τ sig) (V c) ∗ R c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

abbrev exitOf (p : Fin 5) (V : Dev nD → Valuation τ sig (Elt F)) (c : Dev nD) : Valuation τ sig (Elt F) :=
  Pipeline.withArrays (cfgs p).spec c (V c) fun w => (pdats m ρ p c).arrAt w (cfgs p).N

set_option backward.isDefEq.respectTransparency.types false in

def regOf (p : Fin 5) (kit : Pipeline.LaunchFacts (nD := nD) (τ := τ) cfgs p) (V : Dev nD → Valuation τ sig (Elt F))
    (hbody : ∀ c, Pipeline.BodyObligationLoose (pdats m ρ p c) (defs₀ (F := F)) 𝒱₀ () Set.univ)
    (hq : ∀ c w, (pdats m ρ p c).q w = fullShare)
    (hA : ∀ c w, (pdats m ρ p c).A w = V c (Proc.devRef .tc (Pipeline.arrRef (cfgs p).spec w)))
    (howed : ∀ c t, (pdats m ρ p c).owed t = 0) (hrec : ∀ c t, (pdats m ρ p c).recorded t = Set.univ)
    (hΦ₀ : ∀ c, Pipeline.ΦA (cfgs p).spec c ⊢ (pdats m ρ p c).Φ 0)
    (hΦₙ : ∀ c, (pdats m ρ p c).Φ (Fin.last _) ⊢ Pipeline.ΦA (cfgs p).spec c) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre := St V
  post := St (exitOf m ρ p V)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) kit.win kit.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin c := by
    refine .trans ?_ (hΦ₀ c); unfold Pipeline.ΦA
    iintro ⟨Hp, -, Hr⟩
    isplitl [Hr]; · iexact Hr
    iexact Hp
  hout c := by
    rw [Pipeline.ownSems0_none]; refine (hΦₙ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c)) (fun b => V c b) (fun b => exitOf m ρ p V c b)
      ((pdats m ρ p c).arrAt · (cfgs p).N)
      (fun w => Eq.symm (Pipeline.withArrays_arr (cfgs p).spec kit.win.arr_inj c (V c) (fun w => (pdats m ρ p c).arrAt w (cfgs p).N) w))
      fun b hb => Pipeline.withArrays_of_ne (cfgs p).spec c (V c) _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W0 m ρ) (fun c => (body_obligation0 (Vv0 m ρ) c).loose) (fun _ _ => rfl) (A_eq0 (Vv0 m ρ))
    (fun _ _ => rfl) (fun _ _ => rfl) (fun _ => .rfl) fun _ => .rfl

set_option backward.isDefEq.respectTransparency.types false in
def reg1 : Pipeline.RegionSeg (pcfgs (F := F)) adm (pdats m ρ) () defs₀ 𝒱₀ L lv 1 :=
  regOf m ρ 1 launch1 (W1 m ρ) (fun c => (body_obligation1 (Vv1 m ρ) c).loose) (fun _ _ => rfl) (A_eq1 (Vv1 m ρ))
    (fun _ _ => rfl) (fun _ _ => rfl) (fun _ => .rfl) fun _ => .rfl

set_option backward.isDefEq.respectTransparency.types false in
def reg2 : Pipeline.RegionSeg (pcfgs (F := F)) adm (pdats m ρ) () defs₀ 𝒱₀ L lv 2 :=
  regOf m ρ 2 launch2 (W2 m ρ) (fun c => (body_obligation2 (Vv2 m ρ) c).loose) (fun _ _ => rfl) (A_eq2 (Vv2 m ρ))
    (fun _ _ => rfl) (fun _ _ => rfl) (fun _ => .rfl) (hout2 (Vv2 m ρ))

set_option backward.isDefEq.respectTransparency.types false in
def reg3 : Pipeline.RegionSeg (pcfgs (F := F)) adm (pdats m ρ) () defs₀ 𝒱₀ L lv 3 :=
  regOf m ρ 3 launch3 (W3 m ρ) (fun c => (body_obligation3 (Vv3 m ρ) c).loose) (fun _ _ => rfl) (A_eq3 (Vv3 m ρ))
    (fun _ _ => rfl) (fun _ _ => rfl) (fun _ => .rfl) (hout3 (Vv3 m ρ))

set_option backward.isDefEq.respectTransparency.types false in
def reg4 : Pipeline.RegionSeg (pcfgs (F := F)) adm (pdats m ρ) () defs₀ 𝒱₀ L lv 4 :=
  regOf m ρ 4 launch4 (W4 m ρ) (fun c => (body_obligation4 (Vv4 m ρ) c).loose) (fun _ _ => rfl) (A_eq4 (Vv4 m ρ))
    (fun _ _ => rfl) (fun _ _ => rfl) (fun _ => .rfl) fun _ => .rfl

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m ρ)) (Tₙ := Tₙ m ρ)
    (hch := ⟨fun _ => .rfl, fun _ => .rfl, fun _ => .rfl, fun _ => .rfl, fun _ => .rfl, fun c => by
      show St (W5 m ρ) c ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.Ends.lean ====
import proofs.«116956_g88691074663054_cont_9to1c4b_58_37_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem args_in0 : ∀ b ∈ argRefs, ∀ w, (cfg0.win w).isOut = true → Pipeline.arrRef spec0 w ≠ b := by decide
theorem args_in1 : ∀ b ∈ argRefs, ∀ w, (cfg1.win w).isOut = true → Pipeline.arrRef spec1 w ≠ b := by decide
theorem args_in2 : ∀ b ∈ argRefs, ∀ w, (cfg2.win w).isOut = true → Pipeline.arrRef spec2 w ≠ b := by decide
theorem args_in3 : ∀ b ∈ argRefs, ∀ w, (cfg3.win w).isOut = true → Pipeline.arrRef spec3 w ≠ b := by decide
theorem args_in4 : ∀ b ∈ argRefs, ∀ w, (cfg4.win w).isOut = true → Pipeline.arrRef spec4 w ≠ b := by decide

theorem W1_arg (c : Dev nD) (b : Ref sig .tc) (hb : b ∈ argRefs) : W1 m ρ c (Proc.devRef .tc b) = m ((c : Thread nD τ).loc b) :=
  (W1_keep m ρ c b (args_in0 b hb)).trans rfl
theorem W2_arg (c : Dev nD) (b : Ref sig .tc) (hb : b ∈ argRefs) : W2 m ρ c (Proc.devRef .tc b) = m ((c : Thread nD τ).loc b) :=
  (W2_keep m ρ c b (args_in1 b hb)).trans (W1_arg m ρ c b hb)
theorem W3_arg (c : Dev nD) (b : Ref sig .tc) (hb : b ∈ argRefs) : W3 m ρ c (Proc.devRef .tc b) = m ((c : Thread nD τ).loc b) :=
  (W3_keep m ρ c b (args_in2 b hb)).trans (W2_arg m ρ c b hb)
theorem W4_arg (c : Dev nD) (b : Ref sig .tc) (hb : b ∈ argRefs) : W4 m ρ c (Proc.devRef .tc b) = m ((c : Thread nD τ).loc b) :=
  (W4_keep m ρ c b (args_in3 b hb)).trans (W3_arg m ρ c b hb)
theorem W5_arg (c : Dev nD) (b : Ref sig .tc) (hb : b ∈ argRefs) : W5 m ρ c (Proc.devRef .tc b) = m ((c : Thread nD τ).loc b) :=
  (W5_keep m ρ c b (args_in4 b hb)).trans (W4_arg m ρ c b hb)

theorem Vv2_v0 (c : Dev nD) : Vv2 m ρ c main_v0 = (dat0 (Vv0 m ρ) c).arrAt 2 cfg0.N :=
  (W2_keep m ρ c main_v0 (by decide)).trans (W1_arr m ρ c 2)
theorem Vv2_v1 (c : Dev nD) : Vv2 m ρ c main_v1 = (dat1 (Vv1 m ρ) c).arrAt 2 cfg1.N := W2_arr m ρ c 2
theorem Vv3_v2_0 (c : Dev nD) : Vv3 m ρ c main_v2_0 = (dat2 (Vv2 m ρ) c).arrAt 3 cfg2.N := W3_arr m ρ c 3
theorem Vv3_v2_1 (c : Dev nD) : Vv3 m ρ c main_v2_1 = (dat2 (Vv2 m ρ) c).arrAt 4 cfg2.N := W3_arr m ρ c 4
theorem Vv4_v3_0 (c : Dev nD) : Vv4 m ρ c main_v3_0 = (dat3 (Vv3 m ρ) c).arrAt 9 cfg3.N := W4_arr m ρ c 9
theorem Vv4_v3_1 (c : Dev nD) : Vv4 m ρ c main_v3_1 = (dat3 (Vv3 m ρ) c).arrAt 10 cfg3.N := W4_arr m ρ c 10

theorem W5_v4 (c : Dev nD) : W5 m ρ c (Proc.devRef .tc main_v4) = (dat4 (Vv4 m ρ) c).arrAt 2 cfg4.N := W5_arr m ρ c 2
theorem W5_v3_0 (c : Dev nD) : W5 m ρ c (Proc.devRef .tc main_v3_0) = (dat3 (Vv3 m ρ) c).arrAt 9 cfg3.N :=
  (W5_keep m ρ c main_v3_0 (by decide)).trans (W4_arr m ρ c 9)
theorem W5_v3_1 (c : Dev nD) : W5 m ρ c (Proc.devRef .tc main_v3_1) = (dat3 (Vv3 m ρ) c).arrAt 10 cfg3.N :=
  (W5_keep m ρ c main_v3_1 (by decide)).trans (W4_arr m ρ c 10)

theorem run_vals : θ_run defs (onTc (τ := τ) (main (F := F))) ⟨m, fun _ => 0, ρ⟩ (fun r => ∀ c : Dev nD,
      r.2.mem ((c.tc : Thread nD τ).loc main_v4) = (dat4 (Vv4 m ρ) c).arrAt 2 cfg4.N
      ∧ r.2.mem ((c.tc : Thread nD τ).loc main_v3_0) = (dat3 (Vv3 m ρ) c).arrAt 9 cfg3.N
      ∧ r.2.mem ((c.tc : Thread nD τ).loc main_v3_1) = (dat3 (Vv3 m ρ) c).arrAt 10 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v4 (by decide))).trans (W5_v4 m ρ c),
     (h c _ (mem_uc main_v3_0 (by decide))).trans (W5_v3_0 m ρ c),
     (h c _ (mem_uc main_v3_1 (by decide))).trans (W5_v3_1 m ρ c),
     (h c _ (mem_uc main_arg0 (by decide))).trans (W5_arg m ρ c main_arg0 (by decide)),
     (h c _ (mem_uc main_arg1 (by decide))).trans (W5_arg m ρ c main_arg1 (by decide)),
     (h c _ (mem_uc main_arg2 (by decide))).trans (W5_arg m ρ c main_arg2 (by decide)),
     (h c _ (mem_uc main_arg3 (by decide))).trans (W5_arg m ρ c main_arg3 (by decide)),
     (h c _ (mem_uc main_arg4 (by decide))).trans (W5_arg m ρ c main_arg4 (by decide)),
     (h c _ (mem_uc main_arg5 (by decide))).trans (W5_arg m ρ c main_arg5 (by decide)),
     (h c _ (mem_uc main_arg6 (by decide))).trans (W5_arg m ρ c main_arg6 (by decide)),
     (h c _ (mem_uc main_arg7 (by decide))).trans (W5_arg m ρ c main_arg7 (by decide)),
     (h c _ (mem_uc main_arg8 (by decide))).trans (W5_arg m ρ c main_arg8 (by decide)),
     (h c _ (mem_uc main_arg9 (by decide))).trans (W5_arg m ρ c main_arg9 (by decide)),
     (h c _ (mem_uc main_arg10 (by decide))).trans (W5_arg m ρ c main_arg10 (by decide))⟩) (run_all m ρ)

end Cert.Kernel.Hand

end
-- ==== Proof.KI.Reg0.lean ====
import proofs.«116956_g88691074663054_cont_9to1c4b_58_37_alg».proof.Proof.Gen.KernelIdeal.Launch
import proofs.«116956_g88691074663054_cont_9to1c4b_58_37_alg».proof.Proof.Gen.KernelIdeal.Skeleton
import proofs.«116956_g88691074663054_cont_9to1c4b_58_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S400x10000 := Rect.unit (s := S400x10000) ![0, 0] S400x10000.size inb_S400x10000_S400x10000_0_0
abbrev r0_1 : Rect S10000x16 := Rect.unit (s := S10000x16) ![0, 0] S10000x16.size inb_S10000x16_S10000x16_0_0
abbrev r0_2 : Rect S400x32 := Rect.unit (s := S400x32) ![0, 0] S400x32.size inb_S400x32_S400x32_0_0

def out0_2 (x0 : Vec F S400x10000 .f32) (x1 : Vec F S10000x16 .f32) : Vec F S400x32 .bf16 :=
  View.canon [⟨r0_2, k0_pay1 (View.ld x0 r0_0) (View.ld x1 r0_1)⟩]

theorem cover0_2 (p0 : Vec F S400x32 .bf16) (y : S400x32.Idx) :
    ∃ pc ∈ ([⟨r0_2, p0⟩] : List (View.Piece (Elt F) S400x32 .bf16)), y ∈ pc.1.set :=
  View.cover_of_tiled [⟨r0_2, p0⟩] S400x32.size (by rfl) y

set_option maxHeartbeats 1000000 in

theorem sound_kernel0 (c : Dev nD) (E : Set ℕ) (i : grid0.Coords)
    (arg1 : Memref sig .tc .vmem S400x10000 .f32) (harg1 : arg1.IsWhole) (arg2 : Memref sig .tc .vmem S10000x16 .f32) (harg2 : arg2.IsWhole)
    (arg3 : Memref sig .tc .vmem S400x32 .bf16) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_body i arg1 harg1 arg2 harg2 arg3 harg3) K := by
  simp only [cc0__xw_body_eq_skeleton]; unfold cc0__xw_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«116956_g88691074663054_cont_9to1c4b_58_37_alg».proof.Proof.Gen.KernelIdeal.Launch
import proofs.«116956_g88691074663054_cont_9to1c4b_58_37_alg».proof.Proof.Gen.KernelIdeal.Skeleton
import proofs.«116956_g88691074663054_cont_9to1c4b_58_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x16 := Rect.unit (s := S10000x16) ![0, 0] S10000x16.size inb_S10000x16_S10000x16_0_0
abbrev r1_2 : Rect S400x32 := Rect.unit (s := S400x32) ![0, 0] S400x32.size inb_S400x32_S400x32_0_0

def out1_2 (x0 : Vec F S400x10000 .f32) (x1 : Vec F S10000x16 .f32) : Vec F S400x32 .bf16 :=
  View.canon [⟨r1_2, k1_pay1 (View.ld x0 r1_0) (View.ld x1 r1_1)⟩]

theorem cover1_2 (p0 : Vec F S400x32 .bf16) (y : S400x32.Idx) :
    ∃ pc ∈ ([⟨r1_2, p0⟩] : List (View.Piece (Elt F) S400x32 .bf16)), y ∈ pc.1.set :=
  View.cover_of_tiled [⟨r1_2, p0⟩] S400x32.size (by rfl) y

set_option maxHeartbeats 1000000 in

theorem sound_kernel1 (c : Dev nD) (E : Set ℕ) (i : grid1.Coords)
    (arg1 : Memref sig .tc .vmem S400x10000 .f32) (harg1 : arg1.IsWhole) (arg2 : Memref sig .tc .vmem S10000x16 .f32) (harg2 : arg2.IsWhole)
    (arg3 : Memref sig .tc .vmem S400x32 .bf16) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__xw_body i arg1 harg1 arg2 harg2 arg3 harg3) K := by
  simp only [cc1__xw_body_eq_skeleton]; unfold cc1__xw_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
import proofs.«116956_g88691074663054_cont_9to1c4b_58_37_alg».proof.Proof.Gen.KernelIdeal.Launch
import proofs.«116956_g88691074663054_cont_9to1c4b_58_37_alg».proof.Proof.Gen.KernelIdeal.Skeleton
import proofs.«116956_g88691074663054_cont_9to1c4b_58_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 25 = 0 :=
  (by decide +kernel : ∀ t : Fin grid2.N, cond2_0 (grid2.coords t) ↔ t.val % 25 = 0)

abbrev cond2_1 (i : grid2.Coords) : Prop := (Scalar.cmpi .ne (Scalar.extui (Scalar.cmpi .ne (BitVec.ofNat 32 (i 0).val) 0#32)) 0#32) = 1#1

theorem hcond2_1 : ∀ t : Fin cfg2.N, cond2_1 (grid2.coords t) ↔ ¬ t.val % 25 = 0 :=
  (by decide +kernel : ∀ t : Fin grid2.N, cond2_1 (grid2.coords t) ↔ ¬ t.val % 25 = 0)

abbrev cond2_2 (i : grid2.Coords) : Prop := k2_cond3 i = 1#1

theorem hcond2_2 : ∀ t : Fin cfg2.N, cond2_2 (grid2.coords t) ↔ t.val % 25 = 24 :=
  (by decide +kernel : ∀ t : Fin grid2.N, cond2_2 (grid2.coords t) ↔ t.val % 25 = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_4 : ∀ t : Fin cfg2.N, cfg2.idle 4 (grid2.coords t) = false := by decide +kernel

theorem idleAt2_3_A : ∀ t : Fin cfg2.N, cond2_0 (grid2.coords t) → ¬cond2_1 (grid2.coords t) → ¬cond2_2 (grid2.coords t) → cfg2.idle 3 (grid2.coords t) = true := by decide +kernel

theorem noFlush2_3_A : ∀ t : Fin cfg2.N, cond2_0 (grid2.coords t) → ¬cond2_1 (grid2.coords t) → ¬cond2_2 (grid2.coords t) → (cfg2.win 3).flush t = false := by decide +kernel

theorem idleAt2_3_B : ∀ t : Fin cfg2.N, ¬cond2_0 (grid2.coords t) → cond2_1 (grid2.coords t) → ¬cond2_2 (grid2.coords t) → cfg2.idle 3 (grid2.coords t) = true := by decide +kernel
theorem noFlush2_3_B : ∀ t : Fin cfg2.N, ¬cond2_0 (grid2.coords t) → cond2_1 (grid2.coords t) → ¬cond2_2 (grid2.coords t) → (cfg2.win 3).flush t = false := by decide +kernel

theorem liveAt2_3_C : ∀ t : Fin cfg2.N, ¬cond2_0 (grid2.coords t) → cond2_1 (grid2.coords t) → cond2_2 (grid2.coords t) → cfg2.idle 3 (grid2.coords t) = false := by decide +kernel

abbrev VO2_3 : View sig .tc .vmem S10000x32 .bf16 := (Memref.whole cc2_stg3_0 : Memref sig .tc .vmem S10000x32 .bf16).view
abbrev VO2_4 : View sig .tc .vmem S400x32 .bf16 := (Memref.whole cc2_stg4_0 : Memref sig .tc .vmem S400x32 .bf16).view

abbrev ms2_0 (t : Fin cfg2.N) : Memref sig .tc .vmem S400x10000 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S400x32 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x32 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S400x32 .bf16 := win2_4.stage (cfg2.slots t 4)
abbrev hs2_4 (t : Fin cfg2.N) : (ms2_4 t).IsWhole := hstage2_4 ((cfg2.slots t 4).cast nbuf2_4)

abbrev scM2_0 : Memref sig .tc .vmem S32x10000 .f32 := Memref.whole cc2_scratch0

abbrev VS2_0 : View sig .tc .vmem S32x10000 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.Reg2RunA.lean ====
import proofs.«116956_g88691074663054_cont_9to1c4b_58_37_alg».proof.Proof.KI.Reg2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in

noncomputable def kernelRun2_A (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole) (hc0 : cond2_0 i) (hc1 : ¬cond2_1 i) (hc2 : ¬cond2_2 i)
    (x0 : Vec F S400x10000 .f32) (x1 : Vec F S400x32 .bf16) (x2 : Vec F S10000x32 .bf16) :
    Σ' (L3 : List (View.Piece (Elt F) S10000x32 .bf16)), Σ' (L4 : List (View.Piece (Elt F) S400x32 .bf16)), { LS0 : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.Reg2RunB.lean ====
import proofs.«116956_g88691074663054_cont_9to1c4b_58_37_alg».proof.Proof.KI.Reg2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in

noncomputable def kernelRun2_B (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole) (hc0 : ¬cond2_0 i) (hc1 : cond2_1 i) (hc2 : ¬cond2_2 i)
    (x0 : Vec F S400x10000 .f32) (x1 : Vec F S400x32 .bf16) (x2 : Vec F S10000x32 .bf16) (xs0 : Vec F S32x10000 .f32) :
    Σ' (L3 : List (View.Piece (Elt F) S10000x32 .bf16)), Σ' (L4 : List (View.Piece (Elt F) S400x32 .bf16)), { LS0 : List (View.Piece (Elt F) S32x10000 .f32) //
      ∀ (xi3 : Vec F S10000x32 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__h_body i arg1 harg1 arg2 harg2 arg3 harg3 arg4 harg4 arg5 harg5 arg6 harg6) K } := by
  refine ⟨[], ?_, ?_, fun xi3 E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.Reg2RunC.lean ====
import proofs.«116956_g88691074663054_cont_9to1c4b_58_37_alg».proof.Proof.KI.Reg2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in

noncomputable def kernelRun2_C (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole) (hc0 : ¬cond2_0 i) (hc1 : cond2_1 i) (hc2 : cond2_2 i)
    (x0 : Vec F S400x10000 .f32) (x1 : Vec F S400x32 .bf16) (x2 : Vec F S10000x32 .bf16) (xs0 : Vec F S32x10000 .f32) :
    Σ' (L3 : List (View.Piece (Elt F) S10000x32 .bf16)), Σ' (L4 : List (View.Piece (Elt F) S400x32 .bf16)), { LS0 : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__h_body i arg1 harg1 arg2 harg2 arg3 harg3 arg4 harg4 arg5 harg5 arg6 harg6) K } := by
  refine ⟨?_, ?_, ?_, fun E K => ?run⟩
  case run =>
    simp only [cc2__h_body_eq_skeleton]; unfold cc2__h_body_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg6.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

end Cert.KernelIdeal.Hand

end
-- ==== Proof.KI.Reg2.lean ====
import proofs.«116956_g88691074663054_cont_9to1c4b_58_37_alg».proof.Proof.KI.Reg2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole)

section
variable (hc0 : cond2_0 i) (hc1 : ¬cond2_1 i) (hc2 : ¬cond2_2 i) (x0 : Vec F S400x10000 .f32) (x1 : Vec F S400x32 .bf16) (x2 : Vec F S10000x32 .bf16)

theorem cover2_A_4 (y : S400x32.Idx) :
    ∃ pc ∈ (kernelRun2_A c i arg1 harg1 arg2 harg2 arg3 harg3 arg4 harg4 arg5 harg5 arg6 harg6 hc0 hc1 hc2 x0 x1 x2).2.1, y ∈ pc.1.set :=
  View.cover_of_tiledL _ S400x32.size (by sl_kernel_rfl) y

theorem scover2_A_0 (y : S32x10000.Idx) :
    ∃ pc ∈ (kernelRun2_A c i arg1 harg1 arg2 harg2 arg3 harg3 arg4 harg4 arg5 harg5 arg6 harg6 hc0 hc1 hc2 x0 x1 x2).2.2.1, y ∈ pc.1.set :=
  View.cover_of_tiledL _ S32x10000.size (by sl_kernel_rfl) y

def outs2_A : Vec F S10000x32 .bf16 × Vec F S400x32 .bf16 × Vec F S32x10000 .f32 :=
  (VO2_3.read (Elt F) (VO2_3.writes (Elt F) VO2_3.junk (kernelRun2_A c i arg1 harg1 arg2 harg2 arg3 harg3 arg4 harg4 arg5 harg5 arg6 harg6 hc0 hc1 hc2 x0 x1 x2).1),
   VO2_4.read (Elt F) (VO2_4.writes (Elt F) VO2_4.junk (kernelRun2_A c i arg1 harg1 arg2 harg2 arg3 harg3 arg4 harg4 arg5 harg5 arg6 harg6 hc0 hc1 hc2 x0 x1 x2).2.1),
   VS2_0.read (Elt F) (VS2_0.writes (Elt F) VS2_0.junk (kernelRun2_A c i arg1 harg1 arg2 harg2 arg3 harg3 arg4 harg4 arg5 harg5 arg6 harg6 hc0 hc1 hc2 x0 x1 x2).2.2.1))
end

section
variable (hc0 : ¬cond2_0 i) (hc1 : cond2_1 i) (hc2 : ¬cond2_2 i) (x0 : Vec F S400x10000 .f32) (x1 : Vec F S400x32 .bf16) (x2 : Vec F S10000x32 .bf16) (xs0 : Vec F S32x10000 .f32)

theorem cover2_B_4 (y : S400x32.Idx) :
    ∃ pc ∈ (kernelRun2_B c i arg1 harg1 arg2 harg2 arg3 harg3 arg4 harg4 arg5 harg5 arg6 harg6 hc0 hc1 hc2 x0 x1 x2 xs0).2.1, y ∈ pc.1.set :=
  View.cover_of_tiledL _ S400x32.size (by sl_kernel_rfl) y

theorem scover2_B_0 (y : S32x10000.Idx) :
    ∃ pc ∈ (kernelRun2_B c i arg1 harg1 arg2 harg2 arg3 harg3 arg4 harg4 arg5 harg5 arg6 harg6 hc0 hc1 hc2 x0 x1 x2 xs0).2.2.1, y ∈ pc.1.set :=
  View.cover_of_tiledL _ S32x10000.size (by sl_kernel_rfl) y

def outs2_B : Vec F S10000x32 .bf16 × Vec F S400x32 .bf16 × Vec F S32x10000 .f32 :=
  (VO2_3.read (Elt F) (VO2_3.writes (Elt F) VO2_3.junk (kernelRun2_B c i arg1 harg1 arg2 harg2 arg3 harg3 arg4 harg4 arg5 harg5 arg6 harg6 hc0 hc1 hc2 x0 x1 x2 xs0).1),
   VO2_4.read (Elt F) (VO2_4.writes (Elt F) VO2_4.junk (kernelRun2_B c i arg1 harg1 arg2 harg2 arg3 harg3 arg4 harg4 arg5 harg5 arg6 harg6 hc0 hc1 hc2 x0 x1 x2 xs0).2.1),
   VS2_0.read (Elt F) (VS2_0.writes (Elt F) VS2_0.junk (kernelRun2_B c i arg1 harg1 arg2 harg2 arg3 harg3 arg4 harg4 arg5 harg5 arg6 harg6 hc0 hc1 hc2 x0 x1 x2 xs0).2.2.1))
end

section
variable (hc0 : ¬cond2_0 i) (hc1 : cond2_1 i) (hc2 : cond2_2 i) (x0 : Vec F S400x10000 .f32) (x1 : Vec F S400x32 .bf16) (x2 : Vec F S10000x32 .bf16) (xs0 : Vec F S32x10000 .f32)

theorem cover2_C_3 (y : S10000x32.Idx) :
    ∃ pc ∈ (kernelRun2_C c i arg1 harg1 arg2 harg2 arg3 harg3 arg4 harg4 arg5 harg5 arg6 harg6 hc0 hc1 hc2 x0 x1 x2 xs0).1, y ∈ pc.1.set :=
  View.cover_of_tiledL _ S10000x32.size (by sl_kernel_rfl) y

theorem cover2_C_4 (y : S400x32.Idx) :
    ∃ pc ∈ (kernelRun2_C c i arg1 harg1 arg2 harg2 arg3 harg3 arg4 harg4 arg5 harg5 arg6 harg6 hc0 hc1 hc2 x0 x1 x2 xs0).2.1, y ∈ pc.1.set :=
  View.cover_of_tiledL _ S400x32.size (by sl_kernel_rfl) y

theorem scover2_C_0 (y : S32x10000.Idx) :
    ∃ pc ∈ (kernelRun2_C c i arg1 harg1 arg2 harg2 arg3 harg3 arg4 harg4 arg5 harg5 arg6 harg6 hc0 hc1 hc2 x0 x1 x2 xs0).2.2.1, y ∈ pc.1.set :=
  View.cover_of_tiledL _ S32x10000.size (by sl_kernel_rfl) y

def outs2_C : Vec F S10000x32 .bf16 × Vec F S400x32 .bf16 × Vec F S32x10000 .f32 :=
  (VO2_3.read (Elt F) (VO2_3.writes (Elt F) VO2_3.junk (kernelRun2_C c i arg1 harg1 arg2 harg2 arg3 harg3 arg4 harg4 arg5 harg5 arg6 harg6 hc0 hc1 hc2 x0 x1 x2 xs0).1),
   VO2_4.read (Elt F) (VO2_4.writes (Elt F) VO2_4.junk (kernelRun2_C c i arg1 harg1 arg2 harg2 arg3 harg3 arg4 harg4 arg5 harg5 arg6 harg6 hc0 hc1 hc2 x0 x1 x2 xs0).2.1),
   VS2_0.read (Elt F) (VS2_0.writes (Elt F) VS2_0.junk (kernelRun2_C c i arg1 harg1 arg2 harg2 arg3 harg3 arg4 harg4 arg5 harg5 arg6 harg6 hc0 hc1 hc2 x0 x1 x2 xs0).2.2.1))
end
end

theorem ncond2_1_of (t : Fin cfg2.N) (h0 : t.val % 25 = 0) : ¬cond2_1 (grid2.coords t) := fun h => (hcond2_1 t).mp h h0
theorem ncond2_2_of (t : Fin cfg2.N) (h0 : t.val % 25 = 0) : ¬cond2_2 (grid2.coords t) := fun h => by
  have h2 := (hcond2_2 t).mp h; omega
theorem ncond2_0_of (t : Fin cfg2.N) (h0 : ¬t.val % 25 = 0) : ¬cond2_0 (grid2.coords t) := fun h => h0 ((hcond2_0 t).mp h)

def at2_A (c : Dev nD) (t : Fin cfg2.N) (h0 : t.val % 25 = 0) : Vec F S10000x32 .bf16 × Vec F S400x32 .bf16 × Vec F S32x10000 .f32 :=
  outs2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (ncond2_1_of t h0) (ncond2_2_of t h0) (iblk2 V c 0 t) (iblk2 V c 1 t) (iblk2 V c 2 t)

def at2_B (c : Dev nD) (t : Fin cfg2.N) (h0 : ¬t.val % 25 = 0) (h2 : ¬t.val % 25 = 24) (xs0 : Vec F S32x10000 .f32) : Vec F S10000x32 .bf16 × Vec F S400x32 .bf16 × Vec F S32x10000 .f32 :=
  outs2_B c (grid2.coords t) (ms2_0 t) (hs2_0 t) (ms2_1 t) (hs2_1 t) (ms2_2 t) (hs2_2 t) (ms2_3 t) (hs2_3 t) (ms2_4 t) (hs2_4 t) scM2_0 (Memref.isWhole_whole _) (ncond2_0_of t h0) ((hcond2_1 t).mpr h0) (fun h => h2 ((hcond2_2 t).mp h)) (iblk2 V c 0 t) (iblk2 V c 1 t) (iblk2 V c 2 t) xs0

def at2_C (c : Dev nD) (t : Fin cfg2.N) (h0 : ¬t.val % 25 = 0) (h2 : t.val % 25 = 24) (xs0 : Vec F S32x10000 .f32) : Vec F S10000x32 .bf16 × Vec F S400x32 .bf16 × Vec F S32x10000 .f32 :=
  outs2_C c (grid2.coords t) (ms2_0 t) (hs2_0 t) (ms2_1 t) (hs2_1 t) (ms2_2 t) (hs2_2 t) (ms2_3 t) (hs2_3 t) (ms2_4 t) (hs2_4 t) scM2_0 (Memref.isWhole_whole _) (ncond2_0_of t h0) ((hcond2_1 t).mpr h0) ((hcond2_2 t).mpr h2) (iblk2 V c 0 t) (iblk2 V c 1 t) (iblk2 V c 2 t) xs0

def outsAt2 (c : Dev nD) : (n : ℕ) → n < cfg2.N → Vec F S10000x32 .bf16 × Vec F S400x32 .bf16 × Vec F S32x10000 .f32
  | 0, hn => at2_A V c ⟨0, hn⟩ (Nat.zero_mod _)
  | n + 1, hn =>
    if h0 : (n + 1) % 25 = 0 then at2_A V c ⟨n + 1, hn⟩ h0
    else if h2 : (n + 1) % 25 = 24 then at2_C V c ⟨n + 1, hn⟩ h0 h2 (outsAt2 c n (Nat.lt_of_succ_lt hn)).2.2
    else at2_B V c ⟨n + 1, hn⟩ h0 h2 (outsAt2 c n (Nat.lt_of_succ_lt hn)).2.2

theorem outsAt2_A (c : Dev nD) (t : Fin cfg2.N) (h0 : t.val % 25 = 0) :
    outsAt2 V c t.val t.isLt = at2_A V c t h0 := by
  obtain ⟨n, hn⟩ := t
  cases n with
  | zero => exact rfl
  | succ n => exact (dif_pos h0).trans rfl

theorem outsAt2_B (c : Dev nD) (t : Fin cfg2.N) (h0 : ¬t.val % 25 = 0) (h2 : ¬t.val % 25 = 24) :
    outsAt2 V c t.val t.isLt = at2_B V c t h0 h2 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

theorem outsAt2_C (c : Dev nD) (t : Fin cfg2.N) (h0 : ¬t.val % 25 = 0) (h2 : t.val % 25 = 24) :
    outsAt2 V c t.val t.isLt = at2_C V c t h0 h2 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [Dat.leavesExact_idle (dat2 V c) 3 t (idleAt2_3_A t ((hcond2_0 t).mpr h0) (ncond2_1_of t h0) (ncond2_2_of t h0)) (noFlush2_3_A t ((hcond2_0 t).mpr h0) (ncond2_1_of t h0) (ncond2_2_of t h0))]
    rw [show (dat2 V c).leavesExact 4 t = owns (c : Thread nD τ) (ms2_4 t) fullShare ((dat2 V c).after 4 t) from by
      unfold Dat.leavesExact; rw [liveAt2_4 t], after2_4]
    rw [outsAt2_A V c t h0]
    unfold at2_A outs2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (ncond2_1_of t h0) (ncond2_2_of t h0) (iblk2 V c 0 t) (iblk2 V c 1 t) (iblk2 V c 2 t)).2.2.2 _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover2_A_4 _ _ _ _ _ _ _ _ _ _ _ _ _ _ _ _ _ _ _ _)
    · exfalso; omega
  · by_cases h2 : t.val % 25 = 24
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (ncond2_0_of t h0) ((hcond2_1 t).mpr h0) ((hcond2_2 t).mpr h2)], after2_3]
      rw [show (dat2 V c).leavesExact 4 t = owns (c : Thread nD τ) (ms2_4 t) fullShare ((dat2 V c).after 4 t) from by
        unfold Dat.leavesExact; rw [liveAt2_4 t], after2_4]
      rw [outsAt2_C V c t h0 h2]
      unfold at2_C outs2_C; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (ncond2_0_of t h0) ((hcond2_1 t).mpr h0) ((hcond2_2 t).mpr h2) (iblk2 V c 0 t) (iblk2 V c 1 t) (iblk2 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_C_3 _ _ _ _ _ _ _ _ _ _ _ _ _ _ _ _ _ _ _ _ _)
        unfold owns; iexists _; isplitr
        swap; · iexact H4
        ipureintro; exact View.read_writes_of_cover _ _ _ _ _ (cover2_C_4 _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (ncond2_0_of t h0) ((hcond2_1 t).mpr h0) (fun h => h2 ((hcond2_2 t).mp h))) (noFlush2_3_B t (ncond2_0_of t h0) ((hcond2_1 t).mpr h0) (fun h => h2 ((hcond2_2 t).mp h)))]
      rw [show (dat2 V c).leavesExact 4 t = owns (c : Thread nD τ) (ms2_4 t) fullShare ((dat2 V c).after 4 t) from by
        unfold Dat.leavesExact; rw [liveAt2_4 t], after2_4]
      rw [outsAt2_B V c t h0 h2]
      unfold at2_B outs2_B; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (ncond2_0_of t h0) ((hcond2_1 t).mpr h0) (fun h => h2 ((hcond2_2 t).mp h)) (iblk2 V c 0 t) (iblk2 V c 1 t) (iblk2 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover2_B_4 _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Hand

end
-- ==== Proof.KI.Reg3Runs.lean ====
import proofs.«116956_g88691074663054_cont_9to1c4b_58_37_alg».proof.Proof.Gen.KernelIdeal.Launch
import proofs.«116956_g88691074663054_cont_9to1c4b_58_37_alg».proof.Proof.Gen.KernelIdeal.Skeleton
import proofs.«116956_g88691074663054_cont_9to1c4b_58_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := (Scalar.cmpi .ne (Scalar.extui (Scalar.cmpi .ne (BitVec.ofNat 32 (i 0).val) 0#32)) 0#32) = 1#1

theorem hcond3_1 : ∀ t : Fin cfg3.N, cond3_1 (grid3.coords t) ↔ ¬ t.val % 25 = 0 :=
  (by decide +kernel : ∀ t : Fin grid3.N, cond3_1 (grid3.coords t) ↔ ¬ t.val % 25 = 0)

abbrev cond3_2 (i : grid3.Coords) : Prop := k3_cond3 i = 1#1

theorem hcond3_2 : ∀ t : Fin cfg3.N, cond3_2 (grid3.coords t) ↔ t.val % 25 = 24 :=
  (by decide +kernel : ∀ t : Fin grid3.N, cond3_2 (grid3.coords t) ↔ t.val % 25 = 24)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
theorem liveAt3_9 : ∀ t : Fin cfg3.N, cfg3.idle 9 (grid3.coords t) = false := by decide +kernel

theorem idleAt3_10 : ∀ t : Fin cfg3.N, ¬cond3_2 (grid3.coords t) → cfg3.idle 10 (grid3.coords t) = true := by decide +kernel
theorem noFlush3_10 : ∀ t : Fin cfg3.N, ¬cond3_2 (grid3.coords t) → (cfg3.win 10).flush t = false := by decide +kernel
theorem liveAt3_10_C : ∀ t : Fin cfg3.N, cond3_2 (grid3.coords t) → cfg3.idle 10 (grid3.coords t) = false := by decide +kernel

abbrev VO3_9 : View sig .tc .vmem S400x4 .f32 := (Memref.whole cc3_stg9_0 : Memref sig .tc .vmem S400x4 .f32).view
abbrev VO3_10 : View sig .tc .vmem S10000x4 .f32 := (Memref.whole cc3_stg10_0 : Memref sig .tc .vmem S10000x4 .f32).view

abbrev ms3_0 (t : Fin cfg3.N) : Memref sig .tc .vmem S400x10000 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x32 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S400x32 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S16x4 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S16x4 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S16x4 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S16x4 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S400x4 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S10000x4 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S400x4 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S10000x4 .f32 := win3_10.stage (cfg3.slots t 10)
abbrev hs3_10 (t : Fin cfg3.N) : (ms3_10 t).IsWhole := hstage3_10 ((cfg3.slots t 10).cast nbuf3_10)

abbrev scM3_0 : Memref sig .tc .vmem S32x10000 .f32 := Memref.whole cc3_scratch0

abbrev VS3_0 : View sig .tc .vmem S32x10000 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.Reg3RunA.lean ====
import proofs.«116956_g88691074663054_cont_9to1c4b_58_37_alg».proof.Proof.KI.Reg3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun3_A (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole) (hc0 : cond3_0 i) (hc1 : ¬cond3_1 i) (hc2 : ¬cond3_2 i)
    (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) :
    Σ' (L9 : List (View.Piece (Elt F) S400x4 .f32)) (L10 : List (View.Piece (Elt F) S10000x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.KI.Reg3RunB.lean ====
import proofs.«116956_g88691074663054_cont_9to1c4b_58_37_alg».proof.Proof.KI.Reg3RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun3_B (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : ¬cond3_2 i)
    (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32) :
    Σ' (L9 : List (View.Piece (Elt F) S400x4 .f32)) (L10 : List (View.Piece (Elt F) S10000x4 .f32)), { LS0 : List (View.Piece (Elt F) S32x10000 .f32) //
      ∀ (xi10 : Vec F S10000x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, [], ?_, fun xi10 E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS0

end Cert.KernelIdeal.Hand

end
-- ==== Proof.KI.Reg3RunC.lean ====
import proofs.«116956_g88691074663054_cont_9to1c4b_58_37_alg».proof.Proof.KI.Reg3RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun3_C (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole) (hc0 : ¬cond3_0 i) (hc1 : cond3_1 i) (hc2 : cond3_2 i)
    (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32) :
    Σ' (L9 : List (View.Piece (Elt F) S400x4 .f32)) (L10 : List (View.Piece (Elt F) S10000x4 .f32)), { LS0 : List (View.Piece (Elt F) S32x10000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc3__z_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc3__z_body_eq_skeleton]; unfold cc3__z_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Hand

end
-- ==== Proof.KI.Reg3.lean ====
import proofs.«116956_g88691074663054_cont_9to1c4b_58_37_alg».proof.Proof.KI.Reg3RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcA3_0 (t : Fin cfg3.N) (h0 : t.val % 25 = 0) : cond3_0 (grid3.coords t) := (hcond3_0 t).mpr h0
theorem hcA3_1 (t : Fin cfg3.N) (h0 : t.val % 25 = 0) : ¬cond3_1 (grid3.coords t) := fun h => (hcond3_1 t).mp h h0
theorem hcA3_2 (t : Fin cfg3.N) (h0 : t.val % 25 = 0) : ¬cond3_2 (grid3.coords t) := fun h => by
  have h2 := (hcond3_2 t).mp h; omega
theorem hcB3_0 (t : Fin cfg3.N) (h0 : ¬ t.val % 25 = 0) : ¬cond3_0 (grid3.coords t) := fun h => h0 ((hcond3_0 t).mp h)
theorem hcB3_1 (t : Fin cfg3.N) (h0 : ¬ t.val % 25 = 0) : cond3_1 (grid3.coords t) := (hcond3_1 t).mpr h0
theorem hcB3_2 (t : Fin cfg3.N) (h2 : ¬ t.val % 25 = 24) : ¬cond3_2 (grid3.coords t) := fun h => h2 ((hcond3_2 t).mp h)
theorem hcC3_2 (t : Fin cfg3.N) (h2 : t.val % 25 = 24) : cond3_2 (grid3.coords t) := (hcond3_2 t).mpr h2

section
variable (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole)

section
variable (hc0 : cond3_0 i) (hc1 : ¬cond3_1 i) (hc2 : ¬cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32)

theorem cover3_A_9 (y : S400x4.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1, y ∈ pc.1.set :=
  View.cover_of_tiledL _ S400x4.size (by sl_kernel_rfl) y

theorem scover3_A_0 (y : S32x10000.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.2.1, y ∈ pc.1.set :=
  View.cover_of_tiledL _ S32x10000.size (by sl_kernel_rfl) y

def outs3_A : Vec F S400x4 .f32 × Vec F S10000x4 .f32 × Vec F S32x10000 .f32 :=
  (VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1),
   VO3_10.read (Elt F) (VO3_10.writes (Elt F) VO3_10.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.1),
   VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.2.1))
end

section
variable (hc0 : ¬cond3_0 i) (hc1 : cond3_1 i) (hc2 : ¬cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32)

theorem cover3_B_9 (y : S400x4.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL _ S400x4.size (by sl_kernel_rfl) y

theorem scover3_B_0 (y : S32x10000.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1, y ∈ pc.1.set :=
  View.cover_of_tiledL _ S32x10000.size (by sl_kernel_rfl) y

def outs3_B : Vec F S400x4 .f32 × Vec F S10000x4 .f32 × Vec F S32x10000 .f32 :=
  (VO3_9.read (Elt F) (VO3_9.writes (Elt F) VO3_9.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1),
   VO3_10.read (Elt F) (VO3_10.writes (Elt F) VO3_10.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1),
   VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1))
end

section
variable (hc0 : ¬cond3_0 i) (hc1 : cond3_1 i) (hc2 : cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32)

theorem cover3_C_9 (y : S400x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1, y ∈ pc.1.set :=
  View.cover_of_tiledL _ S400x4.size (by sl_kernel_rfl) y

theorem cover3_C_10 (y : S10000x4.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1, y ∈ pc.1.set :=
  View.cover_of_tiledL _ S10000x4.size (by sl_kernel_rfl) y

theorem scover3_C_0 (y : S32x10000.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1, y ∈ pc.1.set :=
  View.cover_of_tiledL _ S32x10000.size (by sl_kernel_rfl) y

def outs3_C : Vec F S400x4 .f32 × Vec F S10000x4 .f32 × Vec F S32x10000 .f32 :=
  (VO3_9.read (Elt F) (VO3_9.writes (Elt F) VO3_9.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1),
   VO3_10.read (Elt F) (VO3_10.writes (Elt F) VO3_10.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1),
   VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2.1))
end
end

def at3_A (c : Dev nD) (t : Fin cfg3.N) (h0 : t.val % 25 = 0) : Vec F S400x4 .f32 × Vec F S10000x4 .f32 × Vec F S32x10000 .f32 :=
  outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (hcA3_0 t h0) (hcA3_1 t h0) (hcA3_2 t h0) (iblk3 V c 0 t) (iblk3 V c 1 t) (iblk3 V c 2 t) (iblk3 V c 3 t) (iblk3 V c 4 t) (iblk3 V c 5 t) (iblk3 V c 6 t) (iblk3 V c 7 t) (iblk3 V c 8 t)

def at3_B (c : Dev nD) (t : Fin cfg3.N) (h0 : ¬ t.val % 25 = 0) (h2 : ¬ t.val % 25 = 24) (xs0 : Vec F S32x10000 .f32) : Vec F S400x4 .f32 × Vec F S10000x4 .f32 × Vec F S32x10000 .f32 :=
  outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (hcB3_0 t h0) (hcB3_1 t h0) (hcB3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) xs0

def at3_C (c : Dev nD) (t : Fin cfg3.N) (h0 : ¬ t.val % 25 = 0) (h2 : t.val % 25 = 24) (xs0 : Vec F S32x10000 .f32) : Vec F S400x4 .f32 × Vec F S10000x4 .f32 × Vec F S32x10000 .f32 :=
  outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _) (hcB3_0 t h0) (hcB3_1 t h0) (hcC3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) xs0

def outsAt3 (c : Dev nD) : (n : ℕ) → n < cfg3.N → Vec F S400x4 .f32 × Vec F S10000x4 .f32 × Vec F S32x10000 .f32
  | 0, hn => at3_A V c ⟨0, hn⟩ (Nat.zero_mod _)
  | n + 1, hn =>
    if h0 : (n + 1) % 25 = 0 then at3_A V c ⟨n + 1, hn⟩ h0
    else if h2 : (n + 1) % 25 = 24 then at3_C V c ⟨n + 1, hn⟩ h0 h2 (outsAt3 c n (Nat.lt_of_succ_lt hn)).2.2
    else at3_B V c ⟨n + 1, hn⟩ h0 h2 (outsAt3 c n (Nat.lt_of_succ_lt hn)).2.2

theorem outsAt3_A (c : Dev nD) (t : Fin cfg3.N) (h0 : t.val % 25 = 0) :
    outsAt3 V c t.val t.isLt = at3_A V c t h0 := by
  obtain ⟨n, hn⟩ := t
  cases n with
  | zero => exact rfl
  | succ n => exact (dif_pos h0).trans rfl

theorem outsAt3_B (c : Dev nD) (t : Fin cfg3.N) (h0 : ¬ t.val % 25 = 0) (h2 : ¬ t.val % 25 = 24) :
    outsAt3 V c t.val t.isLt = at3_B V c t h0 h2 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

theorem outsAt3_C (c : Dev nD) (t : Fin cfg3.N) (h0 : ¬ t.val % 25 = 0) (h2 : t.val % 25 = 24) :
    outsAt3 V c t.val t.isLt = at3_C V c t h0 h2 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => (outsAt3 V c t.val t.isLt).1
    | ⟨10, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = (outsAt3 V c t.val t.isLt).1 := by dsimp only [dat3]
theorem after3_10 (c : Dev nD) (t : Fin cfg3.N) : (dat3 V c).after 10 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  rw [show (dat3 V c).leavesExact 7 t = owns (c : Thread nD τ) (ms3_7 t) fullShare ((dat3 V c).after 7 t) from by
    unfold Dat.leavesExact; rw [liveAt3_7 t], after3_7]
  rw [show (dat3 V c).leavesExact 8 t = owns (c : Thread nD τ) (ms3_8 t) fullShare ((dat3 V c).after 8 t) from by
    unfold Dat.leavesExact; rw [liveAt3_8 t], after3_8]
  rw [show (dat3 V c).leavesExact 9 t = owns (c : Thread nD τ) (ms3_9 t) fullShare ((dat3 V c).after 9 t) from by
    unfold Dat.leavesExact; rw [liveAt3_9 t], after3_9]
  by_cases h0 : t.val % 25 = 0
  ·
    rw [Dat.leavesExact_idle (dat3 V c) 10 t (idleAt3_10 t (hcA3_2 t h0)) (noFlush3_10 t (hcA3_2 t h0))]
    rw [outsAt3_A V c t h0]
    unfold at3_A outs3_A; (try dsimp only)
    have hz : t.val = 0 := by omega
    rw [PhiS3_castSucc V c t, PhiS3_zero V c _ _ hz, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A c (grid3.coords t) _ _ _ _ _ _ _ _ _ _ _ _ _ _ _ _ _ _ _ _ _ _ _ _ (hcA3_0 t h0) (hcA3_1 t h0) (hcA3_2 t h0) (iblk3 V c 0 t) (iblk3 V c 1 t) (iblk3 V c 2 t) (iblk3 V c 3 t) (iblk3 V c 4 t) (iblk3 V c 5 t) (iblk3 V c 6 t) (iblk3 V c 7 t) (iblk3 V c 8 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS0]; · iexact HS0
    iintro ⟨H0, H1, H2, H3, H4, H5, H6, H7, H8, ⟨%e9, H9⟩, H10, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover3_A_9 c _ _ _ _ _ _ _ _ _ _ _ _ _ _ _ _ _ _ _ _ _ _ _ _ _ _ _ _ _ _ _ _ _ _ _ _ _)
    iexists _; iexact H10

  · by_cases h2 : t.val % 25 = 24
    ·
      rw [show (dat3 V c).leavesExact 10 t = owns (c : Thread nD τ) (ms3_10 t) fullShare ((dat3 V c).after 10 t) from by
        unfold Dat.leavesExact; rw [liveAt3_10_C t (hcC3_2 t h2)], after3_10]
      rw [outsAt3_C V c t h0 h2]
      unfold at3_C outs3_C; (try dsimp only)
      have hz : t.val ≠ 0 := by omega
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_C c (grid3.coords t) _ _ _ _ _ _ _ _ _ _ _ _ _ _ _ _ _ _ _ _ _ _ _ _ (hcB3_0 t h0) (hcB3_1 t h0) (hcC3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_C_9 c _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover3_C_10 c _ _ _ _ _ _ _ _ _ _ _ _ _ _ _ _ _ _ _ _ _ _ _ _ _ _ _ _ _ _ _ _ _ _ _ _ _ _)

    ·
      rw [Dat.leavesExact_idle (dat3 V c) 10 t (idleAt3_10 t (hcB3_2 t h2)) (noFlush3_10 t (hcB3_2 t h2))]
      rw [outsAt3_B V c t h0 h2]
      unfold at3_B outs3_B; (try dsimp only)
      have hz : t.val ≠ 0 := by omega
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B c (grid3.coords t) _ _ _ _ _ _ _ _ _ _ _ _ _ _ _ _ _ _ _ _ _ _ _ _ (hcB3_0 t h0) (hcB3_1 t h0) (hcB3_2 t h2) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS0]; · iexact HS0
      iintro ⟨H0, H1, H2, H3, H4, H5, H6, H7, H8, ⟨%e9, H9⟩, H10, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover3_B_9 c _ _ _ _ _ _ _ _ _ _ _ _ _ _ _ _ _ _ _ _ _ _ _ _ _ _ _ _ _ _ _ _ _ _ _ _ _ _)
      iexists _; iexact H10

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Hand

end
-- ==== Proof.KI.Reg4.lean ====
import proofs.«116956_g88691074663054_cont_9to1c4b_58_37_alg».proof.Proof.Gen.KernelIdeal.Launch
import proofs.«116956_g88691074663054_cont_9to1c4b_58_37_alg».proof.Proof.Gen.KernelIdeal.Skeleton
import proofs.«116956_g88691074663054_cont_9to1c4b_58_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S400x4 := Rect.unit (s := S400x4) ![0, 0] S400x4.size inb_S400x4_S400x4_0_0
abbrev r4_1 : Rect S10000x4 := Rect.unit (s := S10000x4) ![0, 0] S10000x4.size inb_S10000x4_S10000x4_0_0
abbrev r4_2 : Rect S400x10000 := Rect.unit (s := S400x10000) ![0, 0] S400x10000.size inb_S400x10000_S400x10000_0_0

def out4_2 (x0 : Vec F S400x4 .f32) (x1 : Vec F S10000x4 .f32) : Vec F S400x10000 .f32 :=
  View.canon [⟨r4_2, k4_pay1 (View.ld x0 r4_0) (View.ld x1 r4_1)⟩]

theorem cover4_2 (p0 : Vec F S400x10000 .f32) (y : S400x10000.Idx) :
    ∃ pc ∈ ([⟨r4_2, p0⟩] : List (View.Piece (Elt F) S400x10000 .f32)), y ∈ pc.1.set :=
  View.cover_of_tiled [⟨r4_2, p0⟩] S400x10000.size (by rfl) y

set_option maxHeartbeats 1000000 in

theorem sound_kernel4 (c : Dev nD) (E : Set ℕ) (i : grid4.Coords)
    (arg1 : Memref sig .tc .vmem S400x4 .f32) (harg1 : arg1.IsWhole) (arg2 : Memref sig .tc .vmem S10000x4 .f32) (harg2 : arg2.IsWhole)
    (arg3 : Memref sig .tc .vmem S400x10000 .f32) (harg3 : arg3.IsWhole)
    (x0 : Vec F S400x4 .f32) (x1 : Vec F S10000x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__dec_body i arg1 harg1 arg2 harg2 arg3 harg3) K := by
  simp only [cc4__dec_body_eq_skeleton]; unfold cc4__dec_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«116956_g88691074663054_cont_9to1c4b_58_37_alg».proof.Proof.KI.Reg0
import proofs.«116956_g88691074663054_cont_9to1c4b_58_37_alg».proof.Proof.KI.Reg1
import proofs.«116956_g88691074663054_cont_9to1c4b_58_37_alg».proof.Proof.KI.Reg2
import proofs.«116956_g88691074663054_cont_9to1c4b_58_37_alg».proof.Proof.KI.Reg3
import proofs.«116956_g88691074663054_cont_9to1c4b_58_37_alg».proof.Proof.KI.Reg4
import proofs.«116956_g88691074663054_cont_9to1c4b_58_37_alg».proof.Proof.Gen.KernelIdeal.Launch
import proofs.«116956_g88691074663054_cont_9to1c4b_58_37_alg».proof.Proof.Gen.KernelIdeal.Skeleton
import proofs.«116956_g88691074663054_cont_9to1c4b_58_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev Vv0 : (c : Dev nD) → (b : Ref sig .tc) → Buf (Elt F) ((c : Thread nD τ).loc b) := fun c b => W0 m ρ c b

theorem withArrays_keep {c : Dev nD} {cfg : Cfg sig Λ₀} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w)))
    (b : Ref sig .tc) (hb : ∀ w, (cfg.win w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans
      ((dat.arrAt_in w (Bool.eq_false_iff.mpr fun hh => hb w hh rfl) _).trans (hA w))
  · exact Pipeline.withArrays_of_ne _ c _ _ b fun w e => h ⟨w, e⟩

def W1 (c : Dev nD) : Valuation τ sig (Elt F) :=
  Pipeline.withArrays spec0 c (W0 m ρ c) fun w => (dat0 (Vv0 m ρ) c).arrAt w cfg0.N
theorem W1_arr (c : Dev nD) (w : Fin cfg0.W) :
    W1 m ρ c (Proc.devRef .tc (Pipeline.arrRef spec0 w)) = (dat0 (Vv0 m ρ) c).arrAt w cfg0.N :=
  Pipeline.withArrays_arr spec0 launch0.win.arr_inj c _ _ w
abbrev Vv1 : (c : Dev nD) → (b : Ref sig .tc) → Buf (Elt F) ((c : Thread nD τ).loc b) := fun c b => W1 m ρ c b
theorem W1_keep (c : Dev nD) (b : Ref sig .tc) (hb : ∀ w, (cfg0.win w).isOut = true → Pipeline.arrRef spec0 w ≠ b) :
    W1 m ρ c (Proc.devRef .tc b) = W0 m ρ c (Proc.devRef .tc b) :=
  withArrays_keep (dat0 (Vv0 m ρ) c) launch0.win.arr_inj _ (A_eq0 (Vv0 m ρ) c) b hb

def W2 (c : Dev nD) : Valuation τ sig (Elt F) :=
  Pipeline.withArrays spec1 c (W1 m ρ c) fun w => (dat1 (Vv1 m ρ) c).arrAt w cfg1.N
theorem W2_arr (c : Dev nD) (w : Fin cfg1.W) :
    W2 m ρ c (Proc.devRef .tc (Pipeline.arrRef spec1 w)) = (dat1 (Vv1 m ρ) c).arrAt w cfg1.N :=
  Pipeline.withArrays_arr spec1 launch1.win.arr_inj c _ _ w
abbrev Vv2 : (c : Dev nD) → (b : Ref sig .tc) → Buf (Elt F) ((c : Thread nD τ).loc b) := fun c b => W2 m ρ c b
theorem W2_keep (c : Dev nD) (b : Ref sig .tc) (hb : ∀ w, (cfg1.win w).isOut = true → Pipeline.arrRef spec1 w ≠ b) :
    W2 m ρ c (Proc.devRef .tc b) = W1 m ρ c (Proc.devRef .tc b) :=
  withArrays_keep (dat1 (Vv1 m ρ) c) launch1.win.arr_inj _ (A_eq1 (Vv1 m ρ) c) b hb

def W3 (c : Dev nD) : Valuation τ sig (Elt F) :=
  Pipeline.withArrays spec2 c (W2 m ρ c) fun w => (dat2 (Vv2 m ρ) c).arrAt w cfg2.N
theorem W3_arr (c : Dev nD) (w : Fin cfg2.W) :
    W3 m ρ c (Proc.devRef .tc (Pipeline.arrRef spec2 w)) = (dat2 (Vv2 m ρ) c).arrAt w cfg2.N :=
  Pipeline.withArrays_arr spec2 launch2.win.arr_inj c _ _ w
abbrev Vv3 : (c : Dev nD) → (b : Ref sig .tc) → Buf (Elt F) ((c : Thread nD τ).loc b) := fun c b => W3 m ρ c b
theorem W3_keep (c : Dev nD) (b : Ref sig .tc) (hb : ∀ w, (cfg2.win w).isOut = true → Pipeline.arrRef spec2 w ≠ b) :
    W3 m ρ c (Proc.devRef .tc b) = W2 m ρ c (Proc.devRef .tc b) :=
  withArrays_keep (dat2 (Vv2 m ρ) c) launch2.win.arr_inj _ (A_eq2 (Vv2 m ρ) c) b hb

def W4 (c : Dev nD) : Valuation τ sig (Elt F) :=
  Pipeline.withArrays spec3 c (W3 m ρ c) fun w => (dat3 (Vv3 m ρ) c).arrAt w cfg3.N
theorem W4_arr (c : Dev nD) (w : Fin cfg3.W) :
    W4 m ρ c (Proc.devRef .tc (Pipeline.arrRef spec3 w)) = (dat3 (Vv3 m ρ) c).arrAt w cfg3.N :=
  Pipeline.withArrays_arr spec3 launch3.win.arr_inj c _ _ w
abbrev Vv4 : (c : Dev nD) → (b : Ref sig .tc) → Buf (Elt F) ((c : Thread nD τ).loc b) := fun c b => W4 m ρ c b
theorem W4_keep (c : Dev nD) (b : Ref sig .tc) (hb : ∀ w, (cfg3.win w).isOut = true → Pipeline.arrRef spec3 w ≠ b) :
    W4 m ρ c (Proc.devRef .tc b) = W3 m ρ c (Proc.devRef .tc b) :=
  withArrays_keep (dat3 (Vv3 m ρ) c) launch3.win.arr_inj _ (A_eq3 (Vv3 m ρ) c) b hb

def W5 (c : Dev nD) : Valuation τ sig (Elt F) :=
  Pipeline.withArrays spec4 c (W4 m ρ c) fun w => (dat4 (Vv4 m ρ) c).arrAt w cfg4.N
theorem W5_arr (c : Dev nD) (w : Fin cfg4.W) :
    W5 m ρ c (Proc.devRef .tc (Pipeline.arrRef spec4 w)) = (dat4 (Vv4 m ρ) c).arrAt w cfg4.N :=
  Pipeline.withArrays_arr spec4 launch4.win.arr_inj c _ _ w
abbrev Vv5 : (c : Dev nD) → (b : Ref sig .tc) → Buf (Elt F) ((c : Thread nD τ).loc b) := fun c b => W5 m ρ c b
theorem W5_keep (c : Dev nD) (b : Ref sig .tc) (hb : ∀ w, (cfg4.win w).isOut = true → Pipeline.arrRef spec4 w ≠ b) :
    W5 m ρ c (Proc.devRef .tc b) = W4 m ρ c (Proc.devRef .tc b) :=
  withArrays_keep (dat4 (Vv4 m ρ) c) launch4.win.arr_inj _ (A_eq4 (Vv4 m ρ) c) b hb

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (Vv0 m ρ) c
  | ⟨1, _⟩ => fun c => dat1 (Vv1 m ρ) c
  | ⟨2, _⟩ => fun c => dat2 (Vv2 m ρ) c
  | ⟨3, _⟩ => fun c => dat3 (Vv3 m ρ) c
  | ⟨4, _⟩ => fun c => dat4 (Vv4 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev St (V : Dev nD → Valuation τ sig (Elt F)) (c : Dev nD) : sProp 𝕄 :=
  iprop(StableHlo.held (c : Thread nD τ) (Pipeline.ucRefs τ sig) (V c) ∗ R c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

abbrev exitOf (p : Fin 5) (V : Dev nD → Valuation τ sig (Elt F)) (c : Dev nD) : Valuation τ sig (Elt F) :=
  Pipeline.withArrays (cfgs p).spec c (V c) fun w => (pdats m ρ p c).arrAt w (cfgs p).N

set_option backward.isDefEq.respectTransparency.types false in

def regOf (p : Fin 5) (kit : Pipeline.LaunchFacts (nD := nD) (τ := τ) cfgs p) (V : Dev nD → Valuation τ sig (Elt F))
    (hbody : ∀ c, Pipeline.BodyObligationLoose (pdats m ρ p c) (defs₀ (F := F)) 𝒱₀ () Set.univ)
    (hq : ∀ c w, (pdats m ρ p c).q w = fullShare)
    (hA : ∀ c w, (pdats m ρ p c).A w = V c (Proc.devRef .tc (Pipeline.arrRef (cfgs p).spec w)))
    (howed : ∀ c t, (pdats m ρ p c).owed t = 0) (hrec : ∀ c t, (pdats m ρ p c).recorded t = Set.univ)
    (hΦ₀ : ∀ c, Pipeline.ΦA (cfgs p).spec c ⊢ (pdats m ρ p c).Φ 0)
    (hΦₙ : ∀ c, (pdats m ρ p c).Φ (Fin.last _) ⊢ Pipeline.ΦA (cfgs p).spec c) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre := St V
  post := St (exitOf m ρ p V)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) kit.win kit.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin c := by
    refine .trans ?_ (hΦ₀ c); unfold Pipeline.ΦA
    iintro ⟨Hp, -, Hr⟩
    isplitl [Hr]; · iexact Hr
    iexact Hp
  hout c := by
    rw [Pipeline.ownSems0_none]; refine (hΦₙ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c)) (fun b => V c b) (fun b => exitOf m ρ p V c b)
      ((pdats m ρ p c).arrAt · (cfgs p).N)
      (fun w => Eq.symm (Pipeline.withArrays_arr (cfgs p).spec kit.win.arr_inj c (V c) (fun w => (pdats m ρ p c).arrAt w (cfgs p).N) w))
      fun b hb => Pipeline.withArrays_of_ne (cfgs p).spec c (V c) _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W0 m ρ) (fun c => (body_obligation0 (Vv0 m ρ) c).loose) (fun _ _ => rfl) (A_eq0 (Vv0 m ρ))
    (fun _ _ => rfl) (fun _ _ => rfl) (fun _ => .rfl) fun _ => .rfl

set_option backward.isDefEq.respectTransparency.types false in
def reg1 : Pipeline.RegionSeg (pcfgs (F := F)) adm (pdats m ρ) () defs₀ 𝒱₀ L lv 1 :=
  regOf m ρ 1 launch1 (W1 m ρ) (fun c => (body_obligation1 (Vv1 m ρ) c).loose) (fun _ _ => rfl) (A_eq1 (Vv1 m ρ))
    (fun _ _ => rfl) (fun _ _ => rfl) (fun _ => .rfl) fun _ => .rfl

set_option backward.isDefEq.respectTransparency.types false in
def reg2 : Pipeline.RegionSeg (pcfgs (F := F)) adm (pdats m ρ) () defs₀ 𝒱₀ L lv 2 :=
  regOf m ρ 2 launch2 (W2 m ρ) (fun c => (body_obligation2 (Vv2 m ρ) c).loose) (fun _ _ => rfl) (A_eq2 (Vv2 m ρ))
    (fun _ _ => rfl) (fun _ _ => rfl) (fun _ => .rfl) (hout2 (Vv2 m ρ))

set_option backward.isDefEq.respectTransparency.types false in
def reg3 : Pipeline.RegionSeg (pcfgs (F := F)) adm (pdats m ρ) () defs₀ 𝒱₀ L lv 3 :=
  regOf m ρ 3 launch3 (W3 m ρ) (fun c => (body_obligation3 (Vv3 m ρ) c).loose) (fun _ _ => rfl) (A_eq3 (Vv3 m ρ))
    (fun _ _ => rfl) (fun _ _ => rfl) (fun _ => .rfl) (hout3 (Vv3 m ρ))

set_option backward.isDefEq.respectTransparency.types false in
def reg4 : Pipeline.RegionSeg (pcfgs (F := F)) adm (pdats m ρ) () defs₀ 𝒱₀ L lv 4 :=
  regOf m ρ 4 launch4 (W4 m ρ) (fun c => (body_obligation4 (Vv4 m ρ) c).loose) (fun _ _ => rfl) (A_eq4 (Vv4 m ρ))
    (fun _ _ => rfl) (fun _ _ => rfl) (fun _ => .rfl) fun _ => .rfl

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m ρ)) (Tₙ := Tₙ m ρ)
    (hch := ⟨fun _ => .rfl, fun _ => .rfl, fun _ => .rfl, fun _ => .rfl, fun _ => .rfl, fun c => by
      show St (W5 m ρ) c ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Ends.lean ====
import proofs.«116956_g88691074663054_cont_9to1c4b_58_37_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem args_in0 : ∀ b ∈ argRefs, ∀ w, (cfg0.win w).isOut = true → Pipeline.arrRef spec0 w ≠ b := by decide
theorem args_in1 : ∀ b ∈ argRefs, ∀ w, (cfg1.win w).isOut = true → Pipeline.arrRef spec1 w ≠ b := by decide
theorem args_in2 : ∀ b ∈ argRefs, ∀ w, (cfg2.win w).isOut = true → Pipeline.arrRef spec2 w ≠ b := by decide
theorem args_in3 : ∀ b ∈ argRefs, ∀ w, (cfg3.win w).isOut = true → Pipeline.arrRef spec3 w ≠ b := by decide
theorem args_in4 : ∀ b ∈ argRefs, ∀ w, (cfg4.win w).isOut = true → Pipeline.arrRef spec4 w ≠ b := by decide

theorem W1_arg (c : Dev nD) (b : Ref sig .tc) (hb : b ∈ argRefs) : W1 m ρ c (Proc.devRef .tc b) = m ((c : Thread nD τ).loc b) :=
  (W1_keep m ρ c b (args_in0 b hb)).trans rfl
theorem W2_arg (c : Dev nD) (b : Ref sig .tc) (hb : b ∈ argRefs) : W2 m ρ c (Proc.devRef .tc b) = m ((c : Thread nD τ).loc b) :=
  (W2_keep m ρ c b (args_in1 b hb)).trans (W1_arg m ρ c b hb)
theorem W3_arg (c : Dev nD) (b : Ref sig .tc) (hb : b ∈ argRefs) : W3 m ρ c (Proc.devRef .tc b) = m ((c : Thread nD τ).loc b) :=
  (W3_keep m ρ c b (args_in2 b hb)).trans (W2_arg m ρ c b hb)
theorem W4_arg (c : Dev nD) (b : Ref sig .tc) (hb : b ∈ argRefs) : W4 m ρ c (Proc.devRef .tc b) = m ((c : Thread nD τ).loc b) :=
  (W4_keep m ρ c b (args_in3 b hb)).trans (W3_arg m ρ c b hb)
theorem W5_arg (c : Dev nD) (b : Ref sig .tc) (hb : b ∈ argRefs) : W5 m ρ c (Proc.devRef .tc b) = m ((c : Thread nD τ).loc b) :=
  (W5_keep m ρ c b (args_in4 b hb)).trans (W4_arg m ρ c b hb)

theorem Vv2_v0 (c : Dev nD) : Vv2 m ρ c main_v0 = (dat0 (Vv0 m ρ) c).arrAt 2 cfg0.N :=
  (W2_keep m ρ c main_v0 (by decide)).trans (W1_arr m ρ c 2)
theorem Vv2_v1 (c : Dev nD) : Vv2 m ρ c main_v1 = (dat1 (Vv1 m ρ) c).arrAt 2 cfg1.N := W2_arr m ρ c 2
theorem Vv3_v2_0 (c : Dev nD) : Vv3 m ρ c main_v2_0 = (dat2 (Vv2 m ρ) c).arrAt 3 cfg2.N := W3_arr m ρ c 3
theorem Vv3_v2_1 (c : Dev nD) : Vv3 m ρ c main_v2_1 = (dat2 (Vv2 m ρ) c).arrAt 4 cfg2.N := W3_arr m ρ c 4
theorem Vv4_v3_0 (c : Dev nD) : Vv4 m ρ c main_v3_0 = (dat3 (Vv3 m ρ) c).arrAt 9 cfg3.N := W4_arr m ρ c 9
theorem Vv4_v3_1 (c : Dev nD) : Vv4 m ρ c main_v3_1 = (dat3 (Vv3 m ρ) c).arrAt 10 cfg3.N := W4_arr m ρ c 10

theorem W5_v4 (c : Dev nD) : W5 m ρ c (Proc.devRef .tc main_v4) = (dat4 (Vv4 m ρ) c).arrAt 2 cfg4.N := W5_arr m ρ c 2
theorem W5_v3_0 (c : Dev nD) : W5 m ρ c (Proc.devRef .tc main_v3_0) = (dat3 (Vv3 m ρ) c).arrAt 9 cfg3.N :=
  (W5_keep m ρ c main_v3_0 (by decide)).trans (W4_arr m ρ c 9)
theorem W5_v3_1 (c : Dev nD) : W5 m ρ c (Proc.devRef .tc main_v3_1) = (dat3 (Vv3 m ρ) c).arrAt 10 cfg3.N :=
  (W5_keep m ρ c main_v3_1 (by decide)).trans (W4_arr m ρ c 10)

theorem run_vals : θ_run defs (onTc (τ := τ) (main (F := F))) ⟨m, fun _ => 0, ρ⟩ (fun r => ∀ c : Dev nD,
      r.2.mem ((c.tc : Thread nD τ).loc main_v4) = (dat4 (Vv4 m ρ) c).arrAt 2 cfg4.N
      ∧ r.2.mem ((c.tc : Thread nD τ).loc main_v3_0) = (dat3 (Vv3 m ρ) c).arrAt 9 cfg3.N
      ∧ r.2.mem ((c.tc : Thread nD τ).loc main_v3_1) = (dat3 (Vv3 m ρ) c).arrAt 10 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v4 (by decide))).trans (W5_v4 m ρ c),
     (h c _ (mem_uc main_v3_0 (by decide))).trans (W5_v3_0 m ρ c),
     (h c _ (mem_uc main_v3_1 (by decide))).trans (W5_v3_1 m ρ c),
     (h c _ (mem_uc main_arg0 (by decide))).trans (W5_arg m ρ c main_arg0 (by decide)),
     (h c _ (mem_uc main_arg1 (by decide))).trans (W5_arg m ρ c main_arg1 (by decide)),
     (h c _ (mem_uc main_arg2 (by decide))).trans (W5_arg m ρ c main_arg2 (by decide)),
     (h c _ (mem_uc main_arg3 (by decide))).trans (W5_arg m ρ c main_arg3 (by decide)),
     (h c _ (mem_uc main_arg4 (by decide))).trans (W5_arg m ρ c main_arg4 (by decide)),
     (h c _ (mem_uc main_arg5 (by decide))).trans (W5_arg m ρ c main_arg5 (by decide)),
     (h c _ (mem_uc main_arg6 (by decide))).trans (W5_arg m ρ c main_arg6 (by decide)),
     (h c _ (mem_uc main_arg7 (by decide))).trans (W5_arg m ρ c main_arg7 (by decide)),
     (h c _ (mem_uc main_arg8 (by decide))).trans (W5_arg m ρ c main_arg8 (by decide)),
     (h c _ (mem_uc main_arg9 (by decide))).trans (W5_arg m ρ c main_arg9 (by decide)),
     (h c _ (mem_uc main_arg10 (by decide))).trans (W5_arg m ρ c main_arg10 (by decide))⟩) (run_all m ρ)

end Cert.KernelIdeal.Hand

end
-- ==== Proof.Spec.lean ====
import Mathlib.Analysis.SpecialFunctions.Exp
import Mathlib.Data.EReal.Basic
import Idealize.ShloMosaic.Lib.ValueIdx

noncomputable section

namespace Cert.Spec

open Idealize.ShloMosaic Idealize.ShloMosaic.ValueIdx

abbrev Mat (a b : ℕ) := Fin a → Fin b → ℝ

def mm {a k b : ℕ} (x : Mat a k) (y : Mat k b) : Mat a b := fun i j => ∑ l : Fin k, x i l * y l j

def mmT {a k b : ℕ} (x : Mat k a) (y : Mat k b) : Mat a b := fun i j => ∑ l : Fin k, x l i * y l j

def relu {a b : ℕ} (x : Mat a b) : Mat a b := fun i j => max (x i j) 0

def pair {a : ℕ} (x : Mat a 16) : Mat a 32 := fun i j => if h : j.val < 16 then x i ⟨j.val, h⟩ else 0

def H1 (adj : Mat 10000 10000) (xw : Mat 10000 16) : Mat 10000 16 := relu (mmT adj xw)

def H2 (adj : Mat 10000 10000) (xw : Mat 10000 16) : Mat 10000 16 := relu (mm adj xw)

def Zr1 (adj : Mat 10000 10000) (h : Mat 10000 16) (wm wl : Mat 16 4) (n : Mat 10000 4) : Mat 10000 4 :=
  fun i b => n i b * Real.exp (mm adj (mm h wl) i b) + mm adj (mm h wm) i b

def Zr2 (adj : Mat 10000 10000) (h : Mat 10000 16) (wm wl : Mat 16 4) (n : Mat 10000 4) : Mat 10000 4 :=
  fun j b => n j b * Real.exp (mmT adj (mm h wl) j b) + mmT adj (mm h wm) j b

def Ar (z1 z2 : Mat 10000 4) : Mat 10000 10000 := fun i j => (1 + Real.exp (-(∑ b : Fin 4, z1 i b * z2 j b)))⁻¹

def IsMat {a b : ℕ} (arr : (⟨2, ![a, b]⟩ : Shape).Idx → EReal) (x : Mat a b) : Prop :=
  ∀ (p : Fin a) (q : Fin b), arr (ix2 p q) = ((x p q : ℝ) : EReal)

theorem IsMat.apply {a b : ℕ} {arr : (⟨2, ![a, b]⟩ : Shape).Idx → EReal} {x : Mat a b} (h : IsMat arr x)
    (j : (⟨2, ![a, b]⟩ : Shape).Idx) : arr j = ((x (j 0) (j 1) : ℝ) : EReal) := by
  rw [eq_ix2 j]; exact h (j 0) (j 1)

theorem IsMat.ext {a b : ℕ} {arr arr' : (⟨2, ![a, b]⟩ : Shape).Idx → EReal} {x : Mat a b} (h : IsMat arr x) (h' : IsMat arr' x) :
    arr = arr' := by
  funext j; rw [h.apply j, h'.apply j]

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type} [Fintype ι] (f g : ι → ℝ) :
    (∑ i : ι, ((f i : ℝ) : EReal) * ((g i : ℝ) : EReal)) = ((∑ i : ι, f i * g i : ℝ) : EReal) := by
  rw [← coe_sum]; exact Finset.sum_congr rfl fun i _ => (EReal.coe_mul _ _).symm

end Cert.Spec

end
-- ==== Proof.KI.Val0.lean ====
import proofs.«116956_g88691074663054_cont_9to1c4b_58_37_alg».proof.Proof.KI.Reg0
import proofs.«116956_g88691074663054_cont_9to1c4b_58_37_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

theorem mmL0_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem mmL0_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem mmR0_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem mmR0_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

theorem mm0_apply (x0 : FVec Ideal S400x10000 .f32) (x1 : FVec Ideal S10000x16 .f32) (i : S400x16.Idx) :
    matmul dot_S400x10000_S10000x16_S400x16_1_0_0_1_n_n none x0 x1 (constant S400x16 .f32 0x00000000#32) i
      = ∑ k : Fin 10000, x0 (ix2 (i 0) k) * x1 (ix2 k (i 1)) := by
  simp only [matmul]
  rw [Ideal.matmul_constant_zero_apply, ← Equiv.sum_comp (ValueIdx.contrEquiv1 dot_S400x10000_S10000x16_S400x16_1_0_0_1_n_n 10000 rfl rfl).symm]
  refine Finset.sum_congr rfl fun k _ => ?_
  have hk := ValueIdx.contrEquiv1_symm_val dot_S400x10000_S10000x16_S400x16_1_0_0_1_n_n 10000 rfl rfl k
  have el : dot_S400x10000_S10000x16_S400x16_1_0_0_1_n_n.lhsIdx i ((ValueIdx.contrEquiv1 dot_S400x10000_S10000x16_S400x16_1_0_0_1_n_n 10000 rfl rfl).symm k) = ix2 (i 0) k := funext fun a => Fin.ext (by
    match a with
    | ⟨0, _⟩ => exact mmL0_0 _ _
    | ⟨1, _⟩ => exact (mmL0_1 _ _).trans hk)
  have er : dot_S400x10000_S10000x16_S400x16_1_0_0_1_n_n.rhsIdx i ((ValueIdx.contrEquiv1 dot_S400x10000_S10000x16_S400x16_1_0_0_1_n_n 10000 rfl rfl).symm k) = ix2 k (i 1) := funext fun a => Fin.ext (by
    match a with
    | ⟨0, _⟩ => exact (mmR0_0 _ _).trans hk
    | ⟨1, _⟩ => exact mmR0_1 _ _)
  exact congrArg₂ (· * ·) (congrArg x0 el) (congrArg x1 er)

theorem mm0_real (x0 : FVec Ideal S400x10000 .f32) (x1 : FVec Ideal S10000x16 .f32) (A : Mat 400 10000) (W : Mat 10000 16)
    (h0 : IsMat x0 A) (h1 : IsMat x1 W) (r : Fin 400) (q : Fin 16) :
    matmul dot_S400x10000_S10000x16_S400x16_1_0_0_1_n_n none x0 x1 (constant S400x16 .f32 0x00000000#32) (ix2 r q)
      = ((mm A W r q : ℝ) : EReal) := by
  rw [mm0_apply]
  show ∑ k : Fin 10000, x0 (ix2 r k) * x1 (ix2 k q) = _
  simp only [h0 r, h1 _ q]
  exact coe_sum_mul _ _

theorem pay0_real (x0 : Vec Ideal S400x10000 .f32) (x1 : Vec Ideal S10000x16 .f32) (A : Mat 400 10000) (W : Mat 10000 16)
    (h0 : IsMat x0 A) (h1 : IsMat x1 W) (r : Fin 400) (q : Fin 32) :
    k0_pay1 x0 x1 (ix2 r q) = ((pair (mm A W) r q : ℝ) : EReal) := by
  unfold k0_pay1
  by_cases hq : q.val < 16
  · rw [concatenate_pair_apply_left (1 : Fin S400x32.rank) _ _ concatenates_S400x16_S400x16_S400x32_d1 (ix2 r q) rfl (ix2 r ⟨q.val, hq⟩)
      (fun b => by match b with | ⟨0, _⟩ => rfl | ⟨1, _⟩ => rfl)]
    rw [truncf_apply, mm0_real x0 x1 A W h0 h1 r ⟨q.val, hq⟩]
    unfold pair; rw [dif_pos hq]
  · have hq' : q.val - 16 < 16 := by have := q.isLt; omega
    rw [concatenate_pair_apply_right (1 : Fin S400x32.rank) _ _ concatenates_S400x16_S400x16_S400x32_d1 (ix2 r q) rfl rfl (ix2 r ⟨q.val - 16, hq'⟩)
      (fun b hb => by match b with | ⟨0, _⟩ => rfl | ⟨1, _⟩ => exact absurd rfl hb)
      (by show (q.val - 16) + 16 = q.val; omega)]
    rw [truncf_apply, subf_apply, mm0_real x0 x1 A W h0 h1 r ⟨q.val - 16, hq'⟩, ← EReal.coe_sub, sub_self]
    unfold pair; rw [dif_neg hq]

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

abbrev G0 (X : Mat 10000 10000) (W : Mat 10000 16) : S10000x32.Idx → Elt Ideal .bf16 :=
  fun i => ((pair (mm X W) (i 0) (i 1) : ℝ) : EReal)

theorem blk0_0 (c : Dev nD) (t : Fin cfg0.N) (y : S400x10000.Idx) (i : S10000x10000.Idx)
    (hi0 : (i 0).val = 400 * t.val + (y 0).val) (hi1 : (i 1).val = (y 1).val) :
    (iblk0 V c 0 t : Vec Ideal S400x10000 .f32) y = (V c main_arg0 : S10000x10000.Idx → Elt Ideal .f32) i := by
  obtain ⟨e0, e1, -⟩ := idx_facts0 t
  unfold iblk0
  rw [View.read_apply]
  show V c main_arg0 _ = V c main_arg0 _
  congr 1
  funext a; apply Fin.ext
  match a with
  | ⟨0, _⟩ => show win0_0.index t 0 * 400 + 1 * (y 0).val = (i 0).val; rw [e0, hi0]; omega
  | ⟨1, _⟩ => show win0_0.index t 1 * 10000 + 1 * (y 1).val = (i 1).val; rw [e1, hi1]; omega

theorem blk0_1 (c : Dev nD) (t : Fin cfg0.N) (y : S10000x16.Idx) :
    (iblk0 V c 1 t : Vec Ideal S10000x16 .f32) y = (V c main_arg3 : S10000x16.Idx → Elt Ideal .f32) y := by
  obtain ⟨-, -, e2, e3, -⟩ := idx_facts0 t
  unfold iblk0
  rw [View.read_apply]
  show V c main_arg3 _ = V c main_arg3 _
  congr 1
  funext a; apply Fin.ext
  match a with
  | ⟨0, _⟩ => show win0_1.index t 0 * 10000 + 1 * (y 0).val = (y 0).val; rw [e2]; omega
  | ⟨1, _⟩ => show win0_1.index t 1 * 16 + 1 * (y 1).val = (y 1).val; rw [e3]; omega

theorem pay0_blk (x0 : Vec Ideal S400x10000 .f32) (x1 : Vec Ideal S10000x16 .f32) (X : Mat 10000 10000) (W : Mat 10000 16)
    (n : ℕ) (hn : n < 25)
    (h0 : ∀ (r : Fin 400) (k : Fin 10000), x0 (ix2 r k) = ((X ⟨400 * n + r.val, by have := r.isLt; omega⟩ k : ℝ) : EReal))
    (h1 : IsMat x1 W) (r : Fin 400) (q : Fin 32) (i : S10000x32.Idx)
    (hi0 : (i 0).val = 400 * n + r.val) (hi1 : (i 1).val = q.val) :
    k0_pay1 x0 x1 (ix2 r q) = G0 X W i := by
  rw [pay0_real x0 x1 (fun r k => X ⟨400 * n + r.val, by have := r.isLt; omega⟩ k) W h0 h1 r q]
  have e0 : (⟨400 * n + r.val, by have := r.isLt; omega⟩ : Fin 10000) = i 0 := Fin.ext hi0.symm
  have e1 : q = i 1 := Fin.ext hi1.symm
  exact congrArg₂ (fun (a : Fin 10000) (b : Fin 32) => ((pair (mm X W) a b : ℝ) : EReal)) e0 e1

theorem flushed0_eq (c : Dev nD) (X : Mat 10000 10000) (W : Mat 10000 16) (hX : IsMat (V c main_arg0) X) (hW : IsMat (V c main_arg3) W)
    (t : Fin cfg0.N) :
    (dat0 V c).flushed 2 t = ((cfg0.win 2).blk t).view.read (Elt Ideal) (G0 X W) := by
  show (cfg0.win 2).cut (grid0.coords t) ((dat0 V c).after 2 t) = _
  rw [after0_2]
  unfold out0_2
  rw [View.canon_unit_zero hz0]
  simp only [View.ld_unit_zero (S := S400x10000) hz0, View.ld_unit_zero (S := S10000x16) hz0]
  obtain ⟨-, -, -, -, e4, e5⟩ := idx_facts0 t
  have ht : t.val < 25 := t.isLt
  funext j
  have hj0 : (j 0).val < 400 := (j 0).isLt
  have hj1 : (j 1).val < 32 := (j 1).isLt
  rw [View.read_apply]
  show k0_pay1 (iblk0 V c 0 t) (iblk0 V c 1 t) ((cfg0.win 2).xinj (grid0.coords t) j) = G0 X W (((cfg0.win 2).blk t).view.emb j)
  refine (congrArg (k0_pay1 (iblk0 V c 0 t) (iblk0 V c 1 t)) (eq_ix2 (n0 := 400) (n1 := 32) ((cfg0.win 2).xinj (grid0.coords t) j))).trans ?_
  refine pay0_blk (iblk0 V c 0 t) (iblk0 V c 1 t) X W t.val ht (fun r k => ?_) (fun p q => ?_) _ _ _ ?_ ?_
  · rw [blk0_0 V c t (ix2 r k) (ix2 ⟨400 * t.val + r.val, by have := r.isLt; omega⟩ k) rfl rfl]; exact hX _ k
  · rw [blk0_1 V c t (ix2 p q)]; exact hW p q
  · show win0_2.index t 0 * 400 + 1 * (j 0).val = 400 * t.val + (j 0).val; rw [e4]; omega
  · show win0_2.index t 1 * 32 + 1 * (j 1).val = (j 1).val; rw [e5]; omega

theorem mem_blk0 (t : Fin cfg0.N) (i : S10000x32.Idx) :
    i ∈ ((cfg0.win 2).blk t).view.set ↔ ∀ a : Fin 2, win0_2.index t a * S400x32.size a ≤ (i a).val ∧ (i a).val < win0_2.index t a * S400x32.size a + S400x32.size a := by
  show i ∈ ((View.whole main_v0).slice (win0_2.rect t)).set ↔ _
  rw [View.set_slice_whole, Rect.mem_set_unit]
  exact Iff.rfl

theorem cover0 (i : S10000x32.Idx) : ∃ t : Fin cfg0.N, (cfg0.win 2).flush t = true ∧ i ∈ ((cfg0.win 2).blk t).view.set := by
  have hi0 : (i 0).val < 10000 := (i 0).isLt
  have hi1 : (i 1).val < 32 := (i 1).isLt
  refine ⟨⟨(i 0).val / 400, by show (i 0).val / 400 < 25; omega⟩, flush0_2 _, ?_⟩
  rw [mem_blk0]
  obtain ⟨-, -, -, -, e4, e5⟩ := idx_facts0 ⟨(i 0).val / 400, by show (i 0).val / 400 < 25; omega⟩
  intro a
  match a with
  | ⟨0, _⟩ => show win0_2.index _ (0 : Fin 2) * 400 ≤ (i 0).val ∧ (i 0).val < win0_2.index _ (0 : Fin 2) * 400 + 400; rw [e4]; show (i 0).val / 400 * 400 ≤ _ ∧ _ < (i 0).val / 400 * 400 + 400; omega
  | ⟨1, _⟩ => show win0_2.index _ (1 : Fin 2) * 32 ≤ (i 1).val ∧ (i 1).val < win0_2.index _ (1 : Fin 2) * 32 + 32; rw [e5]; omega

/-- The array holds the pair (X · W, 0): a value kept beside its difference with itself, which over the reals is zero. -/
theorem val0 (c : Dev nD) (X : Mat 10000 10000) (W : Mat 10000 16) (hX : IsMat (V c main_arg0) X) (hW : IsMat (V c main_arg3) W) :
    IsMat ((dat0 V c).arrAt 2 cfg0.N) (pair (mm X W)) := by
  have e : (dat0 V c).arrAt 2 cfg0.N = G0 X W :=
    (dat0 V c).arrAt_eq_of_cover 2 (G0 X W) (fun t _ => flushed0_eq V c X W hX hW t) cover0
  intro p q
  rw [e]

end Cert.KernelIdeal.Hand

end
-- ==== Proof.KI.Val1.lean ====
import proofs.«116956_g88691074663054_cont_9to1c4b_58_37_alg».proof.Proof.KI.Reg1
import proofs.«116956_g88691074663054_cont_9to1c4b_58_37_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

theorem mmL1_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem mmL1_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem mmR1_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem mmR1_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

theorem mm1_apply (x0 : FVec Ideal S400x10000 .f32) (x1 : FVec Ideal S10000x16 .f32) (i : S400x16.Idx) :
    matmul dot_S400x10000_S10000x16_S400x16_1_0_0_1_n_n none x0 x1 (constant S400x16 .f32 0x00000000#32) i
      = ∑ k : Fin 10000, x0 (ix2 (i 0) k) * x1 (ix2 k (i 1)) := by
  simp only [matmul]
  rw [Ideal.matmul_constant_zero_apply, ← Equiv.sum_comp (ValueIdx.contrEquiv1 dot_S400x10000_S10000x16_S400x16_1_0_0_1_n_n 10000 rfl rfl).symm]
  refine Finset.sum_congr rfl fun k _ => ?_
  have hk := ValueIdx.contrEquiv1_symm_val dot_S400x10000_S10000x16_S400x16_1_0_0_1_n_n 10000 rfl rfl k
  have el : dot_S400x10000_S10000x16_S400x16_1_0_0_1_n_n.lhsIdx i ((ValueIdx.contrEquiv1 dot_S400x10000_S10000x16_S400x16_1_0_0_1_n_n 10000 rfl rfl).symm k) = ix2 (i 0) k := funext fun a => Fin.ext (by
    match a with
    | ⟨0, _⟩ => exact mmL1_0 _ _
    | ⟨1, _⟩ => exact (mmL1_1 _ _).trans hk)
  have er : dot_S400x10000_S10000x16_S400x16_1_0_0_1_n_n.rhsIdx i ((ValueIdx.contrEquiv1 dot_S400x10000_S10000x16_S400x16_1_0_0_1_n_n 10000 rfl rfl).symm k) = ix2 k (i 1) := funext fun a => Fin.ext (by
    match a with
    | ⟨0, _⟩ => exact (mmR1_0 _ _).trans hk
    | ⟨1, _⟩ => exact mmR1_1 _ _)
  exact congrArg₂ (· * ·) (congrArg x0 el) (congrArg x1 er)

theorem mm1_real (x0 : FVec Ideal S400x10000 .f32) (x1 : FVec Ideal S10000x16 .f32) (A : Mat 400 10000) (W : Mat 10000 16)
    (h0 : IsMat x0 A) (h1 : IsMat x1 W) (r : Fin 400) (q : Fin 16) :
    matmul dot_S400x10000_S10000x16_S400x16_1_0_0_1_n_n none x0 x1 (constant S400x16 .f32 0x00000000#32) (ix2 r q)
      = ((mm A W r q : ℝ) : EReal) := by
  rw [mm1_apply]
  show ∑ k : Fin 10000, x0 (ix2 r k) * x1 (ix2 k q) = _
  simp only [h0 r, h1 _ q]
  exact coe_sum_mul _ _

theorem pay1_real (x0 : Vec Ideal S400x10000 .f32) (x1 : Vec Ideal S10000x16 .f32) (A : Mat 400 10000) (W : Mat 10000 16)
    (h0 : IsMat x0 A) (h1 : IsMat x1 W) (r : Fin 400) (q : Fin 32) :
    k1_pay1 x0 x1 (ix2 r q) = ((pair (mm A W) r q : ℝ) : EReal) := by
  unfold k1_pay1
  by_cases hq : q.val < 16
  · rw [concatenate_pair_apply_left (1 : Fin S400x32.rank) _ _ concatenates_S400x16_S400x16_S400x32_d1 (ix2 r q) rfl (ix2 r ⟨q.val, hq⟩)
      (fun b => by match b with | ⟨0, _⟩ => rfl | ⟨1, _⟩ => rfl)]
    rw [truncf_apply, mm1_real x0 x1 A W h0 h1 r ⟨q.val, hq⟩]
    unfold pair; rw [dif_pos hq]
  · have hq' : q.val - 16 < 16 := by have := q.isLt; omega
    rw [concatenate_pair_apply_right (1 : Fin S400x32.rank) _ _ concatenates_S400x16_S400x16_S400x32_d1 (ix2 r q) rfl rfl (ix2 r ⟨q.val - 16, hq'⟩)
      (fun b hb => by match b with | ⟨0, _⟩ => rfl | ⟨1, _⟩ => exact absurd rfl hb)
      (by show (q.val - 16) + 16 = q.val; omega)]
    rw [truncf_apply, subf_apply, mm1_real x0 x1 A W h0 h1 r ⟨q.val - 16, hq'⟩, ← EReal.coe_sub, sub_self]
    unfold pair; rw [dif_neg hq]

variable (V : (c : Dev nD) → (b : Ref sig .tc) → Buf (Elt Ideal) ((c : Thread nD τ).loc b))

theorem hz1 : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

abbrev G1 (X : Mat 10000 10000) (W : Mat 10000 16) : S10000x32.Idx → Elt Ideal .bf16 :=
  fun i => ((pair (mm X W) (i 0) (i 1) : ℝ) : EReal)

theorem blk1_0 (c : Dev nD) (t : Fin cfg1.N) (y : S400x10000.Idx) (i : S10000x10000.Idx)
    (hi0 : (i 0).val = 400 * t.val + (y 0).val) (hi1 : (i 1).val = (y 1).val) :
    (iblk1 V c 0 t : Vec Ideal S400x10000 .f32) y = (V c main_arg1 : S10000x10000.Idx → Elt Ideal .f32) i := by
  obtain ⟨e0, e1, -⟩ := idx_facts1 t
  unfold iblk1
  rw [View.read_apply]
  show V c main_arg1 _ = V c main_arg1 _
  congr 1
  funext a; apply Fin.ext
  match a with
  | ⟨0, _⟩ => show win1_0.index t 0 * 400 + 1 * (y 0).val = (i 0).val; rw [e0, hi0]; omega
  | ⟨1, _⟩ => show win1_0.index t 1 * 10000 + 1 * (y 1).val = (i 1).val; rw [e1, hi1]; omega

theorem blk1_1 (c : Dev nD) (t : Fin cfg1.N) (y : S10000x16.Idx) :
    (iblk1 V c 1 t : Vec Ideal S10000x16 .f32) y = (V c main_arg6 : S10000x16.Idx → Elt Ideal .f32) y := by
  obtain ⟨-, -, e2, e3, -⟩ := idx_facts1 t
  unfold iblk1
  rw [View.read_apply]
  show V c main_arg6 _ = V c main_arg6 _
  congr 1
  funext a; apply Fin.ext
  match a with
  | ⟨0, _⟩ => show win1_1.index t 0 * 10000 + 1 * (y 0).val = (y 0).val; rw [e2]; omega
  | ⟨1, _⟩ => show win1_1.index t 1 * 16 + 1 * (y 1).val = (y 1).val; rw [e3]; omega

theorem pay1_blk (x0 : Vec Ideal S400x10000 .f32) (x1 : Vec Ideal S10000x16 .f32) (X : Mat 10000 10000) (W : Mat 10000 16)
    (n : ℕ) (hn : n < 25)
    (h0 : ∀ (r : Fin 400) (k : Fin 10000), x0 (ix2 r k) = ((X ⟨400 * n + r.val, by have := r.isLt; omega⟩ k : ℝ) : EReal))
    (h1 : IsMat x1 W) (r : Fin 400) (q : Fin 32) (i : S10000x32.Idx)
    (hi0 : (i 0).val = 400 * n + r.val) (hi1 : (i 1).val = q.val) :
    k1_pay1 x0 x1 (ix2 r q) = G1 X W i := by
  rw [pay1_real x0 x1 (fun r k => X ⟨400 * n + r.val, by have := r.isLt; omega⟩ k) W h0 h1 r q]
  have e0 : (⟨400 * n + r.val, by have := r.isLt; omega⟩ : Fin 10000) = i 0 := Fin.ext hi0.symm
  have e1 : q = i 1 := Fin.ext hi1.symm
  exact congrArg₂ (fun (a : Fin 10000) (b : Fin 32) => ((pair (mm X W) a b : ℝ) : EReal)) e0 e1

theorem flushed1_eq (c : Dev nD) (X : Mat 10000 10000) (W : Mat 10000 16) (hX : IsMat (V c main_arg1) X) (hW : IsMat (V c main_arg6) W)
    (t : Fin cfg1.N) :
    (dat1 V c).flushed 2 t = ((cfg1.win 2).blk t).view.read (Elt Ideal) (G1 X W) := by
  show (cfg1.win 2).cut (grid1.coords t) ((dat1 V c).after 2 t) = _
  rw [after1_2]
  unfold out1_2
  rw [View.canon_unit_zero hz1]
  simp only [View.ld_unit_zero (S := S400x10000) hz1, View.ld_unit_zero (S := S10000x16) hz1]
  obtain ⟨-, -, -, -, e4, e5⟩ := idx_facts1 t
  have ht : t.val < 25 := t.isLt
  funext j
  have hj0 : (j 0).val < 400 := (j 0).isLt
  have hj1 : (j 1).val < 32 := (j 1).isLt
  rw [View.read_apply]
  show k1_pay1 (iblk1 V c 0 t) (iblk1 V c 1 t) ((cfg1.win 2).xinj (grid1.coords t) j) = G1 X W (((cfg1.win 2).blk t).view.emb j)
  refine (congrArg (k1_pay1 (iblk1 V c 0 t) (iblk1 V c 1 t)) (eq_ix2 (n0 := 400) (n1 := 32) ((cfg1.win 2).xinj (grid1.coords t) j))).trans ?_
  refine pay1_blk (iblk1 V c 0 t) (iblk1 V c 1 t) X W t.val ht (fun r k => ?_) (fun p q => ?_) _ _ _ ?_ ?_
  · rw [blk1_0 V c t (ix2 r k) (ix2 ⟨400 * t.val + r.val, by have := r.isLt; omega⟩ k) rfl rfl]; exact hX _ k
  · rw [blk1_1 V c t (ix2 p q)]; exact hW p q
  · show win1_2.index t 0 * 400 + 1 * (j 0).val = 400 * t.val + (j 0).val; rw [e4]; omega
  · show win1_2.index t 1 * 32 + 1 * (j 1).val = (j 1).val; rw [e5]; omega

theorem mem_blk1 (t : Fin cfg1.N) (i : S10000x32.Idx) :
    i ∈ ((cfg1.win 2).blk t).view.set ↔ ∀ a : Fin 2, win1_2.index t a * S400x32.size a ≤ (i a).val ∧ (i a).val < win1_2.index t a * S400x32.size a + S400x32.size a := by
  show i ∈ ((View.whole main_v1).slice (win1_2.rect t)).set ↔ _
  rw [View.set_slice_whole, Rect.mem_set_unit]
  exact Iff.rfl

theorem cover1 (i : S10000x32.Idx) : ∃ t : Fin cfg1.N, (cfg1.win 2).flush t = true ∧ i ∈ ((cfg1.win 2).blk t).view.set := by
  have hi0 : (i 0).val < 10000 := (i 0).isLt
  have hi1 : (i 1).val < 32 := (i 1).isLt
  refine ⟨⟨(i 0).val / 400, by show (i 0).val / 400 < 25; omega⟩, flush1_2 _, ?_⟩
  rw [mem_blk1]
  obtain ⟨-, -, -, -, e4, e5⟩ := idx_facts1 ⟨(i 0).val / 400, by show (i 0).val / 400 < 25; omega⟩
  intro a
  match a with
  | ⟨0, _⟩ => show win1_2.index _ (0 : Fin 2) * 400 ≤ (i 0).val ∧ (i 0).val < win1_2.index _ (0 : Fin 2) * 400 + 400; rw [e4]; show (i 0).val / 400 * 400 ≤ _ ∧ _ < (i 0).val / 400 * 400 + 400; omega
  | ⟨1, _⟩ => show win1_2.index _ (1 : Fin 2) * 32 ≤ (i 1).val ∧ (i 1).val < win1_2.index _ (1 : Fin 2) * 32 + 32; rw [e5]; omega

/-- The array holds the pair (X · W, 0): a value kept beside its difference with itself, which over the reals is zero. -/
theorem val1 (c : Dev nD) (X : Mat 10000 10000) (W : Mat 10000 16) (hX : IsMat (V c main_arg1) X) (hW : IsMat (V c main_arg6) W) :
    IsMat ((dat1 V c).arrAt 2 cfg1.N) (pair (mm X W)) := by
  have e : (dat1 V c).arrAt 2 cfg1.N = G1 X W :=
    (dat1 V c).arrAt_eq_of_cover 2 (G1 X W) (fun t _ => flushed1_eq V c X W hX hW t) cover1
  intro p q
  rw [e]

end Cert.KernelIdeal.Hand

end
-- ==== Proof.KI.Val2Pieces.lean ====
import proofs.«116956_g88691074663054_cont_9to1c4b_58_37_alg».proof.Proof.KI.Reg2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]

theorem hz2 : (![0, 0] : Fin 2 → Nat) = fun _ => 0 := funext fun a => by fin_cases a <;> rfl

section
variable (c : Dev nD) (i : grid2.Coords) (arg1 : Memref sig .tc .vmem S400x10000 .f32) (harg1 : arg1.IsWhole) (arg2 : Memref sig .tc .vmem S400x32 .bf16) (harg2 : arg2.IsWhole) (arg3 : Memref sig .tc .vmem S10000x32 .bf16) (harg3 : arg3.IsWhole) (arg4 : Memref sig .tc .vmem S10000x32 .bf16) (harg4 : arg4.IsWhole) (arg5 : Memref sig .tc .vmem S400x32 .bf16) (harg5 : arg5.IsWhole) (arg6 : Memref sig .tc .vmem S32x10000 .f32) (harg6 : arg6.IsWhole)

section
variable (hc0 : cond2_0 i) (hc1 : ¬cond2_1 i) (hc2 : ¬cond2_2 i) (x0 : Vec F S400x10000 .f32) (x1 : Vec F S400x32 .bf16) (x2 : Vec F S10000x32 .bf16)

theorem out2_A_4_eq :
    (outs2_A c i arg1 harg1 arg2 harg2 arg3 harg3 arg4 harg4 arg5 harg5 arg6 harg6 hc0 hc1 hc2 x0 x1 x2).2.1 = k2_pay2 x0 x2 := by
  unfold outs2_A; dsimp only
  rw [View.read_writes_eq_canon _ _ _ (cover2_A_4 c i arg1 harg1 arg2 harg2 arg3 harg3 arg4 harg4 arg5 harg5 arg6 harg6 hc0 hc1 hc2 x0 x1 x2)]
  unfold kernelRun2_A
  dsimp only
  sl_unfold_words
  rw [View.canon_unit_zero hz2]
  simp only [View.readAt_eq_ld, harg1.read_unread, harg2.read_unread, harg3.read_unread, harg6.read_unread, View.ld_unit_zero (S := S400x10000) hz2, View.ld_unit_zero (S := S400x32) hz2, View.ld_unit_zero (S := S10000x32) hz2, View.ld_unit_zero (S := S32x10000) hz2, View.readCov_unit_zero (S := S32x10000) _ hz2]

theorem sout2_A_0_eq :
    (outs2_A c i arg1 harg1 arg2 harg2 arg3 harg3 arg4 harg4 arg5 harg5 arg6 harg6 hc0 hc1 hc2 x0 x1 x2).2.2 = k2_pay4 x0 x1 := by
  unfold outs2_A; dsimp only
  rw [View.read_writes_eq_canon _ _ _ (scover2_A_0 c i arg1 harg1 arg2 harg2 arg3 harg3 arg4 harg4 arg5 harg5 arg6 harg6 hc0 hc1 hc2 x0 x1 x2)]
  unfold kernelRun2_A
  dsimp only
  sl_unfold_words
  rw [View.canon_unit_zero hz2]
  simp only [View.readAt_eq_ld, harg1.read_unread, harg2.read_unread, harg3.read_unread, harg6.read_unread, View.ld_unit_zero (S := S400x10000) hz2, View.ld_unit_zero (S := S400x32) hz2, View.ld_unit_zero (S := S10000x32) hz2, View.ld_unit_zero (S := S32x10000) hz2, View.readCov_unit_zero (S := S32x10000) _ hz2]
end

section
variable (hc0 : ¬cond2_0 i) (hc1 : cond2_1 i) (hc2 : ¬cond2_2 i) (x0 : Vec F S400x10000 .f32) (x1 : Vec F S400x32 .bf16) (x2 : Vec F S10000x32 .bf16) (xs0 : Vec F S32x10000 .f32)

theorem out2_B_4_eq :
    (outs2_B c i arg1 harg1 arg2 harg2 arg3 harg3 arg4 harg4 arg5 harg5 arg6 harg6 hc0 hc1 hc2 x0 x1 x2 xs0).2.1 = k2_pay2 x0 x2 := by
  unfold outs2_B; dsimp only
  rw [View.read_writes_eq_canon _ _ _ (cover2_B_4 c i arg1 harg1 arg2 harg2 arg3 harg3 arg4 harg4 arg5 harg5 arg6 harg6 hc0 hc1 hc2 x0 x1 x2 xs0)]
  unfold kernelRun2_B
  dsimp only
  sl_unfold_words
  rw [View.canon_unit_zero hz2]
  simp only [View.readAt_eq_ld, harg1.read_unread, harg2.read_unread, harg3.read_unread, harg6.read_unread, View.ld_unit_zero (S := S400x10000) hz2, View.ld_unit_zero (S := S400x32) hz2, View.ld_unit_zero (S := S10000x32) hz2, View.ld_unit_zero (S := S32x10000) hz2, View.readCov_unit_zero (S := S32x10000) _ hz2]

theorem sout2_B_0_eq :
    (outs2_B c i arg1 harg1 arg2 harg2 arg3 harg3 arg4 harg4 arg5 harg5 arg6 harg6 hc0 hc1 hc2 x0 x1 x2 xs0).2.2 = k2_pay5 x0 x1 xs0 := by
  unfold outs2_B; dsimp only
  rw [View.read_writes_eq_canon _ _ _ (scover2_B_0 c i arg1 harg1 arg2 harg2 arg3 harg3 arg4 harg4 arg5 harg5 arg6 harg6 hc0 hc1 hc2 x0 x1 x2 xs0)]
  unfold kernelRun2_B
  dsimp only
  sl_unfold_words
  rw [View.canon_unit_zero hz2]
  simp only [View.readAt_eq_ld, harg1.read_unread, harg2.read_unread, harg3.read_unread, harg6.read_unread, View.ld_unit_zero (S := S400x10000) hz2, View.ld_unit_zero (S := S400x32) hz2, View.ld_unit_zero (S := S10000x32) hz2, View.ld_unit_zero (S := S32x10000) hz2, View.readCov_unit_zero (S := S32x10000) _ hz2]
end

section
variable (hc0 : ¬cond2_0 i) (hc1 : cond2_1 i) (hc2 : cond2_2 i) (x0 : Vec F S400x10000 .f32) (x1 : Vec F S400x32 .bf16) (x2 : Vec F S10000x32 .bf16) (xs0 : Vec F S32x10000 .f32)

theorem out2_C_4_eq :
    (outs2_C c i arg1 harg1 arg2 harg2 arg3 harg3 arg4 harg4 arg5 harg5 arg6 harg6 hc0 hc1 hc2 x0 x1 x2 xs0).2.1 = k2_pay2 x0 x2 := by
  unfold outs2_C; dsimp only
  rw [View.read_writes_eq_canon _ _ _ (cover2_C_4 c i arg1 harg1 arg2 harg2 arg3 harg3 arg4 harg4 arg5 harg5 arg6 harg6 hc0 hc1 hc2 x0 x1 x2 xs0)]
  unfold kernelRun2_C
  dsimp only
  sl_unfold_words
  rw [View.canon_unit_zero hz2]
  simp only [View.readAt_eq_ld, harg1.read_unread, harg2.read_unread, harg3.read_unread, harg6.read_unread, View.ld_unit_zero (S := S400x10000) hz2, View.ld_unit_zero (S := S400x32) hz2, View.ld_unit_zero (S := S10000x32) hz2, View.ld_unit_zero (S := S32x10000) hz2, View.readCov_unit_zero (S := S32x10000) _ hz2]

theorem sout2_C_0_eq :
    (outs2_C c i arg1 harg1 arg2 harg2 arg3 harg3 arg4 harg4 arg5 harg5 arg6 harg6 hc0 hc1 hc2 x0 x1 x2 xs0).2.2 = k2_pay5 x0 x1 xs0 := by
  unfold outs2_C; dsimp only
  rw [View.read_writes_eq_canon _ _ _ (scover2_C_0 c i arg1 harg1 arg2 harg2 arg3 harg3 arg4 harg4 arg5 harg5 arg6 harg6 hc0 hc1 hc2 x0 x1 x2 xs0)]
  unfold kernelRun2_C
  dsimp only
  sl_unfold_words
  rw [View.canon_unit_zero hz2]
  simp only [View.readAt_eq_ld, harg1.read_unread, harg2.read_unread, harg3.read_unread, harg6.read_unread, View.ld_unit_zero (S := S400x10000) hz2, View.ld_unit_zero (S := S400x32) hz2, View.ld_unit_zero (S := S10000x32) hz2, View.ld_unit_zero (S := S32x10000) hz2, View.readCov_unit_zero (S := S32x10000) _ hz2]

theorem out2_C_3_eq :
    (outs2_C c i arg1 harg1 arg2 harg2 arg3 harg3 arg4 harg4 arg5 harg5 arg6 harg6 hc0 hc1 hc2 x0 x1 x2 xs0).1 = k2_pay6 (k2_pay5 x0 x1 xs0) := by
  unfold outs2_C; dsimp only
  rw [View.read_writes_eq_canon _ _ _ (cover2_C_3 c i arg1 harg1 arg2 harg2 arg3 harg3 arg4 harg4 arg5 harg5 arg6 harg6 hc0 hc1 hc2 x0 x1 x2 xs0)]
  unfold kernelRun2_C
  dsimp only
  sl_unfold_words
  rw [View.canon_unit_zero hz2]
  simp only [View.readAt_eq_ld, harg1.read_unread, harg2.read_unread, harg3.read_unread, harg6.read_unread, View.ld_unit_zero (S := S400x10000) hz2, View.ld_unit_zero (S := S400x32) hz2, View.ld_unit_zero (S := S10000x32) hz2, View.ld_unit_zero (S := S32x10000) hz2, View.readCov_unit_zero (S := S32x10000) _ hz2]
end
end

end Cert.KernelIdeal.Hand

end
-- ==== Proof.KI.Pay2.lean ====
import proofs.«116956_g88691074663054_cont_9to1c4b_58_37_alg».proof.Proof.Gen.KernelIdeal.Skeleton
import proofs.«116956_g88691074663054_cont_9to1c4b_58_37_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec

abbrev lo2 (q : Fin 16) : Fin 32 := ⟨q.val, by have := q.isLt; omega⟩
abbrev hi2 (q : Fin 16) : Fin 32 := ⟨16 + q.val, by have := q.isLt; omega⟩

theorem pair_lo2 {a : ℕ} (x : Mat a 16) (i : Fin a) (q : Fin 16) : pair x i (lo2 q) = x i q := by
  show (if h : q.val < 16 then x i ⟨q.val, h⟩ else 0) = x i q
  rw [dif_pos q.isLt]

theorem pair_hi2 {a : ℕ} (x : Mat a 16) (i : Fin a) (q : Fin 16) : pair x i (hi2 q) = 0 := by
  show (if h : 16 + q.val < 16 then x i ⟨16 + q.val, h⟩ else 0) = 0
  rw [dif_neg (by omega)]

theorem mm_pair_halves2 {a k : ℕ} (T : Mat a k) (Y : Mat k 16) (r : Fin a) (q : Fin 16) :
    mm T (pair Y) r (lo2 q) + mm T (pair Y) r (hi2 q) = mm T Y r q := by
  unfold mm
  simp only [pair_lo2, pair_hi2, mul_zero, Finset.sum_const_zero, add_zero]

theorem mmT_pair_halves2 {k b : ℕ} (Y : Mat k 16) (A : Mat k b) (q : Fin 16) (j : Fin b) :
    mmT (pair Y) A (lo2 q) j + mmT (pair Y) A (hi2 q) j = mmT A Y j q := by
  unfold mmT
  simp only [pair_lo2, pair_hi2, zero_mul, Finset.sum_const_zero, add_zero]
  exact Finset.sum_congr rfl fun l _ => mul_comm _ _

theorem coe_max2 (x y : ℝ) : max ((x : ℝ) : EReal) ((y : ℝ) : EReal) = ((max x y : ℝ) : EReal) :=
  (EReal.coe_strictMono.monotone.map_max).symm

theorem pair_store2 (n : ℕ) (v : FVec Ideal ⟨2, ![n, 16]⟩ .f32) (M : Mat n 16) (h : IsMat v M) (hb : FTy.bits .bf16 < FTy.bits .f32)
    (hc : Shape.Concatenates [(⟨2, ![n, 16]⟩ : Shape), ⟨2, ![n, 16]⟩] ⟨2, ![n, 32]⟩ 1) :
    IsMat (concatenate (⟨2, ![n, 32]⟩ : Shape) 1 [⟨⟨2, ![n, 16]⟩, (truncf .bf16 v hb : FVec Ideal ⟨2, ![n, 16]⟩ .bf16)⟩,
      ⟨⟨2, ![n, 16]⟩, (truncf .bf16 (subf v v) hb : FVec Ideal ⟨2, ![n, 16]⟩ .bf16)⟩] hc) (pair M) := by
  intro r q
  by_cases hq : q.val < 16
  · rw [concatenate_pair_apply_left (1 : Fin (⟨2, ![n, 32]⟩ : Shape).rank) _ _ hc (ix2 r q) rfl (ix2 r ⟨q.val, hq⟩)
      (fun b => by match b with | ⟨0, _⟩ => rfl | ⟨1, _⟩ => rfl)]
    rw [truncf_apply, h r ⟨q.val, hq⟩]
    unfold pair; rw [dif_pos hq]
  · have hq' : q.val - 16 < 16 := by have := q.isLt; omega
    rw [concatenate_pair_apply_right (1 : Fin (⟨2, ![n, 32]⟩ : Shape).rank) _ _ hc (ix2 r q) rfl rfl (ix2 r ⟨q.val - 16, hq'⟩)
      (fun b hb => by match b with | ⟨0, _⟩ => rfl | ⟨1, _⟩ => exact absurd rfl hb)
      (by show (q.val - 16) + 16 = q.val; omega)]
    rw [truncf_apply, subf_apply, h r ⟨q.val - 16, hq'⟩, ← EReal.coe_sub, sub_self]
    unfold pair; rw [dif_neg hq]

theorem relu_cols2 (v : FVec Ideal S400x32 .f32) (M : Mat 400 32) (hv : IsMat v M) :
    IsMat (maximumf (addf (extractStridedSlice S400x16 ![0, 0] v slices_S400x32_o0_0_S400x16)
        (extractStridedSlice S400x16 ![0, 16] v slices_S400x32_o0_16_S400x16))
      (broadcast S400x16 (Scalar.ofBits (F := Ideal) .f32 0x00000000#32)))
      (fun r q => max (M r (lo2 q) + M r (hi2 q)) 0) := by
  intro r q
  rw [maximumf_apply, addf_apply, broadcast_apply,
    extractStridedSlice_apply ![0, 0] v slices_S400x32_o0_0_S400x16 (ix2 r q) (ix2 r (lo2 q))
      (fun a => by match a with | ⟨0, _⟩ => exact (Nat.zero_add _).symm | ⟨1, _⟩ => exact (Nat.zero_add _).symm),
    extractStridedSlice_apply ![0, 16] v slices_S400x32_o0_16_S400x16 (ix2 r q) (ix2 r (hi2 q))
      (fun a => by match a with | ⟨0, _⟩ => exact (Nat.zero_add _).symm | ⟨1, _⟩ => rfl),
    hv r (lo2 q), hv r (hi2 q)]
  show max (_ + _) (Ideal.ofBits .f32 0x00000000#32) = _
  rw [Ideal.ofBits_zero_f32, ← EReal.coe_add, ← EReal.coe_zero, coe_max2]

theorem relu_rows2 (v : FVec Ideal S32x10000 .f32) (S : Mat 32 10000) (hv : IsMat v S) :
    IsMat (maximumf (addf (extractStridedSlice S16x10000 ![0, 0] v slices_S32x10000_o0_0_S16x10000)
        (extractStridedSlice S16x10000 ![16, 0] v slices_S32x10000_o16_0_S16x10000))
      (broadcast S16x10000 (Scalar.ofBits (F := Ideal) .f32 0x00000000#32)))
      (fun a j => max (S (lo2 a) j + S (hi2 a) j) 0) := by
  intro a j
  rw [maximumf_apply, addf_apply, broadcast_apply,
    extractStridedSlice_apply ![0, 0] v slices_S32x10000_o0_0_S16x10000 (ix2 a j) (ix2 (lo2 a) j)
      (fun b => by match b with | ⟨0, _⟩ => exact (Nat.zero_add _).symm | ⟨1, _⟩ => exact (Nat.zero_add _).symm),
    extractStridedSlice_apply ![16, 0] v slices_S32x10000_o16_0_S16x10000 (ix2 a j) (ix2 (hi2 a) j)
      (fun b => by match b with | ⟨0, _⟩ => rfl | ⟨1, _⟩ => exact (Nat.zero_add _).symm),
    hv (lo2 a) j, hv (hi2 a) j]
  show max (_ + _) (Ideal.ofBits .f32 0x00000000#32) = _
  rw [Ideal.ofBits_zero_f32, ← EReal.coe_add, ← EReal.coe_zero, coe_max2]

theorem transpose2 (v : FVec Ideal S16x10000 .f32) (M : Mat 16 10000) (hv : IsMat v M) :
    IsMat (transpose S10000x16 [1, 0] v transposes_S16x10000_p1_0_S10000x16) (fun j a => M a j) := by
  intro j a
  rw [transpose_apply [1, 0] v transposes_S16x10000_p1_0_S10000x16 (ix2 j a) (ix2 a j) (fun b => by
    match b with
    | ⟨0, _⟩ => rfl
    | ⟨1, _⟩ => rfl)]
  exact hv a j

theorem mmL2n_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem mmL2n_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem mmR2n_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem mmR2n_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

theorem mm2n_apply (x0 : FVec Ideal S400x10000 .bf16) (x1 : FVec Ideal S10000x32 .bf16) (i : S400x32.Idx) :
    matmul dot_S400x10000_S10000x32_S400x32_1_0_0_1_n_n none x0 x1 (constant S400x32 .f32 0x00000000#32) i
      = ∑ k : Fin 10000, x0 (ix2 (i 0) k) * x1 (ix2 k (i 1)) := by
  simp only [matmul]
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx i ((ValueIdx.contrEquiv1 dot_S400x10000_S10000x32_S400x32_1_0_0_1_n_n 10000 rfl rfl).symm k) = ix2 (i 0) k := funext fun a => Fin.ext (by
    match a with
    | ⟨0, _⟩ => exact mmL2n_0 _ _
    | ⟨1, _⟩ => exact (mmL2n_1 _ _).trans hk)
  have er : dot_S400x10000_S10000x32_S400x32_1_0_0_1_n_n.rhsIdx i ((ValueIdx.contrEquiv1 dot_S400x10000_S10000x32_S400x32_1_0_0_1_n_n 10000 rfl rfl).symm k) = ix2 k (i 1) := funext fun a => Fin.ext (by
    match a with
    | ⟨0, _⟩ => exact (mmR2n_0 _ _).trans hk
    | ⟨1, _⟩ => exact mmR2n_1 _ _)
  exact congrArg₂ (· * ·) (congrArg x0 el) (congrArg x1 er)

theorem mm2n_real (x0 : FVec Ideal S400x10000 .bf16) (x1 : FVec Ideal S10000x32 .bf16) (T : Mat 400 10000) (W : Mat 10000 32)
    (h0 : IsMat x0 T) (h1 : IsMat x1 W) :
    IsMat (matmul dot_S400x10000_S10000x32_S400x32_1_0_0_1_n_n none x0 x1 (constant S400x32 .f32 0x00000000#32)) (mm T W) := by
  intro r q
  rw [mm2n_apply]
  show ∑ k : Fin 10000, x0 (ix2 r k) * x1 (ix2 k q) = _
  simp only [h0 r, h1 _ q]
  exact coe_sum_mul _ _

theorem mmL2t_0 (i : S32x10000.Idx) (q : dot_S400x32_S400x10000_S32x10000_0_0_1_1_n_n.contr.Idx) :
    (dot_S400x32_S400x10000_S32x10000_0_0_1_1_n_n.lhsIdx i q 0).val = (q ⟨0, by decide⟩).val :=
  dot_S400x32_S400x10000_S32x10000_0_0_1_1_n_n.lhsIdx_val_of_single rfl i q
theorem mmL2t_1 (i : S32x10000.Idx) (q : dot_S400x32_S400x10000_S32x10000_0_0_1_1_n_n.contr.Idx) :
    (dot_S400x32_S400x10000_S32x10000_0_0_1_1_n_n.lhsIdx i q 1).val = (i 0).val := by
  unfold DotDims.lhsIdx
  rw [dif_neg (show ¬(1 : Fin S400x32.rank) ∈ dot_S400x32_S400x10000_S32x10000_0_0_1_1_n_n.lhsBatch by decide), dif_pos (show (1 : Fin S400x32.rank) ∈ dot_S400x32_S400x10000_S32x10000_0_0_1_1_n_n.lhsNonContracting by decide)]
  rfl
theorem mmR2t_0 (i : S32x10000.Idx) (q : dot_S400x32_S400x10000_S32x10000_0_0_1_1_n_n.contr.Idx) :
    (dot_S400x32_S400x10000_S32x10000_0_0_1_1_n_n.rhsIdx i q 0).val = (q ⟨0, by decide⟩).val :=
  dot_S400x32_S400x10000_S32x10000_0_0_1_1_n_n.rhsIdx_val_of_single rfl i q
theorem mmR2t_1 (i : S32x10000.Idx) (q : dot_S400x32_S400x10000_S32x10000_0_0_1_1_n_n.contr.Idx) :
    (dot_S400x32_S400x10000_S32x10000_0_0_1_1_n_n.rhsIdx i q 1).val = (i 1).val := by
  unfold DotDims.rhsIdx
  rw [dif_neg (show ¬(1 : Fin S400x10000.rank) ∈ dot_S400x32_S400x10000_S32x10000_0_0_1_1_n_n.rhsBatch by decide), dif_pos (show (1 : Fin S400x10000.rank) ∈ dot_S400x32_S400x10000_S32x10000_0_0_1_1_n_n.rhsNonContracting by decide)]
  rfl

theorem mm2t_apply (x0 : FVec Ideal S400x32 .bf16) (x1 : FVec Ideal S400x10000 .bf16) (i : S32x10000.Idx) :
    matmul dot_S400x32_S400x10000_S32x10000_0_0_1_1_n_n none x0 x1 (constant S32x10000 .f32 0x00000000#32) i
      = ∑ k : Fin 400, x0 (ix2 k (i 0)) * x1 (ix2 k (i 1)) := by
  simp only [matmul]
  rw [Ideal.matmul_constant_zero_apply, ← Equiv.sum_comp (ValueIdx.contrEquiv1 dot_S400x32_S400x10000_S32x10000_0_0_1_1_n_n 400 rfl rfl).symm]
  refine Finset.sum_congr rfl fun k _ => ?_
  have hk := ValueIdx.contrEquiv1_symm_val dot_S400x32_S400x10000_S32x10000_0_0_1_1_n_n 400 rfl rfl k
  have el : dot_S400x32_S400x10000_S32x10000_0_0_1_1_n_n.lhsIdx i ((ValueIdx.contrEquiv1 dot_S400x32_S400x10000_S32x10000_0_0_1_1_n_n 400 rfl rfl).symm k) = ix2 k (i 0) := funext fun a => Fin.ext (by
    match a with
    | ⟨0, _⟩ => exact (mmL2t_0 _ _).trans hk
    | ⟨1, _⟩ => exact mmL2t_1 _ _)
  have er : dot_S400x32_S400x10000_S32x10000_0_0_1_1_n_n.rhsIdx i ((ValueIdx.contrEquiv1 dot_S400x32_S400x10000_S32x10000_0_0_1_1_n_n 400 rfl rfl).symm k) = ix2 k (i 1) := funext fun a => Fin.ext (by
    match a with
    | ⟨0, _⟩ => exact (mmR2t_0 _ _).trans hk
    | ⟨1, _⟩ => exact mmR2t_1 _ _)
  exact congrArg₂ (· * ·) (congrArg x0 el) (congrArg x1 er)

theorem mm2t_real (x0 : FVec Ideal S400x32 .bf16) (x1 : FVec Ideal S400x10000 .bf16) (P : Mat 400 32) (T : Mat 400 10000)
    (h0 : IsMat x0 P) (h1 : IsMat x1 T) :
    IsMat (matmul dot_S400x32_S400x10000_S32x10000_0_0_1_1_n_n none x0 x1 (constant S32x10000 .f32 0x00000000#32)) (mmT P T) := by
  intro a j
  rw [mm2t_apply]
  show ∑ k : Fin 400, x0 (ix2 k a) * x1 (ix2 k j) = _
  simp only [h0 _ a, h1 _ j]
  exact coe_sum_mul _ _

theorem isMat_shapeCast2 {a b : ℕ} (x : (⟨2, ![a, b]⟩ : Shape).Idx → EReal) (M : Mat a b)
    (h : (⟨2, ![a, b]⟩ : Shape).ShapeCasts ⟨2, ![a, b]⟩) (hx : IsMat x M) : IsMat (shapeCast (⟨2, ![a, b]⟩ : Shape) x h) M := by
  rw [shapeCast_self]; exact hx

theorem pay2_1_real (x0 : Vec Ideal S400x10000 .f32) (T : Mat 400 10000) (h0 : IsMat x0 T) : IsMat (k2_pay1 x0) T :=
  fun r k => h0 r k

theorem pay2_2_real (x0 : Vec Ideal S400x10000 .f32) (x2 : Vec Ideal S10000x32 .bf16) (T : Mat 400 10000) (Y : Mat 10000 16)
    (h0 : IsMat x0 T) (h2 : IsMat x2 (pair Y)) : IsMat (k2_pay2 x0 x2) (pair (relu (mm T Y))) := by
  have e : (fun (r : Fin 400) (q : Fin 16) => max (mm T (pair Y) r (lo2 q) + mm T (pair Y) r (hi2 q)) 0) = relu (mm T Y) :=
    funext fun r => funext fun q => by rw [mm_pair_halves2]; rfl
  rw [← e]
  unfold k2_pay2
  exact pair_store2 400 _ _ (relu_cols2 _ _ (mm2n_real (k2_pay1 x0) (shapeCast S10000x32 x2 shapeCasts_S10000x32_S10000x32) T (pair Y)
    (pay2_1_real x0 T h0) (isMat_shapeCast2 x2 (pair Y) shapeCasts_S10000x32_S10000x32 h2))) bitsLt_bf16_f32
    concatenates_S400x16_S400x16_S400x32_d1

theorem pay2_3_real (x0 : Vec Ideal S400x10000 .f32) (x16 : Vec Ideal S400x32 .bf16) (T : Mat 400 10000) (P : Mat 400 32)
    (h0 : IsMat x0 T) (h16 : IsMat x16 P) : IsMat (k2_pay3 x0 x16) (mmT P T) := by
  unfold k2_pay3
  exact mm2t_real (shapeCast S400x32 x16 shapeCasts_S400x32_S400x32) (k2_pay1 x0) P T
    (isMat_shapeCast2 x16 P shapeCasts_S400x32_S400x32 h16) (pay2_1_real x0 T h0)

theorem pay2_4_real (x0 : Vec Ideal S400x10000 .f32) (x16 : Vec Ideal S400x32 .bf16) (T : Mat 400 10000) (P : Mat 400 32)
    (h0 : IsMat x0 T) (h16 : IsMat x16 P) : IsMat (k2_pay4 x0 x16) (mmT P T) := by
  unfold k2_pay4
  exact isMat_shapeCast2 (k2_pay3 x0 x16) (mmT P T) shapeCasts_S32x10000_S32x10000 (pay2_3_real x0 x16 T P h0 h16)

theorem pay2_5_real (x0 : Vec Ideal S400x10000 .f32) (x16 : Vec Ideal S400x32 .bf16) (x28 : Vec Ideal S32x10000 .f32)
    (T : Mat 400 10000) (P : Mat 400 32) (S : Mat 32 10000)
    (h0 : IsMat x0 T) (h16 : IsMat x16 P) (h28 : IsMat x28 S) : IsMat (k2_pay5 x0 x16 x28) (fun a j => S a j + mmT P T a j) := by
  unfold k2_pay5
  refine isMat_shapeCast2 (addf x28 (k2_pay3 x0 x16)) _ shapeCasts_S32x10000_S32x10000 (fun a j => ?_)
  show x28 (ix2 a j) + k2_pay3 x0 x16 (ix2 a j) = _
  rw [h28 a j, pay2_3_real x0 x16 T P h0 h16 a j, ← EReal.coe_add]

theorem pay2_6_real (x28 : Vec Ideal S32x10000 .f32) (S : Mat 32 10000) (h28 : IsMat x28 S) :
    IsMat (k2_pay6 x28) (pair (fun (j : Fin 10000) (a : Fin 16) => max (S (lo2 a) j + S (hi2 a) j) 0)) := by
  unfold k2_pay6
  exact pair_store2 10000 _ _ (transpose2 _ _ (relu_rows2 x28 S h28)) bitsLt_bf16_f32 concatenates_S10000x16_S10000x16_S10000x32_d1

end Cert.KernelIdeal.Hand

end
-- ==== Proof.KI.Bands.lean ====
import Mathlib.Algebra.BigOperators.Fin
import Mathlib.Logic.Equiv.Fin.Basic

namespace Cert.Spec

open scoped BigOperators

theorem sum_fin_mul {M : Type} [AddCommMonoid M] (m n : ℕ) (f : Fin (m * n) → M) :
    ∑ i : Fin (m * n), f i = ∑ s : Fin m, ∑ r : Fin n, f (finProdFinEquiv (s, r)) :=
  (Equiv.sum_comp finProdFinEquiv f).symm.trans (Fintype.sum_prod_type fun p => f (finProdFinEquiv p))

/-- A sum over 10000 rows is a double sum over 25 bands of 400 rows. -/
theorem sum_bands {M : Type} [AddCommMonoid M] (f : Fin 10000 → M) :
    ∑ i : Fin 10000, f i
      = ∑ s : Fin 25, ∑ r : Fin 400, f ⟨400 * s.val + r.val, by have := s.isLt; have := r.isLt; omega⟩ := by
  refine (sum_fin_mul 25 400 f).trans (Finset.sum_congr rfl fun s _ => Finset.sum_congr rfl fun r _ => congrArg f (Fin.ext ?_))
  show r.val + 400 * s.val = 400 * s.val + r.val
  omega

end Cert.Spec
-- ==== Proof.KI.Val2.lean ====
import proofs.«116956_g88691074663054_cont_9to1c4b_58_37_alg».proof.Proof.KI.Val2Pieces
import proofs.«116956_g88691074663054_cont_9to1c4b_58_37_alg».proof.Proof.KI.Pay2
import proofs.«116956_g88691074663054_cont_9to1c4b_58_37_alg».proof.Proof.KI.Bands
import proofs.«116956_g88691074663054_cont_9to1c4b_58_37_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

def row2 (n : ℕ) (r : Fin 400) : Fin 10000 := ⟨(400 * n + r.val) % 10000, Nat.mod_lt _ (by decide)⟩

theorem row2_val (n : ℕ) (hn : n < 25) (r : Fin 400) : (row2 n r).val = 400 * n + r.val :=
  Nat.mod_eq_of_lt (by have := r.isLt; omega)

def band2 {k : ℕ} (X : Mat 10000 k) (n : ℕ) : Mat 400 k := fun r j => X (row2 n r) j

def prod2 (adj : Mat 10000 10000) (Y : Mat 10000 16) (n : ℕ) : Mat 32 10000 := mmT (band2 (pair Y) n) (band2 adj n)

def acc2 (adj : Mat 10000 10000) (Y : Mat 10000 16) : ℕ → Mat 32 10000
  | 0 => prod2 adj Y 0
  | n + 1 => fun a j => acc2 adj Y n a j + prod2 adj Y (n + 1) a j

theorem acc2_eq_sum (adj : Mat 10000 10000) (Y : Mat 10000 16) (a : Fin 32) (j : Fin 10000) :
    ∀ n : ℕ, acc2 adj Y n a j = ∑ s ∈ Finset.range (n + 1), prod2 adj Y s a j
  | 0 => by rw [Finset.sum_range_one]; rfl
  | n + 1 => by
    rw [Finset.sum_range_succ, ← acc2_eq_sum adj Y a j n]; rfl

theorem acc2_last (adj : Mat 10000 10000) (Y : Mat 10000 16) (a : Fin 32) (j : Fin 10000) :
    acc2 adj Y 24 a j = mmT (pair Y) adj a j := by
  rw [acc2_eq_sum, Finset.sum_range]
  show ∑ s : Fin 25, prod2 adj Y s.val a j = ∑ l : Fin 10000, pair Y l a * adj l j
  rw [sum_bands (fun l : Fin 10000 => pair Y l a * adj l j)]
  refine Finset.sum_congr rfl fun s _ => ?_
  show ∑ r : Fin 400, pair Y (row2 s.val r) a * adj (row2 s.val r) j = _
  refine Finset.sum_congr rfl fun r _ => ?_
  have e : row2 s.val r = ⟨400 * s.val + r.val, by have := s.isLt; have := r.isLt; omega⟩ := Fin.ext (row2_val s.val s.isLt r)
  rw [e]

theorem acc2_halves (adj : Mat 10000 10000) (Y : Mat 10000 16) :
    (fun (j : Fin 10000) (a : Fin 16) => max (acc2 adj Y 24 (lo2 a) j + acc2 adj Y 24 (hi2 a) j) 0) = H1 adj Y := by
  funext j a
  rw [acc2_last, acc2_last, mmT_pair_halves2]
  rfl

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem blk2_0 (c : Dev nD) (t : Fin cfg2.N) (y : S400x10000.Idx) (i : S10000x10000.Idx)
    (hi0 : (i 0).val = 400 * t.val + (y 0).val) (hi1 : (i 1).val = (y 1).val) :
    (iblk2 V c 0 t : Vec Ideal S400x10000 .f32) y = (V c main_arg2 : S10000x10000.Idx → Elt Ideal .f32) i := by
  obtain ⟨e0, e1, -⟩ := idx_facts2 t
  unfold iblk2
  rw [View.read_apply]
  show V c main_arg2 _ = V c main_arg2 _
  congr 1
  funext a; apply Fin.ext
  match a with
  | ⟨0, _⟩ => show win2_0.index t 0 * 400 + 1 * (y 0).val = (i 0).val; rw [e0, hi0]; omega
  | ⟨1, _⟩ => show win2_0.index t 1 * 10000 + 1 * (y 1).val = (i 1).val; rw [e1, hi1]; omega

theorem blk2_1 (c : Dev nD) (t : Fin cfg2.N) (y : S400x32.Idx) (i : S10000x32.Idx)
    (hi0 : (i 0).val = 400 * t.val + (y 0).val) (hi1 : (i 1).val = (y 1).val) :
    (iblk2 V c 1 t : Vec Ideal S400x32 .bf16) y = (V c main_v0 : S10000x32.Idx → Elt Ideal .bf16) i := by
  obtain ⟨-, -, e0, e1, -⟩ := idx_facts2 t
  unfold iblk2
  rw [View.read_apply]
  show V c main_v0 _ = V c main_v0 _
  congr 1
  funext a; apply Fin.ext
  match a with
  | ⟨0, _⟩ => show win2_1.index t 0 * 400 + 1 * (y 0).val = (i 0).val; rw [e0, hi0]; omega
  | ⟨1, _⟩ => show win2_1.index t 1 * 32 + 1 * (y 1).val = (i 1).val; rw [e1, hi1]; omega

theorem blk2_2 (c : Dev nD) (t : Fin cfg2.N) (y : S10000x32.Idx) :
    (iblk2 V c 2 t : Vec Ideal S10000x32 .bf16) y = (V c main_v1 : S10000x32.Idx → Elt Ideal .bf16) y := by
  obtain ⟨-, -, -, -, e0, e1, -⟩ := idx_facts2 t
  unfold iblk2
  rw [View.read_apply]
  show V c main_v1 _ = V c main_v1 _
  congr 1
  funext a; apply Fin.ext
  match a with
  | ⟨0, _⟩ => show win2_2.index t 0 * 10000 + 1 * (y 0).val = (y 0).val; rw [e0]; omega
  | ⟨1, _⟩ => show win2_2.index t 1 * 32 + 1 * (y 1).val = (y 1).val; rw [e1]; omega

theorem ablk2_real (c : Dev nD) (adj : Mat 10000 10000) (hadj : IsMat (V c main_arg2) adj) (t : Fin cfg2.N) :
    IsMat (iblk2 V c 0 t : Vec Ideal S400x10000 .f32) (band2 adj t.val) := fun r k => by
  have ht : t.val < 25 := t.isLt
  rw [blk2_0 V c t (ix2 r k) (ix2 (row2 t.val r) k) (row2_val t.val ht r) rfl]
  exact hadj _ k
theorem pblk2_real (c : Dev nD) (P : Mat 10000 32) (hP : IsMat (V c main_v0) P) (t : Fin cfg2.N) :
    IsMat (iblk2 V c 1 t : Vec Ideal S400x32 .bf16) (band2 P t.val) := fun r k => by
  have ht : t.val < 25 := t.isLt
  rw [blk2_1 V c t (ix2 r k) (ix2 (row2 t.val r) k) (row2_val t.val ht r) rfl]
  exact hP _ k
theorem yblk2_real (c : Dev nD) (W : Mat 10000 32) (hW : IsMat (V c main_v1) W) (t : Fin cfg2.N) :
    IsMat (iblk2 V c 2 t : Vec Ideal S10000x32 .bf16) W := fun p q => by
  rw [blk2_2 V c t (ix2 p q)]
  exact hW p q

theorem band2_at (c : Dev nD) (t : Fin cfg2.N) :
    (outsAt2 V c t.val t.isLt).2.1 = k2_pay2 (iblk2 V c 0 t) (iblk2 V c 2 t) := by
  by_cases h0 : t.val % 25 = 0
  · rw [outsAt2_A V c t h0]; dsimp only [at2_A]
    exact out2_A_4_eq (F := Ideal) ..
  · by_cases h2 : t.val % 25 = 24
    · rw [outsAt2_C V c t h0 h2]; dsimp only [at2_C]
      exact out2_C_4_eq (F := Ideal) ..
    · rw [outsAt2_B V c t h0 h2]; dsimp only [at2_B]
      exact out2_B_4_eq (F := Ideal) ..

theorem scr2_first (c : Dev nD) (t : Fin cfg2.N) (h0 : t.val % 25 = 0) :
    (outsAt2 V c t.val t.isLt).2.2 = k2_pay4 (iblk2 V c 0 t) (iblk2 V c 1 t) := by
  rw [outsAt2_A V c t h0]; dsimp only [at2_A]
  exact sout2_A_0_eq (F := Ideal) ..

theorem scr2_later (c : Dev nD) (t : Fin cfg2.N) (h0 : ¬t.val % 25 = 0) :
    (outsAt2 V c t.val t.isLt).2.2 = k2_pay5 (iblk2 V c 0 t) (iblk2 V c 1 t) (outsAt2 V c (t.val - 1) (Nat.lt_of_le_of_lt (Nat.sub_le _ _) t.isLt)).2.2 := by
  by_cases h2 : t.val % 25 = 24
  · rw [outsAt2_C V c t h0 h2]; dsimp only [at2_C]
    exact sout2_C_0_eq (F := Ideal) ..
  · rw [outsAt2_B V c t h0 h2]; dsimp only [at2_B]
    exact sout2_B_0_eq (F := Ideal) ..

theorem out2_last (c : Dev nD) (t : Fin cfg2.N) (h0 : ¬t.val % 25 = 0) (h2 : t.val % 25 = 24) :
    (outsAt2 V c t.val t.isLt).1 = k2_pay6 ((outsAt2 V c t.val t.isLt).2.2) := by
  rw [scr2_later V c t h0]
  rw [outsAt2_C V c t h0 h2]; dsimp only [at2_C]
  exact out2_C_3_eq (F := Ideal) ..

theorem scratch2_real (c : Dev nD) (adj : Mat 10000 10000) (Y1 : Mat 10000 16) (hadj : IsMat (V c main_arg2) adj)
    (h0 : IsMat (V c main_v0) (pair Y1)) :
    ∀ (n : ℕ) (hn : n < cfg2.N), IsMat ((outsAt2 V c n hn).2.2 : Vec Ideal S32x10000 .f32) (acc2 adj Y1 n)
  | 0, hn => by
    have e : (outsAt2 V c 0 hn).2.2 = k2_pay4 (iblk2 V c 0 ⟨0, hn⟩) (iblk2 V c 1 ⟨0, hn⟩) := scr2_first V c ⟨0, hn⟩ (Nat.zero_mod 25)
    rw [e]
    exact pay2_4_real (iblk2 V c 0 ⟨0, hn⟩) (iblk2 V c 1 ⟨0, hn⟩) (band2 adj 0) (band2 (pair Y1) 0)
      (ablk2_real V c adj hadj ⟨0, hn⟩) (pblk2_real V c (pair Y1) h0 ⟨0, hn⟩)
  | n + 1, hn => by
    have hN : n + 1 < 25 := hn
    have hB : ¬(⟨n + 1, hn⟩ : Fin cfg2.N).val % 25 = 0 := by show ¬(n + 1) % 25 = 0; omega
    have e : (outsAt2 V c (n + 1) hn).2.2 = k2_pay5 (iblk2 V c 0 ⟨n + 1, hn⟩) (iblk2 V c 1 ⟨n + 1, hn⟩) (outsAt2 V c n (Nat.lt_of_succ_lt hn)).2.2 :=
      scr2_later V c ⟨n + 1, hn⟩ hB
    rw [e]
    exact pay2_5_real (iblk2 V c 0 ⟨n + 1, hn⟩) (iblk2 V c 1 ⟨n + 1, hn⟩) ((outsAt2 V c n (Nat.lt_of_succ_lt hn)).2.2)
      (band2 adj (n + 1)) (band2 (pair Y1) (n + 1)) (acc2 adj Y1 n)
      (ablk2_real V c adj hadj ⟨n + 1, hn⟩) (pblk2_real V c (pair Y1) h0 ⟨n + 1, hn⟩) (scratch2_real c adj Y1 hadj h0 n (Nat.lt_of_succ_lt hn))

abbrev G2_4 (adj : Mat 10000 10000) (Y2 : Mat 10000 16) : S10000x32.Idx → Elt Ideal .bf16 :=
  fun i => ((pair (H2 adj Y2) (i 0) (i 1) : ℝ) : EReal)

abbrev G2_3 (adj : Mat 10000 10000) (Y1 : Mat 10000 16) : S10000x32.Idx → Elt Ideal .bf16 :=
  fun i => ((pair (H1 adj Y1) (i 0) (i 1) : ℝ) : EReal)

theorem pay2_2_blk (x0 : Vec Ideal S400x10000 .f32) (x2 : Vec Ideal S10000x32 .bf16) (adj : Mat 10000 10000) (Y2 : Mat 10000 16)
    (n : ℕ) (hn : n < 25) (h0 : IsMat x0 (band2 adj n)) (h2 : IsMat x2 (pair Y2)) (r : Fin 400) (q : Fin 32) (i : S10000x32.Idx)
    (hi0 : (i 0).val = 400 * n + r.val) (hi1 : (i 1).val = q.val) :
    k2_pay2 x0 x2 (ix2 r q) = G2_4 adj Y2 i := by
  rw [pay2_2_real x0 x2 (band2 adj n) Y2 h0 h2 r q]
  have e0 : row2 n r = i 0 := Fin.ext ((row2_val n hn r).trans hi0.symm)
  have e1 : q = i 1 := Fin.ext hi1.symm
  exact congrArg₂ (fun (a : Fin 10000) (b : Fin 32) => ((pair (H2 adj Y2) a b : ℝ) : EReal)) e0 e1

theorem flushed2_4_eq (c : Dev nD) (adj : Mat 10000 10000) (Y2 : Mat 10000 16) (hadj : IsMat (V c main_arg2) adj)
    (h1 : IsMat (V c main_v1) (pair Y2)) (t : Fin cfg2.N) :
    (dat2 V c).flushed 4 t = ((cfg2.win 4).blk t).view.read (Elt Ideal) (G2_4 adj Y2) := by
  show (cfg2.win 4).cut (grid2.coords t) ((dat2 V c).after 4 t) = _
  rw [after2_4, band2_at V c t]
  obtain ⟨-, -, -, -, -, -, -, -, e8, e9⟩ := idx_facts2 t
  have ht : t.val < 25 := t.isLt
  funext j
  have hj0 : (j 0).val < 400 := (j 0).isLt
  have hj1 : (j 1).val < 32 := (j 1).isLt
  rw [View.read_apply]
  show k2_pay2 (iblk2 V c 0 t) (iblk2 V c 2 t) ((cfg2.win 4).xinj (grid2.coords t) j) = G2_4 adj Y2 (((cfg2.win 4).blk t).view.emb j)
  refine (congrArg (k2_pay2 (iblk2 V c 0 t) (iblk2 V c 2 t)) (eq_ix2 (n0 := 400) (n1 := 32) ((cfg2.win 4).xinj (grid2.coords t) j))).trans ?_
  refine pay2_2_blk (iblk2 V c 0 t) (iblk2 V c 2 t) adj Y2 t.val ht (ablk2_real V c adj hadj t) (yblk2_real V c (pair Y2) h1 t) _ _ _ ?_ ?_
  · show win2_4.index t 0 * 400 + 1 * (j 0).val = 400 * t.val + (j 0).val; rw [e8]; omega
  · show win2_4.index t 1 * 32 + 1 * (j 1).val = (j 1).val; rw [e9]; omega

theorem mem_blk2_4 (t : Fin cfg2.N) (i : S10000x32.Idx) :
    i ∈ ((cfg2.win 4).blk t).view.set ↔ ∀ a : Fin 2, win2_4.index t a * S400x32.size a ≤ (i a).val ∧ (i a).val < win2_4.index t a * S400x32.size a + S400x32.size a := by
  show i ∈ ((View.whole main_v2_1).slice (win2_4.rect t)).set ↔ _
  rw [View.set_slice_whole, Rect.mem_set_unit]
  exact Iff.rfl

theorem cover2_4 (i : S10000x32.Idx) : ∃ t : Fin cfg2.N, (cfg2.win 4).flush t = true ∧ i ∈ ((cfg2.win 4).blk t).view.set := by
  have hi0 : (i 0).val < 10000 := (i 0).isLt
  have hi1 : (i 1).val < 32 := (i 1).isLt
  refine ⟨⟨(i 0).val / 400, by show (i 0).val / 400 < 25; omega⟩, flush2_4 _, ?_⟩
  rw [mem_blk2_4]
  obtain ⟨-, -, -, -, -, -, -, -, e8, e9⟩ := idx_facts2 ⟨(i 0).val / 400, by show (i 0).val / 400 < 25; omega⟩
  intro a
  match a with
  | ⟨0, _⟩ => show win2_4.index _ (0 : Fin 2) * 400 ≤ (i 0).val ∧ (i 0).val < win2_4.index _ (0 : Fin 2) * 400 + 400; rw [e8]; show (i 0).val / 400 * 400 ≤ _ ∧ _ < (i 0).val / 400 * 400 + 400; omega
  | ⟨1, _⟩ => show win2_4.index _ (1 : Fin 2) * 32 ≤ (i 1).val ∧ (i 1).val < win2_4.index _ (1 : Fin 2) * 32 + 32; rw [e9]; omega

theorem pay2_6_blk (x28 : Vec Ideal S32x10000 .f32) (adj : Mat 10000 10000) (Y1 : Mat 10000 16)
    (h28 : IsMat x28 (acc2 adj Y1 24)) (p : Fin 10000) (q : Fin 32) (i : S10000x32.Idx)
    (hi0 : (i 0).val = p.val) (hi1 : (i 1).val = q.val) :
    k2_pay6 x28 (ix2 p q) = G2_3 adj Y1 i := by
  rw [pay2_6_real x28 (acc2 adj Y1 24) h28 p q, acc2_halves]
  have e0 : p = i 0 := Fin.ext hi0.symm
  have e1 : q = i 1 := Fin.ext hi1.symm
  exact congrArg₂ (fun (a : Fin 10000) (b : Fin 32) => ((pair (H1 adj Y1) a b : ℝ) : EReal)) e0 e1

theorem flushed2_3_eq (c : Dev nD) (adj : Mat 10000 10000) (Y1 : Mat 10000 16) (hadj : IsMat (V c main_arg2) adj)
    (h0 : IsMat (V c main_v0) (pair Y1)) (t : Fin cfg2.N) (hf : (cfg2.win 3).flush t = true) :
    (dat2 V c).flushed 3 t = ((cfg2.win 3).blk t).view.read (Elt Ideal) (G2_3 adj Y1) := by
  have h24 : t.val % 25 = 24 := (flush2_3 t).mp hf
  have ht : t.val < 25 := t.isLt
  have e24 : t.val = 24 := by omega
  have hB : ¬t.val % 25 = 0 := by omega
  have hS : IsMat ((outsAt2 V c t.val t.isLt).2.2 : Vec Ideal S32x10000 .f32) (acc2 adj Y1 24) := by
    have e : acc2 adj Y1 t.val = acc2 adj Y1 24 := congrArg (acc2 adj Y1) e24
    rw [← e]
    exact scratch2_real V c adj Y1 hadj h0 t.val t.isLt
  show (cfg2.win 3).cut (grid2.coords t) ((dat2 V c).after 3 t) = _
  rw [after2_3, out2_last V c t hB h24]
  obtain ⟨-, -, -, -, -, -, e6, e7, -⟩ := idx_facts2 t
  funext j
  have hj0 : (j 0).val < 10000 := (j 0).isLt
  have hj1 : (j 1).val < 32 := (j 1).isLt
  rw [View.read_apply]
  show k2_pay6 ((outsAt2 V c t.val t.isLt).2.2) ((cfg2.win 3).xinj (grid2.coords t) j) = G2_3 adj Y1 (((cfg2.win 3).blk t).view.emb j)
  refine (congrArg (k2_pay6 ((outsAt2 V c t.val t.isLt).2.2)) (eq_ix2 (n0 := 10000) (n1 := 32) ((cfg2.win 3).xinj (grid2.coords t) j))).trans ?_
  refine pay2_6_blk ((outsAt2 V c t.val t.isLt).2.2) adj Y1 hS _ _ _ ?_ ?_
  · show win2_3.index t 0 * 10000 + 1 * (j 0).val = (j 0).val; rw [e6]; omega
  · show win2_3.index t 1 * 32 + 1 * (j 1).val = (j 1).val; rw [e7]; omega

theorem mem_blk2_3 (t : Fin cfg2.N) (i : S10000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v2_0).slice (win2_3.rect t)).set ↔ _
  rw [View.set_slice_whole, Rect.mem_set_unit]
  exact Iff.rfl

theorem cover2_3 (i : S10000x32.Idx) : ∃ t : Fin cfg2.N, (cfg2.win 3).flush t = true ∧ i ∈ ((cfg2.win 3).blk t).view.set := by
  have hi0 : (i 0).val < 10000 := (i 0).isLt
  have hi1 : (i 1).val < 32 := (i 1).isLt
  refine ⟨⟨24, by show 24 < 25; omega⟩, (flush2_3 _).mpr rfl, ?_⟩
  rw [mem_blk2_3]
  obtain ⟨-, -, -, -, -, -, e6, e7, -⟩ := idx_facts2 ⟨24, by show 24 < 25; omega⟩
  intro a
  match a with
  | ⟨0, _⟩ => show win2_3.index _ (0 : Fin 2) * 10000 ≤ (i 0).val ∧ (i 0).val < win2_3.index _ (0 : Fin 2) * 10000 + 10000; rw [e6]; omega
  | ⟨1, _⟩ => show win2_3.index _ (1 : Fin 2) * 32 ≤ (i 1).val ∧ (i 1).val < win2_3.index _ (1 : Fin 2) * 32 + 32; rw [e7]; omega

/-- Both hidden layers as real matrices: relu(adj · Y2) band by band, relu(adjᵀ · Y1) from the sum over the bands. -/
theorem val2 (c : Dev nD) (adj : Mat 10000 10000) (Y1 Y2 : Mat 10000 16) (hadj : IsMat (V c main_arg2) adj)
    (h0 : IsMat (V c main_v0) (pair Y1)) (h1 : IsMat (V c main_v1) (pair Y2)) :
    IsMat ((dat2 V c).arrAt 3 cfg2.N) (pair (H1 adj Y1)) ∧ IsMat ((dat2 V c).arrAt 4 cfg2.N) (pair (H2 adj Y2)) := by
  have e3 : (dat2 V c).arrAt 3 cfg2.N = G2_3 adj Y1 :=
    (dat2 V c).arrAt_eq_of_cover 3 (G2_3 adj Y1) (fun t hf => flushed2_3_eq V c adj Y1 hadj h0 t hf) cover2_3
  have e4 : (dat2 V c).arrAt 4 cfg2.N = G2_4 adj Y2 :=
    (dat2 V c).arrAt_eq_of_cover 4 (G2_4 adj Y2) (fun t _ => flushed2_4_eq V c adj Y2 hadj h1 t) cover2_4
  refine ⟨fun p q => ?_, fun p q => ?_⟩
  · rw [e3]
  · rw [e4]

end Cert.KernelIdeal.Hand

end
-- ==== Proof.KI.Pay3.lean ====
import proofs.«116956_g88691074663054_cont_9to1c4b_58_37_alg».proof.Proof.Gen.KernelIdeal.Skeleton
import proofs.«116956_g88691074663054_cont_9to1c4b_58_37_alg».proof.Proof.Spec
import proofs.«116956_g88691074663054_cont_9to1c4b_58_37_alg».proof.Proof.KI.Pay2
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec

theorem mmB3L_0 (i : S400x4.Idx) (q : dot_S400x16_S16x4_S400x4_1_0_0_1_n_n.contr.Idx) :
    (dot_S400x16_S16x4_S400x4_1_0_0_1_n_n.lhsIdx i q 0).val = (i 0).val := by
  unfold DotDims.lhsIdx
  rw [dif_neg (show ¬(0 : Fin S400x16.rank) ∈ dot_S400x16_S16x4_S400x4_1_0_0_1_n_n.lhsBatch by decide), dif_pos (show (0 : Fin S400x16.rank) ∈ dot_S400x16_S16x4_S400x4_1_0_0_1_n_n.lhsNonContracting by decide)]
  rfl
theorem mmB3L_1 (i : S400x4.Idx) (q : dot_S400x16_S16x4_S400x4_1_0_0_1_n_n.contr.Idx) :
    (dot_S400x16_S16x4_S400x4_1_0_0_1_n_n.lhsIdx i q 1).val = (q ⟨0, by decide⟩).val :=
  dot_S400x16_S16x4_S400x4_1_0_0_1_n_n.lhsIdx_val_of_single rfl i q
theorem mmB3R_0 (i : S400x4.Idx) (q : dot_S400x16_S16x4_S400x4_1_0_0_1_n_n.contr.Idx) :
    (dot_S400x16_S16x4_S400x4_1_0_0_1_n_n.rhsIdx i q 0).val = (q ⟨0, by decide⟩).val :=
  dot_S400x16_S16x4_S400x4_1_0_0_1_n_n.rhsIdx_val_of_single rfl i q
theorem mmB3R_1 (i : S400x4.Idx) (q : dot_S400x16_S16x4_S400x4_1_0_0_1_n_n.contr.Idx) :
    (dot_S400x16_S16x4_S400x4_1_0_0_1_n_n.rhsIdx i q 1).val = (i 1).val := by
  unfold DotDims.rhsIdx
  rw [dif_neg (show ¬(1 : Fin S16x4.rank) ∈ dot_S400x16_S16x4_S400x4_1_0_0_1_n_n.rhsBatch by decide), dif_pos (show (1 : Fin S16x4.rank) ∈ dot_S400x16_S16x4_S400x4_1_0_0_1_n_n.rhsNonContracting by decide)]
  rfl

theorem mmB3_apply (x : FVec Ideal S400x16 .f32) (y : FVec Ideal S16x4 .f32) (i : S400x4.Idx) :
    matmul dot_S400x16_S16x4_S400x4_1_0_0_1_n_n none x y (constant S400x4 .f32 0x00000000#32) i
      = ∑ k : Fin 16, x (ix2 (i 0) k) * y (ix2 k (i 1)) := by
  simp only [matmul]
  rw [Ideal.matmul_constant_zero_apply, ← Equiv.sum_comp (ValueIdx.contrEquiv1 dot_S400x16_S16x4_S400x4_1_0_0_1_n_n 16 rfl rfl).symm]
  refine Finset.sum_congr rfl fun k _ => ?_
  have hk := ValueIdx.contrEquiv1_symm_val dot_S400x16_S16x4_S400x4_1_0_0_1_n_n 16 rfl rfl k
  have el : dot_S400x16_S16x4_S400x4_1_0_0_1_n_n.lhsIdx i ((ValueIdx.contrEquiv1 dot_S400x16_S16x4_S400x4_1_0_0_1_n_n 16 rfl rfl).symm k) = ix2 (i 0) k := funext fun a => Fin.ext (by
    match a with
    | ⟨0, _⟩ => exact mmB3L_0 _ _
    | ⟨1, _⟩ => exact (mmB3L_1 _ _).trans hk)
  have er : dot_S400x16_S16x4_S400x4_1_0_0_1_n_n.rhsIdx i ((ValueIdx.contrEquiv1 dot_S400x16_S16x4_S400x4_1_0_0_1_n_n 16 rfl rfl).symm k) = ix2 k (i 1) := funext fun a => Fin.ext (by
    match a with
    | ⟨0, _⟩ => exact (mmB3R_0 _ _).trans hk
    | ⟨1, _⟩ => exact mmB3R_1 _ _)
  exact congrArg₂ (· * ·) (congrArg x el) (congrArg y er)

theorem mmD3L_0 (i : S4x10000.Idx) (q : dot_S16x4_S16x10000_S4x10000_0_0_1_1_n_n.contr.Idx) :
    (dot_S16x4_S16x10000_S4x10000_0_0_1_1_n_n.lhsIdx i q 0).val = (q ⟨0, by decide⟩).val :=
  dot_S16x4_S16x10000_S4x10000_0_0_1_1_n_n.lhsIdx_val_of_single rfl i q
theorem mmD3L_1 (i : S4x10000.Idx) (q : dot_S16x4_S16x10000_S4x10000_0_0_1_1_n_n.contr.Idx) :
    (dot_S16x4_S16x10000_S4x10000_0_0_1_1_n_n.lhsIdx i q 1).val = (i 0).val := by
  unfold DotDims.lhsIdx
  rw [dif_neg (show ¬(1 : Fin S16x4.rank) ∈ dot_S16x4_S16x10000_S4x10000_0_0_1_1_n_n.lhsBatch by decide), dif_pos (show (1 : Fin S16x4.rank) ∈ dot_S16x4_S16x10000_S4x10000_0_0_1_1_n_n.lhsNonContracting by decide)]
  rfl
theorem mmD3R_0 (i : S4x10000.Idx) (q : dot_S16x4_S16x10000_S4x10000_0_0_1_1_n_n.contr.Idx) :
    (dot_S16x4_S16x10000_S4x10000_0_0_1_1_n_n.rhsIdx i q 0).val = (q ⟨0, by decide⟩).val :=
  dot_S16x4_S16x10000_S4x10000_0_0_1_1_n_n.rhsIdx_val_of_single rfl i q
theorem mmD3R_1 (i : S4x10000.Idx) (q : dot_S16x4_S16x10000_S4x10000_0_0_1_1_n_n.contr.Idx) :
    (dot_S16x4_S16x10000_S4x10000_0_0_1_1_n_n.rhsIdx i q 1).val = (i 1).val := by
  unfold DotDims.rhsIdx
  rw [dif_neg (show ¬(1 : Fin S16x10000.rank) ∈ dot_S16x4_S16x10000_S4x10000_0_0_1_1_n_n.rhsBatch by decide), dif_pos (show (1 : Fin S16x10000.rank) ∈ dot_S16x4_S16x10000_S4x10000_0_0_1_1_n_n.rhsNonContracting by decide)]
  rfl

theorem mmD3_apply (x : FVec Ideal S16x4 .f32) (y : FVec Ideal S16x10000 .f32) (i : S4x10000.Idx) :
    matmul dot_S16x4_S16x10000_S4x10000_0_0_1_1_n_n none x y (constant S4x10000 .f32 0x00000000#32) i
      = ∑ k : Fin 16, x (ix2 k (i 0)) * y (ix2 k (i 1)) := by
  simp only [matmul]
  rw [Ideal.matmul_constant_zero_apply, ← Equiv.sum_comp (ValueIdx.contrEquiv1 dot_S16x4_S16x10000_S4x10000_0_0_1_1_n_n 16 rfl rfl).symm]
  refine Finset.sum_congr rfl fun k _ => ?_
  have hk := ValueIdx.contrEquiv1_symm_val dot_S16x4_S16x10000_S4x10000_0_0_1_1_n_n 16 rfl rfl k
  have el : dot_S16x4_S16x10000_S4x10000_0_0_1_1_n_n.lhsIdx i ((ValueIdx.contrEquiv1 dot_S16x4_S16x10000_S4x10000_0_0_1_1_n_n 16 rfl rfl).symm k) = ix2 k (i 0) := funext fun a => Fin.ext (by
    match a with
    | ⟨0, _⟩ => exact (mmD3L_0 _ _).trans hk
    | ⟨1, _⟩ => exact mmD3L_1 _ _)
  have er : dot_S16x4_S16x10000_S4x10000_0_0_1_1_n_n.rhsIdx i ((ValueIdx.contrEquiv1 dot_S16x4_S16x10000_S4x10000_0_0_1_1_n_n 16 rfl rfl).symm k) = ix2 k (i 1) := funext fun a => Fin.ext (by
    match a with
    | ⟨0, _⟩ => exact (mmD3R_0 _ _).trans hk
    | ⟨1, _⟩ => exact mmD3R_1 _ _)
  exact congrArg₂ (· * ·) (congrArg x el) (congrArg y er)

theorem isMat_congr3 {a b : ℕ} {x : (⟨2, ![a, b]⟩ : Shape).Idx → EReal} {X Y : Mat a b} (hx : IsMat x X)
    (h : ∀ (p : Fin a) (q : Fin b), X p q = Y p q) : IsMat x Y := fun p q => by
  rw [hx p q, h p q]

theorem mm_pair_lo3 {a k : ℕ} (T : Mat a k) (h : Mat k 16) (r : Fin a) (q : Fin 16) (hq : q.val < 32) :
    mm T (pair h) r ⟨q.val, hq⟩ = mm T h r q := by
  unfold mm pair
  refine Finset.sum_congr rfl fun l _ => ?_
  rw [dif_pos (show (⟨q.val, hq⟩ : Fin 32).val < 16 from q.isLt)]

theorem mm_pair_hi3 {a k : ℕ} (T : Mat a k) (h : Mat k 16) (r : Fin a) (q : Fin 16) (hq : 16 + q.val < 32) :
    mm T (pair h) r ⟨16 + q.val, hq⟩ = 0 := by
  unfold mm pair
  refine Finset.sum_eq_zero fun l _ => ?_
  rw [dif_neg (show ¬(⟨16 + q.val, hq⟩ : Fin 32).val < 16 from by show ¬(16 + q.val < 16); omega), mul_zero]

theorem isMat_addf3 {a b : ℕ} {x y : FVec Ideal (⟨2, ![a, b]⟩ : Shape) .f32} {X Y : Mat a b}
    (hx : IsMat x X) (hy : IsMat y Y) : IsMat (addf x y) (fun p q => X p q + Y p q) := fun p q => by
  rw [addf_apply, hx p q, hy p q, ← EReal.coe_add]

theorem isMat_mulf3 {a b : ℕ} {x y : FVec Ideal (⟨2, ![a, b]⟩ : Shape) .f32} {X Y : Mat a b}
    (hx : IsMat x X) (hy : IsMat y Y) : IsMat (mulf x y) (fun p q => X p q * Y p q) := fun p q => by
  rw [mulf_apply, hx p q, hy p q, ← EReal.coe_mul]

theorem isMat_exp3 {a b : ℕ} {x : FVec Ideal (⟨2, ![a, b]⟩ : Shape) .f32} {X : Mat a b}
    (hx : IsMat x X) : IsMat (Idealize.ShloMosaic.exp x) (fun p q => Real.exp (X p q)) := fun p q => by
  show FloatOps.exp (F := Ideal) (x (ix2 p q)) = _
  rw [hx p q]
  rfl

theorem isMat_truncf3 {a b : ℕ} {x : FVec Ideal (⟨2, ![a, b]⟩ : Shape) .f32} {X : Mat a b}
    (hx : IsMat x X) (h : FTy.bits .bf16 < FTy.bits .f32) : IsMat (truncf .bf16 x h) X := fun p q => hx p q

theorem isMat_shapeCast3 {a b : ℕ} {x : (⟨2, ![a, b]⟩ : Shape).Idx → EReal} {X : Mat a b}
    (hx : IsMat x X) (h : Shape.ShapeCasts (⟨2, ![a, b]⟩ : Shape) (⟨2, ![a, b]⟩ : Shape)) :
    IsMat (shapeCast (⟨2, ![a, b]⟩ : Shape) x h) X := by
  rw [shapeCast_self]; exact hx

theorem isMat_halves_cols3 {x : FVec Ideal S400x32 .f32} {X : Mat 400 32} (hx : IsMat x X)
    (h0 : S400x32.Slices ![0, 0] S400x16) (h1 : S400x32.Slices ![0, 16] S400x16) :
    IsMat (addf (extractStridedSlice S400x16 ![0, 0] x h0) (extractStridedSlice S400x16 ![0, 16] x h1))
      (fun r q => X r ⟨q.val, by have := q.isLt; omega⟩ + X r ⟨16 + q.val, by have := q.isLt; omega⟩) := fun r q => by
  rw [addf_apply,
    extractStridedSlice_apply ![0, 0] x h0 (ix2 r q) (ix2 r ⟨q.val, by have := q.isLt; omega⟩) (fun a => by
      match a with
      | ⟨0, _⟩ => show r.val = 0 + r.val; omega
      | ⟨1, _⟩ => show q.val = 0 + q.val; omega),
    extractStridedSlice_apply ![0, 16] x h1 (ix2 r q) (ix2 r ⟨16 + q.val, by have := q.isLt; omega⟩) (fun a => by
      match a with
      | ⟨0, _⟩ => show r.val = 0 + r.val; omega
      | ⟨1, _⟩ => rfl),
    hx, hx, ← EReal.coe_add]

theorem isMat_halves_rows3 {x : FVec Ideal S32x10000 .f32} {X : Mat 32 10000} (hx : IsMat x X)
    (h0 : S32x10000.Slices ![0, 0] S16x10000) (h1 : S32x10000.Slices ![16, 0] S16x10000) :
    IsMat (addf (extractStridedSlice S16x10000 ![0, 0] x h0) (extractStridedSlice S16x10000 ![16, 0] x h1))
      (fun a j => X ⟨a.val, by have := a.isLt; omega⟩ j + X ⟨16 + a.val, by have := a.isLt; omega⟩ j) := fun a j => by
  rw [addf_apply,
    extractStridedSlice_apply ![0, 0] x h0 (ix2 a j) (ix2 ⟨a.val, by have := a.isLt; omega⟩ j) (fun c => by
      match c with
      | ⟨0, _⟩ => show a.val = 0 + a.val; omega
      | ⟨1, _⟩ => show j.val = 0 + j.val; omega),
    extractStridedSlice_apply ![16, 0] x h1 (ix2 a j) (ix2 ⟨16 + a.val, by have := a.isLt; omega⟩ j) (fun c => by
      match c with
      | ⟨0, _⟩ => rfl
      | ⟨1, _⟩ => show j.val = 0 + j.val; omega),
    hx, hx, ← EReal.coe_add]

theorem isMat_transpose_in3 {x : FVec Ideal S10000x4 .f32} {X : Mat 10000 4} (hx : IsMat x X)
    (h : S10000x4.Transposes [1, 0] S4x10000) : IsMat (transpose S4x10000 [1, 0] x h) (fun b j => X j b) := fun b j => by
  rw [transpose_apply [1, 0] x h (ix2 b j) (ix2 j b) (fun c => by match c with | ⟨0, _⟩ => rfl | ⟨1, _⟩ => rfl)]
  exact hx j b

theorem isMat_transpose_out3 {x : FVec Ideal S4x10000 .f32} {X : Mat 4 10000} (hx : IsMat x X)
    (h : S4x10000.Transposes [1, 0] S10000x4) : IsMat (transpose S10000x4 [1, 0] x h) (fun j b => X b j) := fun j b => by
  rw [transpose_apply [1, 0] x h (ix2 j b) (ix2 b j) (fun c => by match c with | ⟨0, _⟩ => rfl | ⟨1, _⟩ => rfl)]
  exact hx b j

theorem isMat_mmB3 {x : FVec Ideal S400x16 .f32} {y : FVec Ideal S16x4 .f32} {A : Mat 400 16} {W : Mat 16 4}
    (hx : IsMat x A) (hy : IsMat y W) :
    IsMat (matmul dot_S400x16_S16x4_S400x4_1_0_0_1_n_n none x y (constant S400x4 .f32 0x00000000#32)) (mm A W) := fun r q => by
  rw [mmB3_apply]
  refine (Finset.sum_congr rfl fun k _ => ?_).trans (coe_sum_mul (fun k => A r k) (fun k => W k q))
  show x (ix2 r k) * y (ix2 k q) = _
  rw [hx r k, hy k q]

theorem isMat_mmD3 {x : FVec Ideal S16x4 .f32} {y : FVec Ideal S16x10000 .f32} {W : Mat 16 4} {A : Mat 16 10000}
    (hx : IsMat x W) (hy : IsMat y A) :
    IsMat (matmul dot_S16x4_S16x10000_S4x10000_0_0_1_1_n_n none x y (constant S4x10000 .f32 0x00000000#32)) (mmT W A) := fun r q => by
  rw [mmD3_apply]
  refine (Finset.sum_congr rfl fun k _ => ?_).trans (coe_sum_mul (fun k => W k r) (fun k => A k q))
  show x (ix2 k r) * y (ix2 k q) = _
  rw [hx k r, hy k q]

theorem pay1_isMat3 (v0 : Vec Ideal S400x10000 .f32) (T : Mat 400 10000) (h0 : IsMat v0 T) : IsMat (k3_pay1 v0) T := by
  unfold k3_pay1
  exact isMat_truncf3 h0 bitsLt_bf16_f32

theorem pay2_isMat3 (v0 : Vec Ideal S400x10000 .f32) (v2 : Vec Ideal S10000x32 .bf16) (v8 v10 : Vec Ideal S16x4 .f32)
    (v12 : Vec Ideal S400x4 .f32) (T : Mat 400 10000) (h1 : Mat 10000 16) (Wm Wl : Mat 16 4) (Nb : Mat 400 4)
    (h0 : IsMat v0 T) (h2 : IsMat v2 (pair h1)) (h8 : IsMat v8 Wm) (h10 : IsMat v10 Wl) (h12 : IsMat v12 Nb) :
    IsMat (k3_pay2 v0 v2 v8 v10 v12)
      (fun r b => Nb r b * Real.exp (mm (mm T h1) Wl r b) + mm (mm T h1) Wm r b) := by
  have hA := isMat_congr3
    (isMat_halves_cols3 (mm2n_real _ _ _ _ (pay1_isMat3 v0 T h0) (isMat_shapeCast3 h2 shapeCasts_S10000x32_S10000x32))
      slices_S400x32_o0_0_S400x16 slices_S400x32_o0_16_S400x16)
    (Y := mm T h1) (fun r q => by rw [mm_pair_lo3, mm_pair_hi3, add_zero])
  unfold k3_pay2
  exact isMat_addf3 (isMat_mulf3 h12 (isMat_exp3 (isMat_mmB3 hA h10))) (isMat_mmB3 hA h8)

theorem pay3_isMat3 (v0 : Vec Ideal S400x10000 .f32) (v17 : Vec Ideal S400x32 .bf16) (T : Mat 400 10000) (P : Mat 400 32)
    (h0 : IsMat v0 T) (h17 : IsMat v17 P) : IsMat (k3_pay3 v0 v17) (mmT P T) := by
  unfold k3_pay3
  exact mm2t_real _ _ _ _ (isMat_shapeCast3 h17 shapeCasts_S400x32_S400x32) (pay1_isMat3 v0 T h0)

theorem pay4_isMat3 (v0 : Vec Ideal S400x10000 .f32) (v17 : Vec Ideal S400x32 .bf16) (T : Mat 400 10000) (P : Mat 400 32)
    (h0 : IsMat v0 T) (h17 : IsMat v17 P) : IsMat (k3_pay4 v0 v17) (mmT P T) := by
  unfold k3_pay4
  exact isMat_shapeCast3 (pay3_isMat3 v0 v17 T P h0 h17) shapeCasts_S32x10000_S32x10000

theorem pay5_isMat3 (v0 : Vec Ideal S400x10000 .f32) (v17 : Vec Ideal S400x32 .bf16) (v29 : Vec Ideal S32x10000 .f32)
    (T : Mat 400 10000) (P : Mat 400 32) (S : Mat 32 10000)
    (h0 : IsMat v0 T) (h17 : IsMat v17 P) (h29 : IsMat v29 S) :
    IsMat (k3_pay5 v0 v17 v29) (fun a j => S a j + mmT P T a j) := by
  unfold k3_pay5
  exact isMat_shapeCast3 (isMat_addf3 h29 (pay3_isMat3 v0 v17 T P h0 h17)) shapeCasts_S32x10000_S32x10000

theorem pay6_isMat3 (v29 : Vec Ideal S32x10000 .f32) (v33 v35 : Vec Ideal S16x4 .f32) (v37 : Vec Ideal S10000x4 .f32)
    (S : Mat 32 10000) (Wm Wl : Mat 16 4) (N2 : Mat 10000 4)
    (h29 : IsMat v29 S) (h33 : IsMat v33 Wm) (h35 : IsMat v35 Wl) (h37 : IsMat v37 N2) :
    IsMat (k3_pay6 v29 v33 v35 v37)
      (fun j b => N2 j b * Real.exp (∑ a : Fin 16, Wl a b * (S ⟨a.val, by have := a.isLt; omega⟩ j + S ⟨16 + a.val, by have := a.isLt; omega⟩ j))
        + ∑ a : Fin 16, Wm a b * (S ⟨a.val, by have := a.isLt; omega⟩ j + S ⟨16 + a.val, by have := a.isLt; omega⟩ j)) := by
  have hH := isMat_halves_rows3 h29 slices_S32x10000_o0_0_S16x10000 slices_S32x10000_o16_0_S16x10000
  unfold k3_pay6
  exact isMat_transpose_out3
    (isMat_addf3 (isMat_mulf3 (isMat_transpose_in3 h37 transposes_S10000x4_p1_0_S4x10000) (isMat_exp3 (isMat_mmD3 h35 hH)))
      (isMat_mmD3 h33 hH))
    transposes_S4x10000_p1_0_S10000x4

end Cert.KernelIdeal.Hand

end
-- ==== Proof.KI.Val3.lean ====
import proofs.«116956_g88691074663054_cont_9to1c4b_58_37_alg».proof.Proof.KI.Reg3
import proofs.«116956_g88691074663054_cont_9to1c4b_58_37_alg».proof.Proof.KI.Pay3
import proofs.«116956_g88691074663054_cont_9to1c4b_58_37_alg».proof.Proof.KI.Bands
import proofs.«116956_g88691074663054_cont_9to1c4b_58_37_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec

variable {F : FTy → Type} [FloatOps F]

theorem hz3 : (![0, 0] : Fin 2 → Nat) = fun _ => 0 := funext fun a => by fin_cases a <;> rfl

section
variable (c : Dev nD) (i : grid3.Coords) (arg1 : Memref sig .tc .vmem S400x10000 .f32) (harg1 : arg1.IsWhole) (arg2 : Memref sig .tc .vmem S10000x32 .bf16) (harg2 : arg2.IsWhole) (arg3 : Memref sig .tc .vmem S400x32 .bf16) (harg3 : arg3.IsWhole) (arg4 : Memref sig .tc .vmem S16x4 .f32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S400x4 .f32) (harg8 : arg8.IsWhole) (arg9 : Memref sig .tc .vmem S10000x4 .f32) (harg9 : arg9.IsWhole) (arg10 : Memref sig .tc .vmem S400x4 .f32) (harg10 : arg10.IsWhole) (arg11 : Memref sig .tc .vmem S10000x4 .f32) (harg11 : arg11.IsWhole) (arg12 : Memref sig .tc .vmem S32x10000 .f32) (harg12 : arg12.IsWhole)

section
variable (hc0 : cond3_0 i) (hc1 : ¬cond3_1 i) (hc2 : ¬cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32)

theorem out9_A3 :
    (outs3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).1 = k3_pay2 x0 x1 x3 x4 x7 := by
  unfold outs3_A; dsimp only
  rw [View.read_writes_eq_canon _ _ _ (cover3_A_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun3_A
  dsimp only
  sl_unfold_words
  rw [View.canon_unit_zero hz3]
  simp only [View.readAt_eq_ld, harg1.read_unread, harg2.read_unread, harg4.read_unread, harg5.read_unread, harg8.read_unread, View.ld_unit_zero (S := S400x10000) hz3, View.ld_unit_zero (S := S10000x32) hz3, View.ld_unit_zero (S := S16x4) hz3, View.ld_unit_zero (S := S400x4) hz3]

theorem sout_A3 :
    (outs3_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8).2.2 = k3_pay4 x0 x2 := by
  unfold outs3_A; dsimp only
  rw [View.read_writes_eq_canon _ _ _ (scover3_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun3_A
  dsimp only
  sl_unfold_words
  rw [View.canon_unit_zero hz3]
  simp only [View.readAt_eq_ld, harg1.read_unread, harg3.read_unread, View.ld_unit_zero (S := S400x10000) hz3, View.ld_unit_zero (S := S400x32) hz3]
end

section
variable (hc0 : ¬cond3_0 i) (hc1 : cond3_1 i) (hc2 : ¬cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32)

theorem out9_B3 :
    (outs3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1 = k3_pay2 x0 x1 x3 x4 x7 := by
  unfold outs3_B; dsimp only
  rw [View.read_writes_eq_canon _ _ _ (cover3_B_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_B
  dsimp only
  sl_unfold_words
  rw [View.canon_unit_zero hz3]
  simp only [View.readAt_eq_ld, harg1.read_unread, harg2.read_unread, harg4.read_unread, harg5.read_unread, harg8.read_unread, View.ld_unit_zero (S := S400x10000) hz3, View.ld_unit_zero (S := S10000x32) hz3, View.ld_unit_zero (S := S16x4) hz3, View.ld_unit_zero (S := S400x4) hz3]

theorem sout_B3 :
    (outs3_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2 = k3_pay5 x0 x2 xs0 := by
  unfold outs3_B; dsimp only
  rw [View.read_writes_eq_canon _ _ _ (scover3_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_B
  dsimp only
  sl_unfold_words
  rw [View.canon_unit_zero hz3]
  simp only [View.readAt_eq_ld, harg1.read_unread, harg3.read_unread, harg12.read_unread, View.ld_unit_zero (S := S400x10000) hz3, View.ld_unit_zero (S := S400x32) hz3, View.ld_unit_zero (S := S32x10000) hz3]
end

section
variable (hc0 : ¬cond3_0 i) (hc1 : cond3_1 i) (hc2 : cond3_2 i) (x0 : Vec F S400x10000 .f32) (x1 : Vec F S10000x32 .bf16) (x2 : Vec F S400x32 .bf16) (x3 : Vec F S16x4 .f32) (x4 : Vec F S16x4 .f32) (x5 : Vec F S16x4 .f32) (x6 : Vec F S16x4 .f32) (x7 : Vec F S400x4 .f32) (x8 : Vec F S10000x4 .f32) (xs0 : Vec F S32x10000 .f32)

theorem out9_C3 :
    (outs3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).1 = k3_pay2 x0 x1 x3 x4 x7 := by
  unfold outs3_C; dsimp only
  rw [View.read_writes_eq_canon _ _ _ (cover3_C_9 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_C
  dsimp only
  sl_unfold_words
  rw [View.canon_unit_zero hz3]
  simp only [View.readAt_eq_ld, harg1.read_unread, harg2.read_unread, harg4.read_unread, harg5.read_unread, harg8.read_unread, View.ld_unit_zero (S := S400x10000) hz3, View.ld_unit_zero (S := S10000x32) hz3, View.ld_unit_zero (S := S16x4) hz3, View.ld_unit_zero (S := S400x4) hz3]

theorem sout_C3 :
    (outs3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.2 = k3_pay5 x0 x2 xs0 := by
  unfold outs3_C; dsimp only
  rw [View.read_writes_eq_canon _ _ _ (scover3_C_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_C
  dsimp only
  sl_unfold_words
  rw [View.canon_unit_zero hz3]
  simp only [View.readAt_eq_ld, harg1.read_unread, harg3.read_unread, harg12.read_unread, View.ld_unit_zero (S := S400x10000) hz3, View.ld_unit_zero (S := S400x32) hz3, View.ld_unit_zero (S := S32x10000) hz3]

theorem out10_C3 :
    (outs3_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0).2.1 = k3_pay6 (k3_pay5 x0 x2 xs0) x5 x6 x8 := by
  unfold outs3_C; dsimp only
  rw [View.read_writes_eq_canon _ _ _ (cover3_C_10 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun3_C
  dsimp only
  sl_unfold_words
  rw [View.canon_unit_zero hz3, View.readCov_unit_zero (S := S32x10000) _ hz3]
  simp only [View.readAt_eq_ld, harg1.read_unread, harg3.read_unread, harg12.read_unread, harg6.read_unread, harg7.read_unread, harg9.read_unread, View.ld_unit_zero (S := S400x10000) hz3, View.ld_unit_zero (S := S400x32) hz3, View.ld_unit_zero (S := S32x10000) hz3, View.ld_unit_zero (S := S16x4) hz3, View.ld_unit_zero (S := S10000x4) hz3]
end
end

def band3 {b : ℕ} (X : Mat 10000 b) (n : ℕ) : Mat 400 b :=
  fun r q => if h : n < 25 then X ⟨400 * n + r.val, by have := r.isLt; omega⟩ q else 0

theorem band3_apply {b : ℕ} (X : Mat 10000 b) (n : ℕ) (hn : n < 25) (r : Fin 400) (q : Fin b) :
    band3 X n r q = X ⟨400 * n + r.val, by have := r.isLt; omega⟩ q := by
  unfold band3; rw [dif_pos hn]

def acc3 (P : Mat 10000 32) (A : Mat 10000 10000) (n : ℕ) : Mat 32 10000 :=
  fun a j => ∑ s ∈ Finset.range (n + 1), mmT (band3 P s) (band3 A s) a j

theorem acc3_zero (P : Mat 10000 32) (A : Mat 10000 10000) (a : Fin 32) (j : Fin 10000) :
    acc3 P A 0 a j = mmT (band3 P 0) (band3 A 0) a j := by
  show ∑ s ∈ Finset.range 1, mmT (band3 P s) (band3 A s) a j = _
  rw [Finset.sum_range_one]

theorem acc3_succ (P : Mat 10000 32) (A : Mat 10000 10000) (n : ℕ) (a : Fin 32) (j : Fin 10000) :
    acc3 P A (n + 1) a j = acc3 P A n a j + mmT (band3 P (n + 1)) (band3 A (n + 1)) a j := by
  unfold acc3; rw [Finset.sum_range_succ]

/-- After the last band the running sum is the sum over all 10000 rows: 25 bands of 400. -/
theorem acc3_last (P : Mat 10000 32) (A : Mat 10000 10000) (a : Fin 32) (j : Fin 10000) :
    acc3 P A 24 a j = ∑ i : Fin 10000, P i a * A i j := by
  show ∑ s ∈ Finset.range 25, mmT (band3 P s) (band3 A s) a j = _
  rw [Finset.sum_range, sum_bands (fun i => P i a * A i j)]
  refine Finset.sum_congr rfl fun s _ => ?_
  unfold mmT
  refine Finset.sum_congr rfl fun r _ => ?_
  rw [band3_apply P s.val s.isLt, band3_apply A s.val s.isLt]

theorem sum_pair_lo3 (h : Mat 10000 16) (A : Mat 10000 10000) (a : Fin 16) (ha : a.val < 32) (j : Fin 10000) :
    ∑ i : Fin 10000, pair h i ⟨a.val, ha⟩ * A i j = ∑ i : Fin 10000, h i a * A i j := by
  refine Finset.sum_congr rfl fun i _ => ?_
  unfold pair; rw [dif_pos (show (⟨a.val, ha⟩ : Fin 32).val < 16 from a.isLt)]

theorem sum_pair_hi3 (h : Mat 10000 16) (A : Mat 10000 10000) (a : Fin 16) (ha : 16 + a.val < 32) (j : Fin 10000) :
    ∑ i : Fin 10000, pair h i ⟨16 + a.val, ha⟩ * A i j = 0 := by
  refine Finset.sum_eq_zero fun i _ => ?_
  unfold pair; rw [dif_neg (show ¬(⟨16 + a.val, ha⟩ : Fin 32).val < 16 from by show ¬(16 + a.val < 16); omega), zero_mul]

theorem halves_acc3 (h : Mat 10000 16) (A : Mat 10000 10000) (a : Fin 16) (ha : a.val < 32) (ha' : 16 + a.val < 32) (j : Fin 10000) :
    acc3 (pair h) A 24 ⟨a.val, ha⟩ j + acc3 (pair h) A 24 ⟨16 + a.val, ha'⟩ j = ∑ i : Fin 10000, h i a * A i j := by
  rw [acc3_last, acc3_last, sum_pair_lo3, sum_pair_hi3, add_zero]

/-- Products of real matrices associate. -/
theorem mm_assoc3 {a k l b : ℕ} (A : Mat a k) (B : Mat k l) (C : Mat l b) (i : Fin a) (j : Fin b) :
    mm (mm A B) C i j = mm A (mm B C) i j := by
  unfold mm
  simp only [Finset.sum_mul, Finset.mul_sum]
  exact Finset.sum_comm.trans (Finset.sum_congr rfl fun x _ => Finset.sum_congr rfl fun y _ => mul_assoc _ _ _)

theorem band3_mm {k b : ℕ} (A : Mat 10000 k) (B : Mat k b) (n : ℕ) (hn : n < 25) (r : Fin 400) (q : Fin b) :
    mm (band3 A n) B r q = mm A B ⟨400 * n + r.val, by have := r.isLt; omega⟩ q := by
  unfold mm
  exact Finset.sum_congr rfl fun l _ => by rw [band3_apply A n hn]

theorem zr1_band3 (adj : Mat 10000 10000) (h1 : Mat 10000 16) (Wm Wl : Mat 16 4) (N1 : Mat 10000 4) (n : ℕ) (hn : n < 25)
    (r : Fin 400) (b : Fin 4) :
    band3 N1 n r b * Real.exp (mm (mm (band3 adj n) h1) Wl r b) + mm (mm (band3 adj n) h1) Wm r b
      = band3 (Zr1 adj h1 Wm Wl N1) n r b := by
  rw [band3_apply (Zr1 adj h1 Wm Wl N1) n hn, band3_apply N1 n hn, mm_assoc3, mm_assoc3, band3_mm _ _ n hn, band3_mm _ _ n hn]
  rfl

/-- Wᵀ · (hᵀ · adj) at (b, j) is adjᵀ · (h · W) at (j, b): the two sums are exchanged. -/
theorem contract3 (adj : Mat 10000 10000) (h : Mat 10000 16) (W : Mat 16 4) (j : Fin 10000) (b : Fin 4) :
    ∑ a : Fin 16, W a b * (∑ i : Fin 10000, h i a * adj i j) = mmT adj (mm h W) j b := by
  unfold mmT mm
  simp only [Finset.mul_sum]
  refine Finset.sum_comm.trans (Finset.sum_congr rfl fun i _ => Finset.sum_congr rfl fun a _ => ?_)
  ring

theorem zr2_acc3 (adj : Mat 10000 10000) (h : Mat 10000 16) (Wm Wl : Mat 16 4) (N2 : Mat 10000 4) (j : Fin 10000) (b : Fin 4) :
    N2 j b * Real.exp (∑ a : Fin 16, Wl a b * (acc3 (pair h) adj 24 ⟨a.val, by have := a.isLt; omega⟩ j + acc3 (pair h) adj 24 ⟨16 + a.val, by have := a.isLt; omega⟩ j))
        + ∑ a : Fin 16, Wm a b * (acc3 (pair h) adj 24 ⟨a.val, by have := a.isLt; omega⟩ j + acc3 (pair h) adj 24 ⟨16 + a.val, by have := a.isLt; omega⟩ j)
      = Zr2 adj h Wm Wl N2 j b := by
  simp only [halves_acc3]
  rw [contract3, contract3]
  rfl

variable (V : (c : Dev nD) → (b : Ref sig .tc) → Buf (Elt Ideal) ((c : Thread nD τ).loc b))

theorem idx3_0 : ∀ t : Fin cfg3.N, win3_0.index t (0 : Fin 2) = t.val ∧ win3_0.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)
theorem idx3_9 : ∀ t : Fin cfg3.N, win3_9.index t (0 : Fin 2) = t.val ∧ win3_9.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)

theorem blk3_0 (c : Dev nD) (t : Fin cfg3.N) (y : S400x10000.Idx) (i : S10000x10000.Idx)
    (hi0 : (i 0).val = 400 * t.val + (y 0).val) (hi1 : (i 1).val = (y 1).val) :
    (iblk3 V c 0 t : Vec Ideal S400x10000 .f32) y = (V c main_arg2 : S10000x10000.Idx → Elt Ideal .f32) i := by
  obtain ⟨e0, e1⟩ := idx3_0 t
  unfold iblk3
  rw [View.read_apply]
  show V c main_arg2 _ = V c main_arg2 _
  congr 1
  funext a; apply Fin.ext
  match a with
  | ⟨0, _⟩ => show win3_0.index t 0 * 400 + 1 * (y 0).val = (i 0).val; rw [e0, hi0]; omega
  | ⟨1, _⟩ => show win3_0.index t 1 * 10000 + 1 * (y 1).val = (i 1).val; rw [e1, hi1]; omega

theorem in3_0 (c : Dev nD) (X : Mat 10000 10000) (hX : IsMat (V c main_arg2) X) (t : Fin cfg3.N) :
    IsMat (iblk3 V c 0 t : Vec Ideal S400x10000 .f32) (band3 X t.val) := fun r k => by
  have ht : t.val < 25 := lt_of_lt_of_eq t.isLt (show cfg3.N = 25 from N_3)
  rw [blk3_0 V c t (ix2 r k) (ix2 ⟨400 * t.val + r.val, by have := r.isLt; omega⟩ k) rfl rfl, band3_apply X t.val ht]
  exact hX _ k

theorem blk3_2 (c : Dev nD) (t : Fin cfg3.N) (y : S400x32.Idx) (i : S10000x32.Idx)
    (hi0 : (i 0).val = 400 * t.val + (y 0).val) (hi1 : (i 1).val = (y 1).val) :
    (iblk3 V c 2 t : Vec Ideal S400x32 .bf16) y = (V c main_v2_1 : S10000x32.Idx → Elt Ideal .bf16) i := by
  obtain ⟨e0, e1⟩ := idx3_2 t
  unfold iblk3
  rw [View.read_apply]
  show V c main_v2_1 _ = V c main_v2_1 _
  congr 1
  funext a; apply Fin.ext
  match a with
  | ⟨0, _⟩ => show win3_2.index t 0 * 400 + 1 * (y 0).val = (i 0).val; rw [e0, hi0]; omega
  | ⟨1, _⟩ => show win3_2.index t 1 * 32 + 1 * (y 1).val = (i 1).val; rw [e1, hi1]; omega

theorem in3_2 (c : Dev nD) (X : Mat 10000 32) (hX : IsMat (V c main_v2_1) X) (t : Fin cfg3.N) :
    IsMat (iblk3 V c 2 t : Vec Ideal S400x32 .bf16) (band3 X t.val) := fun r k => by
  have ht : t.val < 25 := lt_of_lt_of_eq t.isLt (show cfg3.N = 25 from N_3)
  rw [blk3_2 V c t (ix2 r k) (ix2 ⟨400 * t.val + r.val, by have := r.isLt; omega⟩ k) rfl rfl, band3_apply X t.val ht]
  exact hX _ k

theorem blk3_7 (c : Dev nD) (t : Fin cfg3.N) (y : S400x4.Idx) (i : S10000x4.Idx)
    (hi0 : (i 0).val = 400 * t.val + (y 0).val) (hi1 : (i 1).val = (y 1).val) :
    (iblk3 V c 7 t : Vec Ideal S400x4 .f32) y = (V c main_arg9 : S10000x4.Idx → Elt Ideal .f32) i := by
  obtain ⟨e0, e1⟩ := idx3_7 t
  unfold iblk3
  rw [View.read_apply]
  show V c main_arg9 _ = V c main_arg9 _
  congr 1
  funext a; apply Fin.ext
  match a with
  | ⟨0, _⟩ => show win3_7.index t 0 * 400 + 1 * (y 0).val = (i 0).val; rw [e0, hi0]; omega
  | ⟨1, _⟩ => show win3_7.index t 1 * 4 + 1 * (y 1).val = (i 1).val; rw [e1, hi1]; omega

theorem in3_7 (c : Dev nD) (X : Mat 10000 4) (hX : IsMat (V c main_arg9) X) (t : Fin cfg3.N) :
    IsMat (iblk3 V c 7 t : Vec Ideal S400x4 .f32) (band3 X t.val) := fun r k => by
  have ht : t.val < 25 := lt_of_lt_of_eq t.isLt (show cfg3.N = 25 from N_3)
  rw [blk3_7 V c t (ix2 r k) (ix2 ⟨400 * t.val + r.val, by have := r.isLt; omega⟩ k) rfl rfl, band3_apply X t.val ht]
  exact hX _ k

theorem blk3_1 (c : Dev nD) (t : Fin cfg3.N) (y : S10000x32.Idx) :
    (iblk3 V c 1 t : Vec Ideal S10000x32 .bf16) y = (V c main_v2_0 : S10000x32.Idx → Elt Ideal .bf16) y := by
  obtain ⟨e0, e1⟩ := idx3_1 t
  unfold iblk3
  rw [View.read_apply]
  show V c main_v2_0 _ = V c main_v2_0 _
  congr 1
  funext a; apply Fin.ext
  match a with
  | ⟨0, _⟩ => show win3_1.index t 0 * 10000 + 1 * (y 0).val = (y 0).val; rw [e0]; omega
  | ⟨1, _⟩ => show win3_1.index t 1 * 32 + 1 * (y 1).val = (y 1).val; rw [e1]; omega

theorem in3_1 (c : Dev nD) (X : Mat 10000 32) (hX : IsMat (V c main_v2_0) X) (t : Fin cfg3.N) :
    IsMat (iblk3 V c 1 t : Vec Ideal S10000x32 .bf16) X := fun p q => by
  rw [blk3_1 V c t (ix2 p q)]; exact hX p q

theorem blk3_3 (c : Dev nD) (t : Fin cfg3.N) (y : S16x4.Idx) :
    (iblk3 V c 3 t : Vec Ideal S16x4 .f32) y = (V c main_arg4 : S16x4.Idx → Elt Ideal .f32) y := by
  obtain ⟨e0, e1⟩ := idx3_3 t
  unfold iblk3
  rw [View.read_apply]
  show V c main_arg4 _ = V c main_arg4 _
  congr 1
  funext a; apply Fin.ext
  match a with
  | ⟨0, _⟩ => show win3_3.index t 0 * 16 + 1 * (y 0).val = (y 0).val; rw [e0]; omega
  | ⟨1, _⟩ => show win3_3.index t 1 * 4 + 1 * (y 1).val = (y 1).val; rw [e1]; omega

theorem in3_3 (c : Dev nD) (X : Mat 16 4) (hX : IsMat (V c main_arg4) X) (t : Fin cfg3.N) :
    IsMat (iblk3 V c 3 t : Vec Ideal S16x4 .f32) X := fun p q => by
  rw [blk3_3 V c t (ix2 p q)]; exact hX p q

theorem blk3_4 (c : Dev nD) (t : Fin cfg3.N) (y : S16x4.Idx) :
    (iblk3 V c 4 t : Vec Ideal S16x4 .f32) y = (V c main_arg5 : S16x4.Idx → Elt Ideal .f32) y := by
  obtain ⟨e0, e1⟩ := idx3_4 t
  unfold iblk3
  rw [View.read_apply]
  show V c main_arg5 _ = V c main_arg5 _
  congr 1
  funext a; apply Fin.ext
  match a with
  | ⟨0, _⟩ => show win3_4.index t 0 * 16 + 1 * (y 0).val = (y 0).val; rw [e0]; omega
  | ⟨1, _⟩ => show win3_4.index t 1 * 4 + 1 * (y 1).val = (y 1).val; rw [e1]; omega

theorem in3_4 (c : Dev nD) (X : Mat 16 4) (hX : IsMat (V c main_arg5) X) (t : Fin cfg3.N) :
    IsMat (iblk3 V c 4 t : Vec Ideal S16x4 .f32) X := fun p q => by
  rw [blk3_4 V c t (ix2 p q)]; exact hX p q

theorem blk3_5 (c : Dev nD) (t : Fin cfg3.N) (y : S16x4.Idx) :
    (iblk3 V c 5 t : Vec Ideal S16x4 .f32) y = (V c main_arg7 : S16x4.Idx → Elt Ideal .f32) y := by
  obtain ⟨e0, e1⟩ := idx3_5 t
  unfold iblk3
  rw [View.read_apply]
  show V c main_arg7 _ = V c main_arg7 _
  congr 1
  funext a; apply Fin.ext
  match a with
  | ⟨0, _⟩ => show win3_5.index t 0 * 16 + 1 * (y 0).val = (y 0).val; rw [e0]; omega
  | ⟨1, _⟩ => show win3_5.index t 1 * 4 + 1 * (y 1).val = (y 1).val; rw [e1]; omega

theorem in3_5 (c : Dev nD) (X : Mat 16 4) (hX : IsMat (V c main_arg7) X) (t : Fin cfg3.N) :
    IsMat (iblk3 V c 5 t : Vec Ideal S16x4 .f32) X := fun p q => by
  rw [blk3_5 V c t (ix2 p q)]; exact hX p q

theorem blk3_6 (c : Dev nD) (t : Fin cfg3.N) (y : S16x4.Idx) :
    (iblk3 V c 6 t : Vec Ideal S16x4 .f32) y = (V c main_arg8 : S16x4.Idx → Elt Ideal .f32) y := by
  obtain ⟨e0, e1⟩ := idx3_6 t
  unfold iblk3
  rw [View.read_apply]
  show V c main_arg8 _ = V c main_arg8 _
  congr 1
  funext a; apply Fin.ext
  match a with
  | ⟨0, _⟩ => show win3_6.index t 0 * 16 + 1 * (y 0).val = (y 0).val; rw [e0]; omega
  | ⟨1, _⟩ => show win3_6.index t 1 * 4 + 1 * (y 1).val = (y 1).val; rw [e1]; omega

theorem in3_6 (c : Dev nD) (X : Mat 16 4) (hX : IsMat (V c main_arg8) X) (t : Fin cfg3.N) :
    IsMat (iblk3 V c 6 t : Vec Ideal S16x4 .f32) X := fun p q => by
  rw [blk3_6 V c t (ix2 p q)]; exact hX p q

theorem blk3_8 (c : Dev nD) (t : Fin cfg3.N) (y : S10000x4.Idx) :
    (iblk3 V c 8 t : Vec Ideal S10000x4 .f32) y = (V c main_arg10 : S10000x4.Idx → Elt Ideal .f32) y := by
  obtain ⟨e0, e1⟩ := idx3_8 t
  unfold iblk3
  rw [View.read_apply]
  show V c main_arg10 _ = V c main_arg10 _
  congr 1
  funext a; apply Fin.ext
  match a with
  | ⟨0, _⟩ => show win3_8.index t 0 * 10000 + 1 * (y 0).val = (y 0).val; rw [e0]; omega
  | ⟨1, _⟩ => show win3_8.index t 1 * 4 + 1 * (y 1).val = (y 1).val; rw [e1]; omega

theorem in3_8 (c : Dev nD) (X : Mat 10000 4) (hX : IsMat (V c main_arg10) X) (t : Fin cfg3.N) :
    IsMat (iblk3 V c 8 t : Vec Ideal S10000x4 .f32) X := fun p q => by
  rw [blk3_8 V c t (ix2 p q)]; exact hX p q

structure Entry3 (c : Dev nD) (adj : Mat 10000 10000) (h1 h2 : Mat 10000 16) (Wm1 Wl1 Wm2 Wl2 : Mat 16 4)
    (N1 N2 : Mat 10000 4) : Prop where
  hadj : IsMat (V c main_arg2) adj
  hh1 : IsMat (V c main_v2_0) (pair h1)
  hh2 : IsMat (V c main_v2_1) (pair h2)
  hm1 : IsMat (V c main_arg4) Wm1
  hl1 : IsMat (V c main_arg5) Wl1
  hm2 : IsMat (V c main_arg7) Wm2
  hl2 : IsMat (V c main_arg8) Wl2
  hn1 : IsMat (V c main_arg9) N1
  hn2 : IsMat (V c main_arg10) N2

theorem pay2_at3 {c : Dev nD} {adj : Mat 10000 10000} {h1 h2 : Mat 10000 16} {Wm1 Wl1 Wm2 Wl2 : Mat 16 4} {N1 N2 : Mat 10000 4} (E : Entry3 V c adj h1 h2 Wm1 Wl1 Wm2 Wl2 N1 N2) (t : Fin cfg3.N) :
    IsMat (k3_pay2 (iblk3 V c 0 t) (iblk3 V c 1 t) (iblk3 V c 3 t) (iblk3 V c 4 t) (iblk3 V c 7 t))
      (band3 (Zr1 adj h1 Wm1 Wl1 N1) t.val) := by
  have ht : t.val < 25 := lt_of_lt_of_eq t.isLt (show cfg3.N = 25 from N_3)
  exact isMat_congr3
    (pay2_isMat3 _ _ _ _ _ (band3 adj t.val) h1 Wm1 Wl1 (band3 N1 t.val) (in3_0 V c adj E.hadj t) (in3_1 V c (pair h1) E.hh1 t)
      (in3_3 V c Wm1 E.hm1 t) (in3_4 V c Wl1 E.hl1 t) (in3_7 V c N1 E.hn1 t))
    (fun r b => zr1_band3 adj h1 Wm1 Wl1 N1 t.val ht r b)

theorem out9_isMat3 {c : Dev nD} {adj : Mat 10000 10000} {h1 h2 : Mat 10000 16} {Wm1 Wl1 Wm2 Wl2 : Mat 16 4} {N1 N2 : Mat 10000 4} (E : Entry3 V c adj h1 h2 Wm1 Wl1 Wm2 Wl2 N1 N2) (t : Fin cfg3.N) :
    IsMat (outsAt3 V c t.val t.isLt).1 (band3 (Zr1 adj h1 Wm1 Wl1 N1) t.val) := by
  have key := pay2_at3 V E t
  by_cases k0 : t.val % 25 = 0
  · have e := congrArg Prod.fst (outsAt3_A V c t k0)
    dsimp only [at3_A] at e
    rw [e, out9_A3]; exact key
  · by_cases k24 : t.val % 25 = 24
    · have e := congrArg Prod.fst (outsAt3_C V c t k0 k24)
      dsimp only [at3_C] at e
      rw [e, out9_C3]; exact key
    · have e := congrArg Prod.fst (outsAt3_B V c t k0 k24)
      dsimp only [at3_B] at e
      rw [e, out9_B3]; exact key

/-- After point n the carried sum is the sum of the shares of bands 0 … n: set at the first point, added to at every later one. -/
theorem scratch_isMat3 {c : Dev nD} {adj : Mat 10000 10000} {h1 h2 : Mat 10000 16} {Wm1 Wl1 Wm2 Wl2 : Mat 16 4} {N1 N2 : Mat 10000 4} (E : Entry3 V c adj h1 h2 Wm1 Wl1 Wm2 Wl2 N1 N2) :
    ∀ (n : ℕ) (hn : n < cfg3.N), IsMat (outsAt3 V c n hn).2.2 (acc3 (pair h2) adj n)
  | 0, hn => by
    have e := congrArg (fun p => p.2.2) (outsAt3_A V c (⟨0, hn⟩ : Fin cfg3.N) (Nat.zero_mod 25))
    dsimp only [at3_A] at e
    rw [e, sout_A3]
    exact isMat_congr3
      (pay4_isMat3 _ _ (band3 adj 0) (band3 (pair h2) 0) (in3_0 V c adj E.hadj (⟨0, hn⟩ : Fin cfg3.N)) (in3_2 V c (pair h2) E.hh2 (⟨0, hn⟩ : Fin cfg3.N)))
      (fun a j => (acc3_zero (pair h2) adj a j).symm)
  | n + 1, hn => by
    have hN : cfg3.N = 25 := N_3
    have k0 : ¬(⟨n + 1, hn⟩ : Fin cfg3.N).val % 25 = 0 := by show ¬(n + 1) % 25 = 0; omega
    have ih := scratch_isMat3 E n (Nat.lt_of_succ_lt hn)
    have step : IsMat (k3_pay5 (iblk3 V c 0 (⟨n + 1, hn⟩ : Fin cfg3.N)) (iblk3 V c 2 (⟨n + 1, hn⟩ : Fin cfg3.N)) (outsAt3 V c n (Nat.lt_of_succ_lt hn)).2.2)
        (acc3 (pair h2) adj (n + 1)) :=
      isMat_congr3
        (pay5_isMat3 _ _ _ (band3 adj (n + 1)) (band3 (pair h2) (n + 1)) (acc3 (pair h2) adj n)
          (in3_0 V c adj E.hadj (⟨n + 1, hn⟩ : Fin cfg3.N)) (in3_2 V c (pair h2) E.hh2 (⟨n + 1, hn⟩ : Fin cfg3.N)) ih)
        (fun a j => (acc3_succ (pair h2) adj n a j).symm)
    by_cases k24 : (⟨n + 1, hn⟩ : Fin cfg3.N).val % 25 = 24
    · have e := congrArg (fun p => p.2.2) (outsAt3_C V c (⟨n + 1, hn⟩ : Fin cfg3.N) k0 k24)
      dsimp only [at3_C] at e
      rw [e, sout_C3]; exact step
    · have e := congrArg (fun p => p.2.2) (outsAt3_B V c (⟨n + 1, hn⟩ : Fin cfg3.N) k0 k24)
      dsimp only [at3_B] at e
      rw [e, sout_B3]; exact step

theorem out10_isMat3 {c : Dev nD} {adj : Mat 10000 10000} {h1 h2 : Mat 10000 16} {Wm1 Wl1 Wm2 Wl2 : Mat 16 4} {N1 N2 : Mat 10000 4} (E : Entry3 V c adj h1 h2 Wm1 Wl1 Wm2 Wl2 N1 N2) (t : Fin cfg3.N) (k24 : t.val % 25 = 24) :
    IsMat (outsAt3 V c t.val t.isLt).2.1 (Zr2 adj h2 Wm2 Wl2 N2) := by
  have ht : t.val < 25 := lt_of_lt_of_eq t.isLt (show cfg3.N = 25 from N_3)
  have h24 : t.val = 24 := by omega
  have k0 : ¬t.val % 25 = 0 := by omega
  have eq := outsAt3_C V c t k0 k24
  have e5 := congrArg (fun p => p.2.2) eq
  dsimp only [at3_C] at e5
  rw [sout_C3] at e5
  have e10 := congrArg (fun p => p.2.1) eq
  dsimp only [at3_C] at e10
  rw [out10_C3] at e10
  have hS := isMat_congr3 (scratch_isMat3 V E t.val t.isLt) (Y := acc3 (pair h2) adj 24) (fun a j => by rw [h24])
  rw [e10, ← e5]
  exact isMat_congr3
    (pay6_isMat3 _ _ _ _ (acc3 (pair h2) adj 24) Wm2 Wl2 N2 hS (in3_5 V c Wm2 E.hm2 t) (in3_6 V c Wl2 E.hl2 t) (in3_8 V c N2 E.hn2 t))
    (fun j b => zr2_acc3 adj h2 Wm2 Wl2 N2 j b)

abbrev G3 (Z : Mat 10000 4) : S10000x4.Idx → Elt Ideal .f32 := fun i => ((Z (i 0) (i 1) : ℝ) : EReal)

theorem band_at3 {b : ℕ} {x : (⟨2, ![400, b]⟩ : Shape).Idx → EReal} {Z : Mat 10000 b} {n : ℕ} (hn : n < 25)
    (hx : IsMat x (band3 Z n)) (r : Fin 400) (q : Fin b) (i0 : Fin 10000) (i1 : Fin b)
    (hi0 : i0.val = 400 * n + r.val) (hi1 : i1.val = q.val) : x (ix2 r q) = ((Z i0 i1 : ℝ) : EReal) := by
  rw [hx r q, band3_apply Z n hn]
  have e0 : (⟨400 * n + r.val, by have := r.isLt; omega⟩ : Fin 10000) = i0 := Fin.ext hi0.symm
  have e1 : q = i1 := Fin.ext hi1.symm
  rw [e0, e1]

theorem whole_at3 {a b : ℕ} {x : (⟨2, ![a, b]⟩ : Shape).Idx → EReal} {Z : Mat a b} (hx : IsMat x Z)
    (p : Fin a) (q : Fin b) (i0 : Fin a) (i1 : Fin b) (hi0 : i0.val = p.val) (hi1 : i1.val = q.val) :
    x (ix2 p q) = ((Z i0 i1 : ℝ) : EReal) := by
  rw [hx p q, show p = i0 from Fin.ext hi0.symm, show q = i1 from Fin.ext hi1.symm]

theorem flushed3_9_eq {c : Dev nD} {adj : Mat 10000 10000} {h1 h2 : Mat 10000 16} {Wm1 Wl1 Wm2 Wl2 : Mat 16 4} {N1 N2 : Mat 10000 4} (E : Entry3 V c adj h1 h2 Wm1 Wl1 Wm2 Wl2 N1 N2) (t : Fin cfg3.N) :
    (dat3 V c).flushed 9 t = ((cfg3.win 9).blk t).view.read (Elt Ideal) (G3 (Zr1 adj h1 Wm1 Wl1 N1)) := by
  show (cfg3.win 9).cut (grid3.coords t) ((dat3 V c).after 9 t) = _
  rw [after3_9]
  obtain ⟨e0, e1⟩ := idx3_9 t
  have ht : t.val < 25 := lt_of_lt_of_eq t.isLt (show cfg3.N = 25 from N_3)
  funext j
  rw [View.read_apply]
  show (outsAt3 V c t.val t.isLt).1 ((cfg3.win 9).xinj (grid3.coords t) j)
    = G3 (Zr1 adj h1 Wm1 Wl1 N1) (((cfg3.win 9).blk t).view.emb j)
  refine (congrArg (outsAt3 V c t.val t.isLt).1 (eq_ix2 (n0 := 400) (n1 := 4) ((cfg3.win 9).xinj (grid3.coords t) j))).trans ?_
  refine band_at3 ht (out9_isMat3 V E t) _ _ _ _ ?_ ?_
  · show win3_9.index t 0 * 400 + 1 * (j 0).val = 400 * t.val + (j 0).val; rw [e0]; omega
  · show win3_9.index t 1 * 4 + 1 * (j 1).val = (j 1).val; rw [e1]; omega

theorem flushed3_10_eq {c : Dev nD} {adj : Mat 10000 10000} {h1 h2 : Mat 10000 16} {Wm1 Wl1 Wm2 Wl2 : Mat 16 4} {N1 N2 : Mat 10000 4} (E : Entry3 V c adj h1 h2 Wm1 Wl1 Wm2 Wl2 N1 N2) (t : Fin cfg3.N) (hf : (cfg3.win 10).flush t = true) :
    (dat3 V c).flushed 10 t = ((cfg3.win 10).blk t).view.read (Elt Ideal) (G3 (Zr2 adj h2 Wm2 Wl2 N2)) := by
  have k24 : t.val % 25 = 24 := (flush3_10 t).mp hf
  show (cfg3.win 10).cut (grid3.coords t) ((dat3 V c).after 10 t) = _
  rw [after3_10]
  obtain ⟨e0, e1⟩ := idx3_10 t
  funext j
  rw [View.read_apply]
  show (outsAt3 V c t.val t.isLt).2.1 ((cfg3.win 10).xinj (grid3.coords t) j)
    = G3 (Zr2 adj h2 Wm2 Wl2 N2) (((cfg3.win 10).blk t).view.emb j)
  refine (congrArg (outsAt3 V c t.val t.isLt).2.1 (eq_ix2 (n0 := 10000) (n1 := 4) ((cfg3.win 10).xinj (grid3.coords t) j))).trans ?_
  refine whole_at3 (out10_isMat3 V E t k24) _ _ _ _ ?_ ?_
  · show win3_10.index t 0 * 10000 + 1 * (j 0).val = (j 0).val; rw [e0]; omega
  · show win3_10.index t 1 * 4 + 1 * (j 1).val = (j 1).val; rw [e1]; omega

theorem mem_blk3_9 (t : Fin cfg3.N) (i : S10000x4.Idx) :
    i ∈ ((cfg3.win 9).blk t).view.set ↔ ∀ a : Fin 2, win3_9.index t a * S400x4.size a ≤ (i a).val ∧ (i a).val < win3_9.index t a * S400x4.size a + S400x4.size a := by
  show i ∈ ((View.whole main_v3_0).slice (win3_9.rect t)).set ↔ _
  rw [View.set_slice_whole, Rect.mem_set_unit]
  exact Iff.rfl

theorem mem_blk3_10 (t : Fin cfg3.N) (i : S10000x4.Idx) :
    i ∈ ((cfg3.win 10).blk t).view.set ↔ ∀ a : Fin 2, win3_10.index t a * S10000x4.size a ≤ (i a).val ∧ (i a).val < win3_10.index t a * S10000x4.size a + S10000x4.size a := by
  show i ∈ ((View.whole main_v3_1).slice (win3_10.rect t)).set ↔ _
  rw [View.set_slice_whole, Rect.mem_set_unit]
  exact Iff.rfl

theorem cover3_9 (i : S10000x4.Idx) : ∃ t : Fin cfg3.N, (cfg3.win 9).flush t = true ∧ i ∈ ((cfg3.win 9).blk t).view.set := by
  have hi0 : (i 0).val < 10000 := (i 0).isLt
  have hi1 : (i 1).val < 4 := (i 1).isLt
  refine ⟨⟨(i 0).val / 400, by show (i 0).val / 400 < 25; omega⟩, flush3_9 _, ?_⟩
  rw [mem_blk3_9]
  obtain ⟨e0, e1⟩ := idx3_9 ⟨(i 0).val / 400, by show (i 0).val / 400 < 25; omega⟩
  intro a
  match a with
  | ⟨0, _⟩ => show win3_9.index _ (0 : Fin 2) * 400 ≤ (i 0).val ∧ (i 0).val < win3_9.index _ (0 : Fin 2) * 400 + 400; rw [e0]; show (i 0).val / 400 * 400 ≤ _ ∧ _ < (i 0).val / 400 * 400 + 400; omega
  | ⟨1, _⟩ => show win3_9.index _ (1 : Fin 2) * 4 ≤ (i 1).val ∧ (i 1).val < win3_9.index _ (1 : Fin 2) * 4 + 4; rw [e1]; omega

theorem cover3_10 (i : S10000x4.Idx) : ∃ t : Fin cfg3.N, (cfg3.win 10).flush t = true ∧ i ∈ ((cfg3.win 10).blk t).view.set := by
  have hi0 : (i 0).val < 10000 := (i 0).isLt
  have hi1 : (i 1).val < 4 := (i 1).isLt
  refine ⟨⟨24, by show 24 < 25; omega⟩, (flush3_10 _).mpr rfl, ?_⟩
  rw [mem_blk3_10]
  obtain ⟨e0, e1⟩ := idx3_10 ⟨24, by show 24 < 25; omega⟩
  intro a
  match a with
  | ⟨0, _⟩ => show win3_10.index _ (0 : Fin 2) * 10000 ≤ (i 0).val ∧ (i 0).val < win3_10.index _ (0 : Fin 2) * 10000 + 10000; rw [e0]; omega
  | ⟨1, _⟩ => show win3_10.index _ (1 : Fin 2) * 4 ≤ (i 1).val ∧ (i 1).val < win3_10.index _ (1 : Fin 2) * 4 + 4; rw [e1]; omega

/-- Both latent samples as real matrices: the first band by band, the second from the finished sum. -/
theorem val3 (c : Dev nD) (adj : Mat 10000 10000) (h1 h2 : Mat 10000 16) (Wm1 Wl1 Wm2 Wl2 : Mat 16 4) (N1 N2 : Mat 10000 4)
    (hadj : IsMat (V c main_arg2) adj) (hh1 : IsMat (V c main_v2_0) (pair h1)) (hh2 : IsMat (V c main_v2_1) (pair h2))
    (hm1 : IsMat (V c main_arg4) Wm1) (hl1 : IsMat (V c main_arg5) Wl1) (hm2 : IsMat (V c main_arg7) Wm2) (hl2 : IsMat (V c main_arg8) Wl2)
    (hn1 : IsMat (V c main_arg9) N1) (hn2 : IsMat (V c main_arg10) N2) :
    IsMat ((dat3 V c).arrAt 9 cfg3.N) (Zr1 adj h1 Wm1 Wl1 N1) ∧ IsMat ((dat3 V c).arrAt 10 cfg3.N) (Zr2 adj h2 Wm2 Wl2 N2) := by
  have E : Entry3 V c adj h1 h2 Wm1 Wl1 Wm2 Wl2 N1 N2 := ⟨hadj, hh1, hh2, hm1, hl1, hm2, hl2, hn1, hn2⟩
  have e9 : (dat3 V c).arrAt 9 cfg3.N = G3 (Zr1 adj h1 Wm1 Wl1 N1) :=
    (dat3 V c).arrAt_eq_of_cover 9 (G3 (Zr1 adj h1 Wm1 Wl1 N1)) (fun t _ => flushed3_9_eq V E t) cover3_9
  have e10 : (dat3 V c).arrAt 10 cfg3.N = G3 (Zr2 adj h2 Wm2 Wl2 N2) :=
    (dat3 V c).arrAt_eq_of_cover 10 (G3 (Zr2 adj h2 Wm2 Wl2 N2)) (fun t hf => flushed3_10_eq V E t hf) cover3_10
  refine ⟨fun p q => ?_, fun p q => ?_⟩
  · rw [e9]
  · rw [e10]

end Cert.KernelIdeal.Hand

end
-- ==== Proof.KI.Val4.lean ====
import proofs.«116956_g88691074663054_cont_9to1c4b_58_37_alg».proof.Proof.KI.Reg4
import proofs.«116956_g88691074663054_cont_9to1c4b_58_37_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

theorem mmL4_0 (i : S400x10000.Idx) (q : dot_S400x4_S10000x4_S400x10000_1_1_0_0_n_n.contr.Idx) :
    (dot_S400x4_S10000x4_S400x10000_1_1_0_0_n_n.lhsIdx i q 0).val = (i 0).val := by
  unfold DotDims.lhsIdx
  rw [dif_neg (show ¬(0 : Fin S400x4.rank) ∈ dot_S400x4_S10000x4_S400x10000_1_1_0_0_n_n.lhsBatch by decide), dif_pos (show (0 : Fin S400x4.rank) ∈ dot_S400x4_S10000x4_S400x10000_1_1_0_0_n_n.lhsNonContracting by decide)]
  rfl
theorem mmL4_1 (i : S400x10000.Idx) (q : dot_S400x4_S10000x4_S400x10000_1_1_0_0_n_n.contr.Idx) :
    (dot_S400x4_S10000x4_S400x10000_1_1_0_0_n_n.lhsIdx i q 1).val = (q ⟨0, by decide⟩).val :=
  dot_S400x4_S10000x4_S400x10000_1_1_0_0_n_n.lhsIdx_val_of_single rfl i q
theorem mmR4_0 (i : S400x10000.Idx) (q : dot_S400x4_S10000x4_S400x10000_1_1_0_0_n_n.contr.Idx) :
    (dot_S400x4_S10000x4_S400x10000_1_1_0_0_n_n.rhsIdx i q 0).val = (i 1).val := by
  unfold DotDims.rhsIdx
  rw [dif_neg (show ¬(0 : Fin S10000x4.rank) ∈ dot_S400x4_S10000x4_S400x10000_1_1_0_0_n_n.rhsBatch by decide), dif_pos (show (0 : Fin S10000x4.rank) ∈ dot_S400x4_S10000x4_S400x10000_1_1_0_0_n_n.rhsNonContracting by decide)]
  rfl
theorem mmR4_1 (i : S400x10000.Idx) (q : dot_S400x4_S10000x4_S400x10000_1_1_0_0_n_n.contr.Idx) :
    (dot_S400x4_S10000x4_S400x10000_1_1_0_0_n_n.rhsIdx i q 1).val = (q ⟨0, by decide⟩).val :=
  dot_S400x4_S10000x4_S400x10000_1_1_0_0_n_n.rhsIdx_val_of_single rfl i q

theorem mm4_apply (x0 : FVec Ideal S400x4 .f32) (x1 : FVec Ideal S10000x4 .f32) (i : S400x10000.Idx) :
    matmul dot_S400x4_S10000x4_S400x10000_1_1_0_0_n_n none x0 x1 (constant S400x10000 .f32 0x00000000#32) i
      = ∑ k : Fin 4, x0 (ix2 (i 0) k) * x1 (ix2 (i 1) k) := by
  simp only [matmul]
  rw [Ideal.matmul_constant_zero_apply, ← Equiv.sum_comp (ValueIdx.contrEquiv1 dot_S400x4_S10000x4_S400x10000_1_1_0_0_n_n 4 rfl rfl).symm]
  refine Finset.sum_congr rfl fun k _ => ?_
  have hk := ValueIdx.contrEquiv1_symm_val dot_S400x4_S10000x4_S400x10000_1_1_0_0_n_n 4 rfl rfl k
  have el : dot_S400x4_S10000x4_S400x10000_1_1_0_0_n_n.lhsIdx i ((ValueIdx.contrEquiv1 dot_S400x4_S10000x4_S400x10000_1_1_0_0_n_n 4 rfl rfl).symm k) = ix2 (i 0) k := funext fun a => Fin.ext (by
    match a with
    | ⟨0, _⟩ => exact mmL4_0 _ _
    | ⟨1, _⟩ => exact (mmL4_1 _ _).trans hk)
  have er : dot_S400x4_S10000x4_S400x10000_1_1_0_0_n_n.rhsIdx i ((ValueIdx.contrEquiv1 dot_S400x4_S10000x4_S400x10000_1_1_0_0_n_n 4 rfl rfl).symm k) = ix2 (i 1) k := funext fun a => Fin.ext (by
    match a with
    | ⟨0, _⟩ => exact mmR4_0 _ _
    | ⟨1, _⟩ => exact (mmR4_1 _ _).trans hk)
  exact congrArg₂ (· * ·) (congrArg x0 el) (congrArg x1 er)

theorem mm4_real (x0 : FVec Ideal S400x4 .f32) (x1 : FVec Ideal S10000x4 .f32) (A : Mat 400 4) (B : Mat 10000 4)
    (h0 : IsMat x0 A) (h1 : IsMat x1 B) (r : Fin 400) (q : Fin 10000) :
    matmul dot_S400x4_S10000x4_S400x10000_1_1_0_0_n_n none x0 x1 (constant S400x10000 .f32 0x00000000#32) (ix2 r q)
      = ((∑ b : Fin 4, A r b * B q b : ℝ) : EReal) := by
  rw [mm4_apply]
  show ∑ k : Fin 4, x0 (ix2 r k) * x1 (ix2 q k) = _
  simp only [h0 r, h1 q]
  exact coe_sum_mul _ _

theorem pay4_real (x0 : Vec Ideal S400x4 .f32) (x1 : Vec Ideal S10000x4 .f32) (A : Mat 400 4) (B : Mat 10000 4)
    (h0 : IsMat x0 A) (h1 : IsMat x1 B) (r : Fin 400) (q : Fin 10000) :
    k4_pay1 x0 x1 (ix2 r q) = (((1 + Real.exp (-(∑ b : Fin 4, A r b * B q b)))⁻¹ : ℝ) : EReal) := by
  unfold k4_pay1
  rw [shapeCast_self, shapeCast_self]
  refine (congrArg (FloatOps.logistic (F := Ideal) (φ := .f32)) (mm4_real x0 x1 A B h0 h1 r q)).trans ?_
  rw [Ideal.logistic_def, Ideal.logistic_coe]

variable (V : (c : Dev nD) → (b : Ref sig .tc) → Buf (Elt Ideal) ((c : Thread nD τ).loc b))

theorem hz4 : (![0, 0] : Fin 2 → Nat) = fun _ => 0 := funext fun a => by fin_cases a <;> rfl

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

abbrev G4 (Z1 Z2 : Mat 10000 4) : S10000x10000.Idx → Elt Ideal .f32 :=
  fun i => ((Ar Z1 Z2 (i 0) (i 1) : ℝ) : EReal)

theorem blk4_0 (c : Dev nD) (t : Fin cfg4.N) (y : S400x4.Idx) (i : S10000x4.Idx)
    (hi0 : (i 0).val = 400 * t.val + (y 0).val) (hi1 : (i 1).val = (y 1).val) :
    (iblk4 V c 0 t : Vec Ideal S400x4 .f32) y = (V c main_v3_0 : S10000x4.Idx → Elt Ideal .f32) i := by
  obtain ⟨e0, e1, -⟩ := idx_facts4 t
  unfold iblk4
  rw [View.read_apply]
  show V c main_v3_0 _ = V c main_v3_0 _
  congr 1
  funext a; apply Fin.ext
  match a with
  | ⟨0, _⟩ => show win4_0.index t 0 * 400 + 1 * (y 0).val = (i 0).val; rw [e0, hi0]; omega
  | ⟨1, _⟩ => show win4_0.index t 1 * 4 + 1 * (y 1).val = (i 1).val; rw [e1, hi1]; omega

theorem blk4_1 (c : Dev nD) (t : Fin cfg4.N) (y : S10000x4.Idx) :
    (iblk4 V c 1 t : Vec Ideal S10000x4 .f32) y = (V c main_v3_1 : S10000x4.Idx → Elt Ideal .f32) y := by
  obtain ⟨-, -, e2, e3, -⟩ := idx_facts4 t
  unfold iblk4
  rw [View.read_apply]
  show V c main_v3_1 _ = V c main_v3_1 _
  congr 1
  funext a; apply Fin.ext
  match a with
  | ⟨0, _⟩ => show win4_1.index t 0 * 10000 + 1 * (y 0).val = (y 0).val; rw [e2]; omega
  | ⟨1, _⟩ => show win4_1.index t 1 * 4 + 1 * (y 1).val = (y 1).val; rw [e3]; omega

theorem pay4_blk (x0 : Vec Ideal S400x4 .f32) (x1 : Vec Ideal S10000x4 .f32) (Z1 Z2 : Mat 10000 4)
    (n : ℕ) (hn : n < 25)
    (h0 : ∀ (r : Fin 400) (k : Fin 4), x0 (ix2 r k) = ((Z1 ⟨400 * n + r.val, by have := r.isLt; omega⟩ k : ℝ) : EReal))
    (h1 : IsMat x1 Z2) (r : Fin 400) (q : Fin 10000) (i : S10000x10000.Idx)
    (hi0 : (i 0).val = 400 * n + r.val) (hi1 : (i 1).val = q.val) :
    k4_pay1 x0 x1 (ix2 r q) = G4 Z1 Z2 i := by
  rw [pay4_real x0 x1 (fun r k => Z1 ⟨400 * n + r.val, by have := r.isLt; omega⟩ k) Z2 h0 h1 r q]
  have e0 : (⟨400 * n + r.val, by have := r.isLt; omega⟩ : Fin 10000) = i 0 := Fin.ext hi0.symm
  have e1 : q = i 1 := Fin.ext hi1.symm
  exact congrArg₂ (fun (a : Fin 10000) (b : Fin 10000) => ((Ar Z1 Z2 a b : ℝ) : EReal)) e0 e1

theorem flushed4_eq (c : Dev nD) (Z1 Z2 : Mat 10000 4) (h1 : IsMat (V c main_v3_0) Z1) (h2 : IsMat (V c main_v3_1) Z2)
    (t : Fin cfg4.N) :
    (dat4 V c).flushed 2 t = ((cfg4.win 2).blk t).view.read (Elt Ideal) (G4 Z1 Z2) := by
  show (cfg4.win 2).cut (grid4.coords t) ((dat4 V c).after 2 t) = _
  rw [after4_2]
  unfold out4_2
  rw [View.canon_unit_zero hz4]
  simp only [View.ld_unit_zero (S := S400x4) hz4, View.ld_unit_zero (S := S10000x4) hz4]
  obtain ⟨-, -, -, -, e4, e5⟩ := idx_facts4 t
  have ht : t.val < 25 := t.isLt
  funext j
  have hj0 : (j 0).val < 400 := (j 0).isLt
  have hj1 : (j 1).val < 10000 := (j 1).isLt
  rw [View.read_apply]
  show k4_pay1 (iblk4 V c 0 t) (iblk4 V c 1 t) ((cfg4.win 2).xinj (grid4.coords t) j) = G4 Z1 Z2 (((cfg4.win 2).blk t).view.emb j)
  refine (congrArg (k4_pay1 (iblk4 V c 0 t) (iblk4 V c 1 t)) (eq_ix2 (n0 := 400) (n1 := 10000) ((cfg4.win 2).xinj (grid4.coords t) j))).trans ?_
  refine pay4_blk (iblk4 V c 0 t) (iblk4 V c 1 t) Z1 Z2 t.val ht (fun r k => ?_) (fun p q => ?_) _ _ _ ?_ ?_
  · rw [blk4_0 V c t (ix2 r k) (ix2 ⟨400 * t.val + r.val, by have := r.isLt; omega⟩ k) rfl rfl]; exact h1 _ k
  · rw [blk4_1 V c t (ix2 p q)]; exact h2 p q
  · show win4_2.index t 0 * 400 + 1 * (j 0).val = 400 * t.val + (j 0).val; rw [e4]; omega
  · show win4_2.index t 1 * 10000 + 1 * (j 1).val = (j 1).val; rw [e5]; omega

theorem mem_blk4 (t : Fin cfg4.N) (i : S10000x10000.Idx) :
    i ∈ ((cfg4.win 2).blk t).view.set ↔ ∀ a : Fin 2, win4_2.index t a * S400x10000.size a ≤ (i a).val ∧ (i a).val < win4_2.index t a * S400x10000.size a + S400x10000.size a := by
  show i ∈ ((View.whole main_v4).slice (win4_2.rect t)).set ↔ _
  rw [View.set_slice_whole, Rect.mem_set_unit]
  exact Iff.rfl

theorem cover4 (i : S10000x10000.Idx) : ∃ t : Fin cfg4.N, (cfg4.win 2).flush t = true ∧ i ∈ ((cfg4.win 2).blk t).view.set := by
  have hi0 : (i 0).val < 10000 := (i 0).isLt
  have hi1 : (i 1).val < 10000 := (i 1).isLt
  refine ⟨⟨(i 0).val / 400, by show (i 0).val / 400 < 25; omega⟩, flush4_2 _, ?_⟩
  rw [mem_blk4]
  obtain ⟨-, -, -, -, e4, e5⟩ := idx_facts4 ⟨(i 0).val / 400, by show (i 0).val / 400 < 25; omega⟩
  intro a
  match a with
  | ⟨0, _⟩ => show win4_2.index _ (0 : Fin 2) * 400 ≤ (i 0).val ∧ (i 0).val < win4_2.index _ (0 : Fin 2) * 400 + 400; rw [e4]; show (i 0).val / 400 * 400 ≤ _ ∧ _ < (i 0).val / 400 * 400 + 400; omega
  | ⟨1, _⟩ => show win4_2.index _ (1 : Fin 2) * 10000 ≤ (i 1).val ∧ (i 1).val < win4_2.index _ (1 : Fin 2) * 10000 + 10000; rw [e5]; omega

/-- The decoded probabilities 1 / (1 + exp(−⟨Z1 i, Z2 j⟩)) as a real matrix, band by band. -/
theorem val4 (c : Dev nD) (Z1 Z2 : Mat 10000 4) (h1 : IsMat (V c main_v3_0) Z1) (h2 : IsMat (V c main_v3_1) Z2) :
    IsMat ((dat4 V c).arrAt 2 cfg4.N) (Ar Z1 Z2) := by
  have e : (dat4 V c).arrAt 2 cfg4.N = G4 Z1 Z2 :=
    (dat4 V c).arrAt_eq_of_cover 2 (G4 Z1 Z2) (fun t _ => flushed4_eq V c Z1 Z2 h1 h2 t) cover4
  intro p q
  rw [e]

end Cert.KernelIdeal.Hand

end
-- ==== Proof.Finite.lean ====
import proofs.«116956_g88691074663054_cont_9to1c4b_58_37_alg».proof.Defs
import proofs.«116956_g88691074663054_cont_9to1c4b_58_37_alg».proof.Proof.Spec
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Idealize.SL.Sem
open Cert.Pre_finite_inputs (S_)

instance : Subsingleton S_.Idx := ⟨fun a b => funext fun d => d.elim0⟩

theorem inf_eq_top : Ideal.ofBits .f32 0x7F800000#32 = (⊤ : EReal) := by simp [Ideal.ofBits, Ideal.ieee]

theorem ne_top_bot_of_abs_lt (x : EReal)
    (h : Ideal.cmp .olt (max x (-x)) (Ideal.ofBits .f32 0x7F800000#32) = 1#1) : x ≠ ⊤ ∧ x ≠ ⊥ := by
  rw [inf_eq_top] at h
  induction x using EReal.rec with
  | bot => simp [Ideal.cmp] at h
  | coe r => exact ⟨EReal.coe_ne_top r, EReal.coe_ne_bot r⟩
  | top => simp [Ideal.cmp] at h

theorem finite_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
        (cmpf .olt (Host.absf x) (broadcastInDim s ![] hb (constant (F := Ideal) S_ .f32 0x7F800000#32)))
        (constantI S_ 1 1#1) hr hu ix0 = 1#1)
    (i : s.Idx) : x i ≠ ⊤ ∧ x i ≠ ⊥ :=
  ne_top_bot_of_abs_lt (x i) (Host.reduce_andi_all _ _ hr hu ix0 e i)

def matOf {a b : ℕ} (arr : (⟨2, ![a, b]⟩ : Shape).Idx → EReal) : Cert.Spec.Mat a b :=
  fun p q => (arr (ValueIdx.ix2 p q)).toReal

theorem isMat_matOf {a b : ℕ} (arr : (⟨2, ![a, b]⟩ : Shape).Idx → EReal) (h : ∀ i, arr i ≠ ⊤ ∧ arr i ≠ ⊥) :
    Cert.Spec.IsMat arr (matOf arr) :=
  fun p q => (EReal.coe_toReal (h (ix2 p q)).1 (h (ix2 p q)).2).symm

/-- The precondition says every entry of every input is neither ⊤ nor ⊥: a real. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (⟨2, ![10000, 10000]⟩ : Shape).Idx, @Ne EReal (m ((c.tc : Thread Cert.KernelIdeal.nD Cert.KernelIdeal.τ).loc Cert.KernelIdeal.main_arg0) i) ⊤ ∧ @Ne EReal (m ((c.tc : Thread Cert.KernelIdeal.nD Cert.KernelIdeal.τ).loc Cert.KernelIdeal.main_arg0) i) ⊥)
    ∧ (∀ i : (⟨2, ![10000, 10000]⟩ : Shape).Idx, @Ne EReal (m ((c.tc : Thread Cert.KernelIdeal.nD Cert.KernelIdeal.τ).loc Cert.KernelIdeal.main_arg1) i) ⊤ ∧ @Ne EReal (m ((c.tc : Thread Cert.KernelIdeal.nD Cert.KernelIdeal.τ).loc Cert.KernelIdeal.main_arg1) i) ⊥)
    ∧ (∀ i : (⟨2, ![10000, 10000]⟩ : Shape).Idx, @Ne EReal (m ((c.tc : Thread Cert.KernelIdeal.nD Cert.KernelIdeal.τ).loc Cert.KernelIdeal.main_arg2) i) ⊤ ∧ @Ne EReal (m ((c.tc : Thread Cert.KernelIdeal.nD Cert.KernelIdeal.τ).loc Cert.KernelIdeal.main_arg2) i) ⊥)
    ∧ (∀ i : (⟨2, ![10000, 16]⟩ : Shape).Idx, @Ne EReal (m ((c.tc : Thread Cert.KernelIdeal.nD Cert.KernelIdeal.τ).loc Cert.KernelIdeal.main_arg3) i) ⊤ ∧ @Ne EReal (m ((c.tc : Thread Cert.KernelIdeal.nD Cert.KernelIdeal.τ).loc Cert.KernelIdeal.main_arg3) i) ⊥)
    ∧ (∀ i : (⟨2, ![16, 4]⟩ : Shape).Idx, @Ne EReal (m ((c.tc : Thread Cert.KernelIdeal.nD Cert.KernelIdeal.τ).loc Cert.KernelIdeal.main_arg4) i) ⊤ ∧ @Ne EReal (m ((c.tc : Thread Cert.KernelIdeal.nD Cert.KernelIdeal.τ).loc Cert.KernelIdeal.main_arg4) i) ⊥)
    ∧ (∀ i : (⟨2, ![16, 4]⟩ : Shape).Idx, @Ne EReal (m ((c.tc : Thread Cert.KernelIdeal.nD Cert.KernelIdeal.τ).loc Cert.KernelIdeal.main_arg5) i) ⊤ ∧ @Ne EReal (m ((c.tc : Thread Cert.KernelIdeal.nD Cert.KernelIdeal.τ).loc Cert.KernelIdeal.main_arg5) i) ⊥)
    ∧ (∀ i : (⟨2, ![10000, 16]⟩ : Shape).Idx, @Ne EReal (m ((c.tc : Thread Cert.KernelIdeal.nD Cert.KernelIdeal.τ).loc Cert.KernelIdeal.main_arg6) i) ⊤ ∧ @Ne EReal (m ((c.tc : Thread Cert.KernelIdeal.nD Cert.KernelIdeal.τ).loc Cert.KernelIdeal.main_arg6) i) ⊥)
    ∧ (∀ i : (⟨2, ![16, 4]⟩ : Shape).Idx, @Ne EReal (m ((c.tc : Thread Cert.KernelIdeal.nD Cert.KernelIdeal.τ).loc Cert.KernelIdeal.main_arg7) i) ⊤ ∧ @Ne EReal (m ((c.tc : Thread Cert.KernelIdeal.nD Cert.KernelIdeal.τ).loc Cert.KernelIdeal.main_arg7) i) ⊥)
    ∧ (∀ i : (⟨2, ![16, 4]⟩ : Shape).Idx, @Ne EReal (m ((c.tc : Thread Cert.KernelIdeal.nD Cert.KernelIdeal.τ).loc Cert.KernelIdeal.main_arg8) i) ⊤ ∧ @Ne EReal (m ((c.tc : Thread Cert.KernelIdeal.nD Cert.KernelIdeal.τ).loc Cert.KernelIdeal.main_arg8) i) ⊥)
    ∧ (∀ i : (⟨2, ![10000, 4]⟩ : Shape).Idx, @Ne EReal (m ((c.tc : Thread Cert.KernelIdeal.nD Cert.KernelIdeal.τ).loc Cert.KernelIdeal.main_arg9) i) ⊤ ∧ @Ne EReal (m ((c.tc : Thread Cert.KernelIdeal.nD Cert.KernelIdeal.τ).loc Cert.KernelIdeal.main_arg9) i) ⊥)
    ∧ (∀ i : (⟨2, ![10000, 4]⟩ : Shape).Idx, @Ne EReal (m ((c.tc : Thread Cert.KernelIdeal.nD Cert.KernelIdeal.τ).loc Cert.KernelIdeal.main_arg10) i) ⊤ ∧ @Ne EReal (m ((c.tc : Thread Cert.KernelIdeal.nD Cert.KernelIdeal.τ).loc Cert.KernelIdeal.main_arg10) i) ⊥) := by
  have h0 := congrFun (h c) ix0
  dsimp only [Cert.Pre_finite_inputs.fn, Cert.Pre_finite_inputs.fn_part1, Cert.Pre_finite_inputs.fn_part2,
    Cert.Pre_finite_inputs.fn_part3, andi] at h0
  simp only [IntOp.andi_eq_one, and_assoc] at h0
  obtain ⟨e0, e1, e2, e3, e4, e5, e6, e7, e8, e9, e10⟩ := h0
  exact ⟨finite_of_all _ _ _ _ e0, finite_of_all _ _ _ _ e1, finite_of_all _ _ _ _ e2, finite_of_all _ _ _ _ e3,
    finite_of_all _ _ _ _ e4, finite_of_all _ _ _ _ e5, finite_of_all _ _ _ _ e6, finite_of_all _ _ _ _ e7,
    finite_of_all _ _ _ _ e8, finite_of_all _ _ _ _ e9, finite_of_all _ _ _ _ e10⟩

end Cert.Finite

end
-- ==== Proof.Bridge.lean ====
import proofs.«116956_g88691074663054_cont_9to1c4b_58_37_alg».proof.Proof.KI.Ends
import proofs.«116956_g88691074663054_cont_9to1c4b_58_37_alg».proof.Proof.KI.Val0
import proofs.«116956_g88691074663054_cont_9to1c4b_58_37_alg».proof.Proof.KI.Val1
import proofs.«116956_g88691074663054_cont_9to1c4b_58_37_alg».proof.Proof.KI.Val2
import proofs.«116956_g88691074663054_cont_9to1c4b_58_37_alg».proof.Proof.KI.Val3
import proofs.«116956_g88691074663054_cont_9to1c4b_58_37_alg».proof.Proof.KI.Val4
import proofs.«116956_g88691074663054_cont_9to1c4b_58_37_alg».proof.Proof.Finite

set_option maxRecDepth 16384

noncomputable section

namespace Cert.KernelIdeal.Hand

open Idealize.ShloMosaic Idealize.ShloMosaic.TcCoe
open Idealize.SL Idealize.SL.Sem
open Cert.KernelIdeal Cert.KernelIdeal.Gen Cert.Spec Cert.Finite

variable (m : (ℓ : Loc nD τ sig) → Buf (Elt Ideal) ℓ) (ρ : Dev nD → PrngReg)

abbrev argMat {a b : ℕ} (arr : (⟨2, ![a, b]⟩ : Shape).Idx → EReal) : Mat a b := matOf arr

theorem isMat_of_eq {a b : ℕ} {arr arr' : (⟨2, ![a, b]⟩ : Shape).Idx → EReal} {x : Mat a b} (e : arr = arr') (h : IsMat arr' x) :
    IsMat arr x := e ▸ h

/-- Region by region each array is the real matrix its mathematics says, each region finding what an earlier one left. -/
theorem kernel_vals [Cert.Pre_finite_inputs.Facts] (h : Cert.Pre_KernelIdeal m) (c : Dev nD) :
    IsMat ((dat4 (Vv4 m ρ) c).arrAt 2 cfg4.N)
        (Ar (Zr1 (matOf (m ((c.tc : Thread nD τ).loc main_arg2))) (H1 (matOf (m ((c.tc : Thread nD τ).loc main_arg2))) (mm (matOf (m ((c.tc : Thread nD τ).loc main_arg0))) (matOf (m ((c.tc : Thread nD τ).loc main_arg3)))))
              (matOf (m ((c.tc : Thread nD τ).loc main_arg4))) (matOf (m ((c.tc : Thread nD τ).loc main_arg5))) (matOf (m ((c.tc : Thread nD τ).loc main_arg9))))
            (Zr2 (matOf (m ((c.tc : Thread nD τ).loc main_arg2))) (H2 (matOf (m ((c.tc : Thread nD τ).loc main_arg2))) (mm (matOf (m ((c.tc : Thread nD τ).loc main_arg1))) (matOf (m ((c.tc : Thread nD τ).loc main_arg6)))))
              (matOf (m ((c.tc : Thread nD τ).loc main_arg7))) (matOf (m ((c.tc : Thread nD τ).loc main_arg8))) (matOf (m ((c.tc : Thread nD τ).loc main_arg10)))))
    ∧ IsMat ((dat3 (Vv3 m ρ) c).arrAt 9 cfg3.N)
        (Zr1 (matOf (m ((c.tc : Thread nD τ).loc main_arg2))) (H1 (matOf (m ((c.tc : Thread nD τ).loc main_arg2))) (mm (matOf (m ((c.tc : Thread nD τ).loc main_arg0))) (matOf (m ((c.tc : Thread nD τ).loc main_arg3)))))
              (matOf (m ((c.tc : Thread nD τ).loc main_arg4))) (matOf (m ((c.tc : Thread nD τ).loc main_arg5))) (matOf (m ((c.tc : Thread nD τ).loc main_arg9))))
    ∧ IsMat ((dat3 (Vv3 m ρ) c).arrAt 10 cfg3.N)
        (Zr2 (matOf (m ((c.tc : Thread nD τ).loc main_arg2))) (H2 (matOf (m ((c.tc : Thread nD τ).loc main_arg2))) (mm (matOf (m ((c.tc : Thread nD τ).loc main_arg1))) (matOf (m ((c.tc : Thread nD τ).loc main_arg6)))))
              (matOf (m ((c.tc : Thread nD τ).loc main_arg7))) (matOf (m ((c.tc : Thread nD τ).loc main_arg8))) (matOf (m ((c.tc : Thread nD τ).loc main_arg10)))) := by
  obtain ⟨f0, f1, f2, f3, f4, f5, f6, f7, f8, f9, f10⟩ := finite_of_pre m h c
  have a0 := isMat_matOf _ f0; have a1 := isMat_matOf _ f1; have a2 := isMat_matOf _ f2; have a3 := isMat_matOf _ f3
  have a4 := isMat_matOf _ f4; have a5 := isMat_matOf _ f5; have a6 := isMat_matOf _ f6; have a7 := isMat_matOf _ f7
  have a8 := isMat_matOf _ f8; have a9 := isMat_matOf _ f9; have a10 := isMat_matOf _ f10

  have r0 := val0 (Vv0 m ρ) c _ _ a0 a3
  have r1 := val1 (Vv1 m ρ) c _ _ (isMat_of_eq (W1_arg m ρ c main_arg1 (by decide)) a1) (isMat_of_eq (W1_arg m ρ c main_arg6 (by decide)) a6)

  have r2 := val2 (Vv2 m ρ) c _ _ _ (isMat_of_eq (W2_arg m ρ c main_arg2 (by decide)) a2)
    (isMat_of_eq (Vv2_v0 m ρ c) r0) (isMat_of_eq (Vv2_v1 m ρ c) r1)

  have r3 := val3 (Vv3 m ρ) c _ _ _ _ _ _ _ _ _ (isMat_of_eq (W3_arg m ρ c main_arg2 (by decide)) a2)
    (isMat_of_eq (Vv3_v2_0 m ρ c) r2.1) (isMat_of_eq (Vv3_v2_1 m ρ c) r2.2)
    (isMat_of_eq (W3_arg m ρ c main_arg4 (by decide)) a4) (isMat_of_eq (W3_arg m ρ c main_arg5 (by decide)) a5)
    (isMat_of_eq (W3_arg m ρ c main_arg7 (by decide)) a7) (isMat_of_eq (W3_arg m ρ c main_arg8 (by decide)) a8)
    (isMat_of_eq (W3_arg m ρ c main_arg9 (by decide)) a9) (isMat_of_eq (W3_arg m ρ c main_arg10 (by decide)) a10)

  have r4 := val4 (Vv4 m ρ) c _ _ (isMat_of_eq (Vv4_v3_0 m ρ c) r3.1) (isMat_of_eq (Vv4_v3_1 m ρ c) r3.2)
  exact ⟨r4, r3.1, r3.2⟩

end Cert.KernelIdeal.Hand

end
-- ==== Proof.SpecLaws.lean ====
import proofs.«116956_g88691074663054_cont_9to1c4b_58_37_alg».proof.Proof.Spec
import Mathlib.Algebra.BigOperators.Group.Finset.Piecewise
import Mathlib.Order.Lattice

noncomputable section

namespace Cert.ReferenceIdeal.RefValue

open Cert.Spec

def tr {a b : ℕ} (x : Mat a b) : Mat b a := fun i j => x j i

def idm (n : ℕ) : Mat n n := fun p q => if p = q then 1 else 0

theorem mm_tr {a k b : ℕ} (x : Mat k a) (y : Mat k b) : mm (tr x) y = mmT x y := rfl

theorem mm_idm {a n : ℕ} (z : Mat a n) : mm z (idm n) = z := by
  funext i j
  unfold mm idm
  simp only [mul_ite, mul_one, mul_zero]
  rw [Finset.sum_ite_eq' Finset.univ j (fun l => z i l), if_pos (Finset.mem_univ j)]

theorem mm_tr_right {a k b : ℕ} (x : Mat a k) (y : Mat b k) (i : Fin a) (j : Fin b) :
    mm x (tr y) i j = ∑ l : Fin k, x i l * y j l := rfl

theorem coe_max (x y : ℝ) : max (x : EReal) (y : EReal) = ((max x y : ℝ) : EReal) :=
  (EReal.coe_strictMono.monotone.map_max).symm

end Cert.ReferenceIdeal.RefValue

end
-- ==== Proof.RefSpec.lean ====
import proofs.«116956_g88691074663054_cont_9to1c4b_58_37_alg».proof.Proof.Spec
import proofs.«116956_g88691074663054_cont_9to1c4b_58_37_alg».proof.Proof.SpecLaws
import proofs.«116956_g88691074663054_cont_9to1c4b_58_37_alg».proof.Proof.Gen.ReferenceIdeal.Read
import Idealize.ShloMosaic.Lib.IdealHost

noncomputable section

namespace Cert.ReferenceIdeal.RefValue

open Cert.Spec Cert.ReferenceIdeal Cert.ReferenceIdeal.Read Idealize.ShloMosaic Idealize.ShloMosaic.ValueIdx

abbrev Arr (a b : ℕ) : Type := (⟨2, ![a, b]⟩ : Shape).Idx → EReal

macro "idx2" : tactic => `(tactic| (intros; funext d; match d with | ⟨0, _⟩ => rfl | ⟨1, _⟩ => rfl))

theorem isMat_dot {a k b : ℕ} {out : Arr a b} {l : Arr a k} {r : Arr k b} {L : Mat a k} {R : Mat k b}
    (lidx : (⟨2, ![a, b]⟩ : Shape).Idx → Fin k → (⟨2, ![a, k]⟩ : Shape).Idx)
    (ridx : (⟨2, ![a, b]⟩ : Shape).Idx → Fin k → (⟨2, ![k, b]⟩ : Shape).Idx)
    (hap : ∀ i, out i = ∑ kk : Fin k, l (lidx i kk) * r (ridx i kk))
    (hli : ∀ p q kk, lidx (ix2 p q) kk = ix2 p kk) (hri : ∀ p q kk, ridx (ix2 p q) kk = ix2 kk q)
    (hl : IsMat l L) (hr : IsMat r R) : IsMat out (mm L R) := by
  intro p q
  have hterm : ∀ kk ∈ (Finset.univ : Finset (Fin k)),
      l (lidx (ix2 p q) kk) * r (ridx (ix2 p q) kk) = ((L p kk : ℝ) : EReal) * ((R kk q : ℝ) : EReal) := fun kk _ => by
    rw [hli p q kk, hri p q kk, hl p kk, hr kk q]
  rw [hap (ix2 p q), Finset.sum_congr rfl hterm, coe_sum_mul]
  rfl

theorem isMat_tr {a b : ℕ} {out : Arr b a} {x : Arr a b} {X : Mat a b}
    (idx : (⟨2, ![b, a]⟩ : Shape).Idx → (⟨2, ![a, b]⟩ : Shape).Idx)
    (hap : ∀ i, out i = x (idx i)) (hidx : ∀ p q, idx (ix2 p q) = ix2 q p) (hx : IsMat x X) : IsMat out (tr X) := by
  intro p q
  rw [hap (ix2 p q), hidx p q, hx q p]
  rfl

theorem isMat_relu {a b : ℕ} {out x z : Arr a b} {X : Mat a b}
    (hap : ∀ i, out i = max (x i) (z i)) (hz : ∀ i, z i = 0) (hx : IsMat x X) : IsMat out (relu X) := by
  intro p q
  rw [hap (ix2 p q), hz (ix2 p q), hx p q, ← EReal.coe_zero, coe_max]
  rfl

theorem isMat_exp {a b : ℕ} {out x : Arr a b} {X : Mat a b}
    (hap : ∀ i, out i = Ideal.exp (x i)) (hx : IsMat x X) : IsMat out (fun i j => Real.exp (X i j)) := by
  intro p q
  rw [hap (ix2 p q), hx p q]
  rfl

theorem isMat_mul {a b : ℕ} {out x y : Arr a b} {X Y : Mat a b}
    (hap : ∀ i, out i = x i * y i) (hx : IsMat x X) (hy : IsMat y Y) : IsMat out (fun i j => X i j * Y i j) := by
  intro p q
  rw [hap (ix2 p q), hx p q, hy p q, ← EReal.coe_mul]

theorem isMat_add {a b : ℕ} {out x y : Arr a b} {X Y : Mat a b}
    (hap : ∀ i, out i = x i + y i) (hx : IsMat x X) (hy : IsMat y Y) : IsMat out (fun i j => X i j + Y i j) := by
  intro p q
  rw [hap (ix2 p q), hx p q, hy p q, ← EReal.coe_add]

theorem isMat_neg {a b : ℕ} {out x : Arr a b} {X : Mat a b}
    (hap : ∀ i, out i = -(x i)) (hx : IsMat x X) : IsMat out (fun i j => -(X i j)) := by
  intro p q
  rw [hap (ix2 p q), hx p q, ← EReal.coe_neg]

theorem isMat_one_add {a b : ℕ} {out o x : Arr a b} {X : Mat a b}
    (hap : ∀ i, out i = o i + x i) (ho : ∀ i, o i = 1) (hx : IsMat x X) : IsMat out (fun i j => 1 + X i j) := by
  intro p q
  rw [hap (ix2 p q), ho (ix2 p q), hx p q, ← EReal.coe_one, ← EReal.coe_add]

theorem isMat_one_div {a b : ℕ} {out o x : Arr a b} {X : Mat a b}
    (hap : ∀ i, out i = Ideal.div (o i) (x i)) (ho : ∀ i, o i = 1) (hx : IsMat x X) (hX : ∀ i j, X i j ≠ 0) :
    IsMat out (fun i j => (X i j)⁻¹) := by
  intro p q
  rw [hap (ix2 p q), ho (ix2 p q), hx p q, Ideal.div, if_neg (EReal.coe_ne_zero.mpr (hX p q)), one_mul, ← EReal.coe_inv]

theorem isMat_congr {a b : ℕ} {arr : Arr a b} {X Y : Mat a b} (h : IsMat arr X) (e : X = Y) : IsMat arr Y := e ▸ h

section Enc1
variable (x0 x2 : FVec Ideal S10000x10000 .f32) (x3 : FVec Ideal S10000x16 .f32) (x4 x5 : FVec Ideal S16x4 .f32) (x9 : FVec Ideal S10000x4 .f32)

theorem st_v0 {adj : Mat 10000 10000} (h2 : IsMat x2 adj) : IsMat (val_main_v0 (F := Ideal) x2) (tr adj) :=
  isMat_tr idx_main_v0 (fun i => val_main_v0_apply (F := Ideal) x2 i) (by idx2) h2

theorem st_v1 {X1 : Mat 10000 10000} {Wb1 : Mat 10000 16} (h0 : IsMat x0 X1) (h3 : IsMat x3 Wb1) :
    IsMat (val_main_v1 (F := Ideal) x0 x3) (mm X1 Wb1) :=
  isMat_dot lidx_main_v1 ridx_main_v1 (fun i => val_main_v1_apply x0 x3 i) (by idx2) (by idx2) h0 h3

theorem st_v2 {A : Mat 10000 10000} {B : Mat 10000 16} (s0 : IsMat (val_main_v0 (F := Ideal) x2) A)
    (s1 : IsMat (val_main_v1 (F := Ideal) x0 x3) B) : IsMat (val_main_v2 (F := Ideal) x0 x2 x3) (mm A B) :=
  isMat_dot lidx_main_v2 ridx_main_v2 (fun i => val_main_v2_apply x0 x2 x3 i) (by idx2) (by idx2) s0 s1

theorem zero_call0 (i : S10000x16.Idx) : val_main_call0_v0 (F := Ideal) i = 0 := by
  rw [val_main_call0_v0_apply, val_main_call0_cst_apply]
  exact Ideal.ofBits_zero_f32

theorem st_v3 {M : Mat 10000 16} (s2 : IsMat (val_main_v2 (F := Ideal) x0 x2 x3) M) :
    IsMat (val_main_v3 (F := Ideal) x0 x2 x3) (relu M) :=
  isMat_relu (x := val_main_v2 (F := Ideal) x0 x2 x3) (z := val_main_call0_v0 (F := Ideal))
    (fun i => val_main_v3_apply (F := Ideal) x0 x2 x3 i) zero_call0 s2

theorem st_v4 {H : Mat 10000 16} {W : Mat 16 4} (s3 : IsMat (val_main_v3 (F := Ideal) x0 x2 x3) H) (h4 : IsMat x4 W) :
    IsMat (val_main_v4 (F := Ideal) x0 x2 x3 x4) (mm H W) :=
  isMat_dot lidx_main_v4 ridx_main_v4 (fun i => val_main_v4_apply x0 x2 x3 x4 i) (by idx2) (by idx2) s3 h4

theorem st_v5 {adj : Mat 10000 10000} {M : Mat 10000 4} (h2 : IsMat x2 adj) (s4 : IsMat (val_main_v4 (F := Ideal) x0 x2 x3 x4) M) :
    IsMat (val_main_v5 (F := Ideal) x0 x2 x3 x4) (mm adj M) :=
  isMat_dot lidx_main_v5 ridx_main_v5 (fun i => val_main_v5_apply x0 x2 x3 x4 i) (by idx2) (by idx2) h2 s4

theorem st_v6 {H : Mat 10000 16} {W : Mat 16 4} (s3 : IsMat (val_main_v3 (F := Ideal) x0 x2 x3) H) (h5 : IsMat x5 W) :
    IsMat (val_main_v6 (F := Ideal) x0 x2 x3 x5) (mm H W) :=
  isMat_dot lidx_main_v6 ridx_main_v6 (fun i => val_main_v6_apply x0 x2 x3 x5 i) (by idx2) (by idx2) s3 h5

theorem st_v7 {adj : Mat 10000 10000} {M : Mat 10000 4} (h2 : IsMat x2 adj) (s6 : IsMat (val_main_v6 (F := Ideal) x0 x2 x3 x5) M) :
    IsMat (val_main_v7 (F := Ideal) x0 x2 x3 x5) (mm adj M) :=
  isMat_dot lidx_main_v7 ridx_main_v7 (fun i => val_main_v7_apply x0 x2 x3 x5 i) (by idx2) (by idx2) h2 s6

theorem st_v8 {M : Mat 10000 4} (s7 : IsMat (val_main_v7 (F := Ideal) x0 x2 x3 x5) M) :
    IsMat (val_main_v8 (F := Ideal) x0 x2 x3 x5) (fun i j => Real.exp (M i j)) :=
  isMat_exp (x := val_main_v7 (F := Ideal) x0 x2 x3 x5) (fun i => val_main_v8_apply (F := Ideal) x0 x2 x3 x5 i) s7

theorem st_v9 {N E : Mat 10000 4} (h9 : IsMat x9 N) (s8 : IsMat (val_main_v8 (F := Ideal) x0 x2 x3 x5) E) :
    IsMat (val_main_v9 (F := Ideal) x0 x2 x3 x5 x9) (fun i j => N i j * E i j) :=
  isMat_mul (x := x9) (y := val_main_v8 (F := Ideal) x0 x2 x3 x5) (fun i => val_main_v9_apply (F := Ideal) x0 x2 x3 x5 x9 i) h9 s8

theorem st_v10 {P Q : Mat 10000 4} (s9 : IsMat (val_main_v9 (F := Ideal) x0 x2 x3 x5 x9) P)
    (s5 : IsMat (val_main_v5 (F := Ideal) x0 x2 x3 x4) Q) :
    IsMat (val_main_v10 (F := Ideal) x0 x2 x3 x4 x5 x9) (fun i j => P i j + Q i j) :=
  isMat_add (x := val_main_v9 (F := Ideal) x0 x2 x3 x5 x9) (y := val_main_v5 (F := Ideal) x0 x2 x3 x4)
    (fun i => val_main_v10_apply (F := Ideal) x0 x2 x3 x4 x5 x9 i) s9 s5

theorem ref_Z1 (X1 adj : Mat 10000 10000) (Wb1 : Mat 10000 16) (Wm1 Wl1 : Mat 16 4) (N1 : Mat 10000 4)
    (h0 : IsMat x0 X1) (h2 : IsMat x2 adj) (h3 : IsMat x3 Wb1) (h4 : IsMat x4 Wm1) (h5 : IsMat x5 Wl1) (h9 : IsMat x9 N1) :
    IsMat (val_main_v10 (F := Ideal) x0 x2 x3 x4 x5 x9) (Zr1 adj (H1 adj (mm X1 Wb1)) Wm1 Wl1 N1) := by
  have s3 : IsMat (val_main_v3 (F := Ideal) x0 x2 x3) (H1 adj (mm X1 Wb1)) :=
    isMat_congr (st_v3 x0 x2 x3 (st_v2 x0 x2 x3 (st_v0 x2 h2) (st_v1 x0 x3 h0 h3))) rfl
  have s5 := st_v5 x0 x2 x3 x4 h2 (st_v4 x0 x2 x3 x4 s3 h4)
  have s9 := st_v9 x0 x2 x3 x5 x9 h9 (st_v8 x0 x2 x3 x5 (st_v7 x0 x2 x3 x5 h2 (st_v6 x0 x2 x3 x5 s3 h5)))
  exact isMat_congr (st_v10 x0 x2 x3 x4 x5 x9 s9 s5) rfl

end Enc1

section Enc2
variable (x1 x2 : FVec Ideal S10000x10000 .f32) (x6 : FVec Ideal S10000x16 .f32) (x7 x8 : FVec Ideal S16x4 .f32) (x10 : FVec Ideal S10000x4 .f32)

theorem st_v11 {X2 : Mat 10000 10000} {Wb2 : Mat 10000 16} (h1 : IsMat x1 X2) (h6 : IsMat x6 Wb2) :
    IsMat (val_main_v11 (F := Ideal) x1 x6) (mm X2 Wb2) :=
  isMat_dot lidx_main_v11 ridx_main_v11 (fun i => val_main_v11_apply x1 x6 i) (by idx2) (by idx2) h1 h6

theorem st_v12 {adj : Mat 10000 10000} {B : Mat 10000 16} (h2 : IsMat x2 adj) (s11 : IsMat (val_main_v11 (F := Ideal) x1 x6) B) :
    IsMat (val_main_v12 (F := Ideal) x1 x2 x6) (mm adj B) :=
  isMat_dot lidx_main_v12 ridx_main_v12 (fun i => val_main_v12_apply x1 x2 x6 i) (by idx2) (by idx2) h2 s11

theorem zero_call1 (i : S10000x16.Idx) : val_main_call1_v0 (F := Ideal) i = 0 := by
  rw [val_main_call1_v0_apply, val_main_call1_cst_apply]
  exact Ideal.ofBits_zero_f32

theorem st_v13 {M : Mat 10000 16} (s12 : IsMat (val_main_v12 (F := Ideal) x1 x2 x6) M) :
    IsMat (val_main_v13 (F := Ideal) x1 x2 x6) (relu M) :=
  isMat_relu (x := val_main_v12 (F := Ideal) x1 x2 x6) (z := val_main_call1_v0 (F := Ideal))
    (fun i => val_main_v13_apply (F := Ideal) x1 x2 x6 i) zero_call1 s12

theorem st_v14 {adj : Mat 10000 10000} (h2 : IsMat x2 adj) : IsMat (val_main_v14 (F := Ideal) x2) (tr adj) :=
  isMat_tr idx_main_v14 (fun i => val_main_v14_apply (F := Ideal) x2 i) (by idx2) h2

theorem st_v15 {H : Mat 10000 16} {W : Mat 16 4} (s13 : IsMat (val_main_v13 (F := Ideal) x1 x2 x6) H) (h7 : IsMat x7 W) :
    IsMat (val_main_v15 (F := Ideal) x1 x2 x6 x7) (mm H W) :=
  isMat_dot lidx_main_v15 ridx_main_v15 (fun i => val_main_v15_apply x1 x2 x6 x7 i) (by idx2) (by idx2) s13 h7

theorem st_v16 {A : Mat 10000 10000} {M : Mat 10000 4} (s14 : IsMat (val_main_v14 (F := Ideal) x2) A)
    (s15 : IsMat (val_main_v15 (F := Ideal) x1 x2 x6 x7) M) : IsMat (val_main_v16 (F := Ideal) x1 x2 x6 x7) (mm A M) :=
  isMat_dot lidx_main_v16 ridx_main_v16 (fun i => val_main_v16_apply x1 x2 x6 x7 i) (by idx2) (by idx2) s14 s15

theorem st_v17 {adj : Mat 10000 10000} (h2 : IsMat x2 adj) : IsMat (val_main_v17 (F := Ideal) x2) (tr adj) :=
  isMat_tr idx_main_v17 (fun i => val_main_v17_apply (F := Ideal) x2 i) (by idx2) h2

theorem st_v18 {H : Mat 10000 16} {W : Mat 16 4} (s13 : IsMat (val_main_v13 (F := Ideal) x1 x2 x6) H) (h8 : IsMat x8 W) :
    IsMat (val_main_v18 (F := Ideal) x1 x2 x6 x8) (mm H W) :=
  isMat_dot lidx_main_v18 ridx_main_v18 (fun i => val_main_v18_apply x1 x2 x6 x8 i) (by idx2) (by idx2) s13 h8

theorem st_v19 {A : Mat 10000 10000} {M : Mat 10000 4} (s17 : IsMat (val_main_v17 (F := Ideal) x2) A)
    (s18 : IsMat (val_main_v18 (F := Ideal) x1 x2 x6 x8) M) : IsMat (val_main_v19 (F := Ideal) x1 x2 x6 x8) (mm A M) :=
  isMat_dot lidx_main_v19 ridx_main_v19 (fun i => val_main_v19_apply x1 x2 x6 x8 i) (by idx2) (by idx2) s17 s18

theorem st_v20 {M : Mat 10000 4} (s19 : IsMat (val_main_v19 (F := Ideal) x1 x2 x6 x8) M) :
    IsMat (val_main_v20 (F := Ideal) x1 x2 x6 x8) (fun i j => Real.exp (M i j)) :=
  isMat_exp (x := val_main_v19 (F := Ideal) x1 x2 x6 x8) (fun i => val_main_v20_apply (F := Ideal) x1 x2 x6 x8 i) s19

theorem st_v21 {N E : Mat 10000 4} (h10 : IsMat x10 N) (s20 : IsMat (val_main_v20 (F := Ideal) x1 x2 x6 x8) E) :
    IsMat (val_main_v21 (F := Ideal) x1 x2 x6 x8 x10) (fun i j => N i j * E i j) :=
  isMat_mul (x := x10) (y := val_main_v20 (F := Ideal) x1 x2 x6 x8) (fun i => val_main_v21_apply (F := Ideal) x1 x2 x6 x8 x10 i) h10 s20

theorem st_v22 {P Q : Mat 10000 4} (s21 : IsMat (val_main_v21 (F := Ideal) x1 x2 x6 x8 x10) P)
    (s16 : IsMat (val_main_v16 (F := Ideal) x1 x2 x6 x7) Q) :
    IsMat (val_main_v22 (F := Ideal) x1 x2 x6 x7 x8 x10) (fun i j => P i j + Q i j) :=
  isMat_add (x := val_main_v21 (F := Ideal) x1 x2 x6 x8 x10) (y := val_main_v16 (F := Ideal) x1 x2 x6 x7)
    (fun i => val_main_v22_apply (F := Ideal) x1 x2 x6 x7 x8 x10 i) s21 s16

theorem ref_Z2 (X2 adj : Mat 10000 10000) (Wb2 : Mat 10000 16) (Wm2 Wl2 : Mat 16 4) (N2 : Mat 10000 4)
    (h1 : IsMat x1 X2) (h2 : IsMat x2 adj) (h6 : IsMat x6 Wb2) (h7 : IsMat x7 Wm2) (h8 : IsMat x8 Wl2) (h10 : IsMat x10 N2) :
    IsMat (val_main_v22 (F := Ideal) x1 x2 x6 x7 x8 x10) (Zr2 adj (H2 adj (mm X2 Wb2)) Wm2 Wl2 N2) := by
  have s13 : IsMat (val_main_v13 (F := Ideal) x1 x2 x6) (H2 adj (mm X2 Wb2)) :=
    st_v13 x1 x2 x6 (st_v12 x1 x2 x6 h2 (st_v11 x1 x6 h1 h6))
  have s16 := isMat_congr (st_v16 x1 x2 x6 x7 (st_v14 x2 h2) (st_v15 x1 x2 x6 x7 s13 h7)) (mm_tr _ _)
  have s19 := isMat_congr (st_v19 x1 x2 x6 x8 (st_v17 x2 h2) (st_v18 x1 x2 x6 x8 s13 h8)) (mm_tr _ _)
  have s21 := st_v21 x1 x2 x6 x8 x10 h10 (st_v20 x1 x2 x6 x8 s19)
  exact isMat_congr (st_v22 x1 x2 x6 x7 x8 x10 s21 s16) rfl

end Enc2

theorem eye_word : ∀ p q : Fin 4,
    (IntOp.cmpi .eq (IntOp.addi (BitVec.ofNat 32 p.val) 0#32) (BitVec.ofNat 32 q.val)).toNat = if p = q then 1 else 0 := by
  decide

theorem st_v28 : IsMat (val_main_v28 (F := Ideal)) (idm 4) := by
  intro p q
  rw [val_main_v28_apply, val_main_v27_apply, val_main_v26_apply, val_main_v23_apply, val_main_v25_apply, val_main_c_apply,
    val_main_v24_apply]
  show (((IntOp.cmpi .eq (IntOp.addi (BitVec.ofNat 32 p.val) 0#32) (BitVec.ofNat 32 q.val)).toNat : ℝ) : EReal) = _
  rw [eye_word p q]
  unfold idm
  split_ifs <;> simp

theorem one_v34 (i : S10000x10000.Idx) : val_main_v34 (F := Ideal) i = 1 := by
  rw [val_main_v34_apply, val_main_cst_apply]
  exact Ideal.ofBits_one_f32

theorem one_v36 (i : S10000x10000.Idx) : val_main_v36 (F := Ideal) i = 1 := by
  rw [val_main_v36_apply, val_main_cst_0_apply]
  exact Ideal.ofBits_one_f32

section Dec
variable (x0 x1 x2 : FVec Ideal S10000x10000 .f32) (x3 : FVec Ideal S10000x16 .f32) (x4 x5 : FVec Ideal S16x4 .f32) (x6 : FVec Ideal S10000x16 .f32) (x7 x8 : FVec Ideal S16x4 .f32) (x9 x10 : FVec Ideal S10000x4 .f32)

theorem st_v29 {Z : Mat 10000 4} {I : Mat 4 4} (s10 : IsMat (val_main_v10 (F := Ideal) x0 x2 x3 x4 x5 x9) Z)
    (s28 : IsMat (val_main_v28 (F := Ideal)) I) : IsMat (val_main_v29 (F := Ideal) x0 x2 x3 x4 x5 x9) (mm Z I) :=
  isMat_dot lidx_main_v29 ridx_main_v29 (fun i => val_main_v29_apply x0 x2 x3 x4 x5 x9 i) (by idx2) (by idx2) s10 s28

theorem st_v30 {Z : Mat 10000 4} (s22 : IsMat (val_main_v22 (F := Ideal) x1 x2 x6 x7 x8 x10) Z) :
    IsMat (val_main_v30 (F := Ideal) x1 x2 x6 x7 x8 x10) (tr Z) :=
  isMat_tr idx_main_v30 (fun i => val_main_v30_apply (F := Ideal) x1 x2 x6 x7 x8 x10 i) (by idx2) s22

theorem st_v31 {Z : Mat 10000 4} {T : Mat 4 10000} (s29 : IsMat (val_main_v29 (F := Ideal) x0 x2 x3 x4 x5 x9) Z)
    (s30 : IsMat (val_main_v30 (F := Ideal) x1 x2 x6 x7 x8 x10) T) :
    IsMat (val_main_v31 (F := Ideal) x0 x1 x2 x3 x4 x5 x6 x7 x8 x9 x10) (mm Z T) :=
  isMat_dot lidx_main_v31 ridx_main_v31 (fun i => val_main_v31_apply x0 x1 x2 x3 x4 x5 x6 x7 x8 x9 x10 i) (by idx2) (by idx2) s29 s30

theorem st_v32 {M : Mat 10000 10000} (s31 : IsMat (val_main_v31 (F := Ideal) x0 x1 x2 x3 x4 x5 x6 x7 x8 x9 x10) M) :
    IsMat (val_main_v32 (F := Ideal) x0 x1 x2 x3 x4 x5 x6 x7 x8 x9 x10) (fun i j => -(M i j)) :=
  isMat_neg (x := val_main_v31 (F := Ideal) x0 x1 x2 x3 x4 x5 x6 x7 x8 x9 x10)
    (fun i => val_main_v32_apply (F := Ideal) x0 x1 x2 x3 x4 x5 x6 x7 x8 x9 x10 i) s31

theorem st_v33 {M : Mat 10000 10000} (s32 : IsMat (val_main_v32 (F := Ideal) x0 x1 x2 x3 x4 x5 x6 x7 x8 x9 x10) M) :
    IsMat (val_main_v33 (F := Ideal) x0 x1 x2 x3 x4 x5 x6 x7 x8 x9 x10) (fun i j => Real.exp (M i j)) :=
  isMat_exp (x := val_main_v32 (F := Ideal) x0 x1 x2 x3 x4 x5 x6 x7 x8 x9 x10)
    (fun i => val_main_v33_apply (F := Ideal) x0 x1 x2 x3 x4 x5 x6 x7 x8 x9 x10 i) s32

theorem st_v35 {M : Mat 10000 10000} (s33 : IsMat (val_main_v33 (F := Ideal) x0 x1 x2 x3 x4 x5 x6 x7 x8 x9 x10) M) :
    IsMat (val_main_v35 (F := Ideal) x0 x1 x2 x3 x4 x5 x6 x7 x8 x9 x10) (fun i j => 1 + M i j) :=
  isMat_one_add (o := val_main_v34 (F := Ideal)) (x := val_main_v33 (F := Ideal) x0 x1 x2 x3 x4 x5 x6 x7 x8 x9 x10)
    (fun i => val_main_v35_apply (F := Ideal) x0 x1 x2 x3 x4 x5 x6 x7 x8 x9 x10 i) one_v34 s33

theorem st_v37 {M : Mat 10000 10000} (s35 : IsMat (val_main_v35 (F := Ideal) x0 x1 x2 x3 x4 x5 x6 x7 x8 x9 x10) M)
    (hM : ∀ i j, M i j ≠ 0) :
    IsMat (val_main_v37 (F := Ideal) x0 x1 x2 x3 x4 x5 x6 x7 x8 x9 x10) (fun i j => (M i j)⁻¹) :=
  isMat_one_div (o := val_main_v36 (F := Ideal)) (x := val_main_v35 (F := Ideal) x0 x1 x2 x3 x4 x5 x6 x7 x8 x9 x10)
    (fun i => val_main_v37_apply (F := Ideal) x0 x1 x2 x3 x4 x5 x6 x7 x8 x9 x10 i) one_v36 s35 hM

theorem ref_A (X1 X2 adj : Mat 10000 10000) (Wb1 : Mat 10000 16) (Wm1 Wl1 : Mat 16 4) (Wb2 : Mat 10000 16) (Wm2 Wl2 : Mat 16 4)
    (N1 N2 : Mat 10000 4)
    (h0 : IsMat x0 X1) (h1 : IsMat x1 X2) (h2 : IsMat x2 adj) (h3 : IsMat x3 Wb1) (h4 : IsMat x4 Wm1) (h5 : IsMat x5 Wl1)
    (h6 : IsMat x6 Wb2) (h7 : IsMat x7 Wm2) (h8 : IsMat x8 Wl2) (h9 : IsMat x9 N1) (h10 : IsMat x10 N2) :
    IsMat (val_main_v37 (F := Ideal) x0 x1 x2 x3 x4 x5 x6 x7 x8 x9 x10)
      (Ar (Zr1 adj (H1 adj (mm X1 Wb1)) Wm1 Wl1 N1) (Zr2 adj (H2 adj (mm X2 Wb2)) Wm2 Wl2 N2)) := by
  have s10 := ref_Z1 x0 x2 x3 x4 x5 x9 X1 adj Wb1 Wm1 Wl1 N1 h0 h2 h3 h4 h5 h9
  have s22 := ref_Z2 x1 x2 x6 x7 x8 x10 X2 adj Wb2 Wm2 Wl2 N2 h1 h2 h6 h7 h8 h10
  generalize Zr1 adj (H1 adj (mm X1 Wb1)) Wm1 Wl1 N1 = Z1 at s10 ⊢
  generalize Zr2 adj (H2 adj (mm X2 Wb2)) Wm2 Wl2 N2 = Z2 at s22 ⊢
  have s29 := isMat_congr (st_v29 x0 x2 x3 x4 x5 x9 s10 st_v28) (mm_idm Z1)
  have s31 := st_v31 x0 x1 x2 x3 x4 x5 x6 x7 x8 x9 x10 s29 (st_v30 x1 x2 x6 x7 x8 x10 s22)
  have s35 := st_v35 x0 x1 x2 x3 x4 x5 x6 x7 x8 x9 x10 (st_v33 x0 x1 x2 x3 x4 x5 x6 x7 x8 x9 x10
    (st_v32 x0 x1 x2 x3 x4 x5 x6 x7 x8 x9 x10 s31))
  exact isMat_congr (st_v37 x0 x1 x2 x3 x4 x5 x6 x7 x8 x9 x10 s35
    (fun i j => (by positivity : (0 : ℝ) < 1 + Real.exp (-(mm Z1 (tr Z2) i j))).ne')) rfl

end Dec

end Cert.ReferenceIdeal.RefValue

end
-- ==== Proof.lean ====
import proofs.«116956_g88691074663054_cont_9to1c4b_58_37_alg».proof.Defs
import proofs.«116956_g88691074663054_cont_9to1c4b_58_37_alg».proof.Proof.Gen.Kernel
import proofs.«116956_g88691074663054_cont_9to1c4b_58_37_alg».proof.Proof.Gen.KernelIdeal
import proofs.«116956_g88691074663054_cont_9to1c4b_58_37_alg».proof.Proof.Gen.ReferenceIdeal
import proofs.«116956_g88691074663054_cont_9to1c4b_58_37_alg».proof.Proof.Gen.Pre_finite_inputs
import proofs.«116956_g88691074663054_cont_9to1c4b_58_37_alg».proof.Proof.Gen.ReferenceIdeal.Run
import proofs.«116956_g88691074663054_cont_9to1c4b_58_37_alg».proof.Proof.Gen.ReferenceIdeal.Read
import proofs.«116956_g88691074663054_cont_9to1c4b_58_37_alg».proof.Proof.K.Ends
import proofs.«116956_g88691074663054_cont_9to1c4b_58_37_alg».proof.Proof.Bridge
import proofs.«116956_g88691074663054_cont_9to1c4b_58_37_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2.2.2) (Cert.Kernel.Hand.run_vals m ρ)

theorem frame_ki : Cert.frame_KernelIdeal := fun m ρ _ =>
  (θ_run Cert.KernelIdeal.defs _ _).mono (fun _ h c => (h c).2.2.2) (Cert.KernelIdeal.Hand.run_vals m ρ)

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal :=
  ⟨IdealRules.truncf_extf.statement _ _ _, IdealRules.truncf_extf.statement _ _ _,
   IdealRules.truncf_extf.statement _ _ _, IdealRules.truncf_extf.statement _ _ _⟩

theorem algebraic : Cert.algebraic_KernelIdeal_ReferenceIdeal := by
  intro m ρ m' ρ' hpre hagree
  refine ⟨_, _, _, Cert.KernelIdeal.Hand.run_vals m ρ, ?_⟩
  refine (θ_run Cert.ReferenceIdeal.defs _ _).mono (fun _ h c => ?_) (Cert.ReferenceIdeal.Value.run (F := Ideal) m' ρ')
  obtain ⟨kA, kZ1, kZ2⟩ := Cert.KernelIdeal.Hand.kernel_vals m ρ hpre c
  obtain ⟨h37, h10, h22, hargs⟩ := h c
  obtain ⟨g0, g1, g2, g3, g4, g5, g6, g7, g8, g9, g10⟩ := hagree c
  obtain ⟨f0, f1, f2, f3, f4, f5, f6, f7, f8, f9, f10⟩ := Cert.Finite.finite_of_pre m hpre c
  have a0 := Cert.KernelIdeal.Hand.isMat_of_eq g0 (Cert.Finite.isMat_matOf _ f0)
  have a1 := Cert.KernelIdeal.Hand.isMat_of_eq g1 (Cert.Finite.isMat_matOf _ f1)
  have a2 := Cert.KernelIdeal.Hand.isMat_of_eq g2 (Cert.Finite.isMat_matOf _ f2)
  have a3 := Cert.KernelIdeal.Hand.isMat_of_eq g3 (Cert.Finite.isMat_matOf _ f3)
  have a4 := Cert.KernelIdeal.Hand.isMat_of_eq g4 (Cert.Finite.isMat_matOf _ f4)
  have a5 := Cert.KernelIdeal.Hand.isMat_of_eq g5 (Cert.Finite.isMat_matOf _ f5)
  have a6 := Cert.KernelIdeal.Hand.isMat_of_eq g6 (Cert.Finite.isMat_matOf _ f6)
  have a7 := Cert.KernelIdeal.Hand.isMat_of_eq g7 (Cert.Finite.isMat_matOf _ f7)
  have a8 := Cert.KernelIdeal.Hand.isMat_of_eq g8 (Cert.Finite.isMat_matOf _ f8)
  have a9 := Cert.KernelIdeal.Hand.isMat_of_eq g9 (Cert.Finite.isMat_matOf _ f9)
  have a10 := Cert.KernelIdeal.Hand.isMat_of_eq g10 (Cert.Finite.isMat_matOf _ f10)
  refine ⟨h37.trans ?_, h10.trans ?_, h22.trans ?_, hargs⟩
  · exact (Cert.ReferenceIdeal.Read.val_main_v37_eq _ _ _ _ _ _ _ _ _ _ _).trans
      (Cert.Spec.IsMat.ext (Cert.ReferenceIdeal.RefValue.ref_A _ _ _ _ _ _ _ _ _ _ _ _ _ _ _ _ _ _ _ _ _ _ a0 a1 a2 a3 a4 a5 a6 a7 a8 a9 a10) kA)
  · exact (Cert.ReferenceIdeal.Read.val_main_v10_eq _ _ _ _ _ _).trans
      (Cert.Spec.IsMat.ext (Cert.ReferenceIdeal.RefValue.ref_Z1 _ _ _ _ _ _ _ _ _ _ _ _ a0 a2 a3 a4 a5 a9) kZ1)
  · exact (Cert.ReferenceIdeal.Read.val_main_v22_eq _ _ _ _ _ _).trans
      (Cert.Spec.IsMat.ext (Cert.ReferenceIdeal.RefValue.ref_Z2 _ _ _ _ _ _ _ _ _ _ _ _ a1 a2 a6 a7 a8 a10) kZ2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
